-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x8192x128 : Shape := ⟨3, ![2, 8192, 128]⟩
abbrev S2x8192x8192 : Shape := ⟨3, ![2, 8192, 8192]⟩
abbrev S64x128 : Shape := ⟨2, ![64, 128]⟩
abbrev S64 : Shape := ⟨1, ![64]⟩
abbrev S2x64x64 : Shape := ⟨3, ![2, 64, 64]⟩
abbrev S2x64 : Shape := ⟨2, ![2, 64]⟩
abbrev S_ : Shape := ⟨0, ![]⟩

class Facts : Prop where
  bcast_S_S2x8192x128 : S_.BroadcastsInDim S2x8192x128 (![] : Fin 0 → Fin S2x8192x128.rank)
  reducesTo_S2x8192x128_S_d0_1_2 : S2x8192x128.ReducesTo [0, 1, 2] S_
  h_S_ : 0 < S_.numel
  bcast_S_S2x8192x8192 : S_.BroadcastsInDim S2x8192x8192 (![] : Fin 0 → Fin S2x8192x8192.rank)
  reducesTo_S2x8192x8192_S_d0_1_2 : S2x8192x8192.ReducesTo [0, 1, 2] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S2x64x64 : S_.BroadcastsInDim S2x64x64 (![] : Fin 0 → Fin S2x64x64.rank)
  reducesTo_S2x64x64_S_d0_1_2 : S2x64x64.ReducesTo [0, 1, 2] S_
  bcast_S_S2x64 : S_.BroadcastsInDim S2x64 (![] : Fin 0 → Fin S2x64.rank)
  reducesTo_S2x64_S_d0_1 : S2x64.ReducesTo [0, 1] S_

variable [Facts]

def fn_part1 {F : FTy → Type} [FloatOps F] (main_arg4 : FVec F S2x64x64 .f32) (main_arg5 : FVec F S2x64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S2x64x64 .f32 := Host.absf main_arg4
  let main_cst_6 : FVec F S_ .f32 := constant S_ .f32 0x7F800000#32
  let main_v20 : FVec F S2x64x64 .f32 := broadcastInDim S2x64x64 ![] bcast_S_S2x64x64 main_cst_6
  let main_v21 : IVec S2x64x64 1 := cmpf .olt main_v19 main_v20
  let main_c_7 : IVec S_ 1 := constantI S_ 1 1#1
  let main_v22 : IVec S_ 1 := (fun x v => Host.reduce IntOp.andi x v reducesTo_S2x64x64_S_d0_1_2 h_S_) main_v21 main_c_7
  let main_v23 : IVec S_ 1 := andi main_v18 main_v22
  let main_v24 : FVec F S2x64 .f32 := Host.absf main_arg5
  let main_cst_8 : FVec F S_ .f32 := constant S_ .f32 0x7F800000#32
  let main_v25 : FVec F S2x64 .f32 := broadcastInDim S2x64 ![] bcast_S_S2x64 main_cst_8
  let main_v26 : IVec S2x64 1 := cmpf .olt main_v24 main_v25
  let main_c_9 : IVec S_ 1 := constantI S_ 1 1#1
  let main_v27 : IVec S_ 1 := (fun x v => Host.reduce IntOp.andi x v reducesTo_S2x64_S_d0_1 h_S_) main_v26 main_c_9
  let main_v28 : IVec S_ 1 := andi main_v23 main_v27
  main_v28

def fn {F : FTy → Type} [FloatOps F] (main_arg0 : FVec F S2x8192x128 .f32) (main_arg1 : FVec F S2x8192x8192 .f32) (main_arg2 : FVec F S64x128 .f32) (main_arg3 : FVec F S64 .f32) (main_arg4 : FVec F S2x64x64 .f32) (main_arg5 : FVec F S2x64 .f32) : IVec S_ 1 :=
  let main_v0 : FVec F S2x8192x128 .f32 := Host.absf main_arg0
  let main_cst : FVec F S_ .f32 := constant S_ .f32 0x7F800000#32
  let main_v1 : FVec F S2x8192x128 .f32 := broadcastInDim S2x8192x128 ![] bcast_S_S2x8192x128 main_cst
  let main_v2 : IVec S2x8192x128 1 := cmpf .olt main_v0 main_v1
  let main_c : IVec S_ 1 := constantI S_ 1 1#1
  let main_v3 : IVec S_ 1 := (fun x v => Host.reduce IntOp.andi x v reducesTo_S2x8192x128_S_d0_1_2 h_S_) main_v2 main_c
  let main_v4 : FVec F S2x8192x8192 .f32 := Host.absf main_arg1
  let main_cst_0 : FVec F S_ .f32 := constant S_ .f32 0x7F800000#32
  let main_v5 : FVec F S2x8192x8192 .f32 := broadcastInDim S2x8192x8192 ![] bcast_S_S2x8192x8192 main_cst_0
  let main_v6 : IVec S2x8192x8192 1 := cmpf .olt main_v4 main_v5
  let main_c_1 : IVec S_ 1 := constantI S_ 1 1#1
  let main_v7 : IVec S_ 1 := (fun x v => Host.reduce IntOp.andi x v reducesTo_S2x8192x8192_S_d0_1_2 h_S_) main_v6 main_c_1
  let main_v8 : IVec S_ 1 := andi main_v3 main_v7
  let main_v9 : FVec F S64x128 .f32 := Host.absf main_arg2
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_v13 main_v16
-- ==== Kernel.lean ====
abbrev S2x8192x128 : Shape := ⟨3, ![2, 8192, 128]⟩
abbrev S2x8192x8192 : Shape := ⟨3, ![2, 8192, 8192]⟩
abbrev S64x128 : Shape := ⟨2, ![64, 128]⟩
abbrev S64 : Shape := ⟨1, ![64]⟩
abbrev S2x64x64 : Shape := ⟨3, ![2, 64, 64]⟩
abbrev S2x64 : Shape := ⟨2, ![2, 64]⟩
abbrev S1x256x8192 : Shape := ⟨3, ![1, 256, 8192]⟩
abbrev S1x64 : Shape := ⟨2, ![1, 64]⟩
abbrev S2x8192x64 : Shape := ⟨3, ![2, 8192, 64]⟩
abbrev S1x1024x128 : Shape := ⟨3, ![1, 1024, 128]⟩
abbrev S1x1024x64 : Shape := ⟨3, ![1, 1024, 64]⟩
abbrev S1024x128 : Shape := ⟨2, ![1024, 128]⟩
abbrev S1024x64 : Shape := ⟨2, ![1024, 64]⟩
abbrev S1x2048x2048 : Shape := ⟨3, ![1, 2048, 2048]⟩
abbrev S1x2048x64 : Shape := ⟨3, ![1, 2048, 64]⟩
abbrev S2048x64 : Shape := ⟨2, ![2048, 64]⟩
abbrev S2048x2048 : Shape := ⟨2, ![2048, 2048]⟩
abbrev S1x64x64 : Shape := ⟨3, ![1, 64, 64]⟩
abbrev S64x64 : Shape := ⟨2, ![64, 64]⟩

abbrev nBuf : Space → Nat
  | .hbm => 29
  | .vmem => 78
  | .smem => 0
  | _ => 0

abbrev bufTy : (tb : Table) → Fin (tcTables nBuf tb) → BufTy
  | .hbm, ⟨0, _⟩ => ⟨S2x8192x128, .f32⟩
  | .hbm, ⟨1, _⟩ => ⟨S2x8192x8192, .f32⟩
  | .hbm, ⟨2, _⟩ => ⟨S64x128, .f32⟩
  | .hbm, ⟨3, _⟩ => ⟨S64, .f32⟩
  | .hbm, ⟨4, _⟩ => ⟨S2x64x64, .f32⟩
  | .hbm, ⟨5, _⟩ => ⟨S2x64, .f32⟩
  | .hbm, ⟨6, _⟩ => ⟨S2x8192x8192, .bf16⟩
  | .hbm, ⟨7, _⟩ => ⟨S1x64, .f32⟩
  | .hbm, ⟨8, _⟩ => ⟨S2x8192x64, .f32⟩
  | .hbm, ⟨9, _⟩ => ⟨S2x8192x64, .f32⟩
  | .hbm, ⟨10, _⟩ => ⟨S2x8192x64, .f32⟩
  | .hbm, ⟨11, _⟩ => ⟨S2x8192x64, .f32⟩
  | .hbm, ⟨12, _⟩ => ⟨S2x8192x64, .f32⟩
  | .hbm, ⟨13, _⟩ => ⟨S1x64x64, .f32⟩
  | .hbm, ⟨14, _⟩ => ⟨S64x64, .f32⟩
  | .hbm, ⟨15, _⟩ => ⟨S1x64, .f32⟩
  | .hbm, ⟨16, _⟩ => ⟨S64, .f32⟩
  | .hbm, ⟨17, _⟩ => ⟨S1x64, .f32⟩
  | .hbm, ⟨18, _⟩ => ⟨S2x8192x64, .f32⟩
  | .hbm, ⟨19, _⟩ => ⟨S2x8192x64, .f32⟩
  | .hbm, ⟨20, _⟩ => ⟨S2x8192x64, .f32⟩
  | .hbm, ⟨21, _⟩ => ⟨S2x8192x64, .f32⟩
  | .hbm, ⟨22, _⟩ => ⟨S2x8192x64, .f32⟩
  | .hbm, ⟨23, _⟩ => ⟨S1x64x64, .f32⟩
  | .hbm, ⟨24, _⟩ => ⟨S64x64, .f32⟩
  | .hbm, ⟨25, _⟩ => ⟨S1x64, .f32⟩
  | .hbm, ⟨26, _⟩ => ⟨S64, .f32⟩
  | .hbm, ⟨27, _⟩ => ⟨S1x64, .f32⟩
  | .hbm, ⟨28, _⟩ => ⟨S2x8192x64, .f32⟩
  | .local _ .vmem, ⟨0, _⟩ => ⟨S1x256x8192, .f32⟩
  | .local _ .vmem, ⟨1, _⟩ => ⟨S1x256x8192, .f32⟩
  | .local _ .vmem, ⟨2, _⟩ => ⟨S1x256x8192, .bf16⟩
  | .local _ .vmem, ⟨3, _⟩ => ⟨S1x256x8192, .bf16⟩
  | .local _ .vmem, ⟨4, _⟩ => ⟨S1x1024x128, .f32⟩
  | .local _ .vmem, ⟨5, _⟩ => ⟨S1x1024x128, .f32⟩
  | .local _ .vmem, ⟨6, _⟩ => ⟨S64x128, .f32⟩
  | .local _ .vmem, ⟨7, _⟩ => ⟨S1x64, .f32⟩
  | .local _ .vmem, ⟨8, _⟩ => ⟨S1x1024x64, .f32⟩
  | .local _ .vmem, ⟨9, _⟩ => ⟨S1x1024x64, .f32⟩
  | .local _ .vmem, ⟨10, _⟩ => ⟨S1x2048x2048, .bf16⟩
  | .local _ .vmem, ⟨11, _⟩ => ⟨S1x2048x2048, .bf16⟩
  | .local _ .vmem, ⟨12, _⟩ => ⟨S1x2048x64, .f32⟩
  | .local _ .vmem, ⟨13, _⟩ => ⟨S1x2048x64, .f32⟩
  | .local _ .vmem, ⟨14, _⟩ => ⟨S1x2048x64, .f32⟩
  | .local _ .vmem, ⟨15, _⟩ => ⟨S1x2048x64, .f32⟩
  | .local _ .vmem, ⟨16, _⟩ => ⟨S2048x64, .f32⟩
  | .local _ .vmem, ⟨17, _⟩ => ⟨S1x2048x2048, .bf16⟩
  | .local _ .vmem, ⟨18, _⟩ => ⟨S1x2048x2048, .bf16⟩
  | .local _ .vmem, ⟨19, _⟩ => ⟨S1x2048x64, .f32⟩
  | .local _ .vmem, ⟨20, _⟩ => ⟨S1x2048x64, .f32⟩
  | .local _ .vmem, ⟨21, _⟩ => ⟨S1x2048x64, .f32⟩
  | .local _ .vmem, ⟨22, _⟩ => ⟨S1x2048x64, .f32⟩
  | .local _ .vmem, ⟨23, _⟩ => ⟨S2048x64, .f32⟩
  | .local _ .vmem, ⟨24, _⟩ => ⟨S1x2048x2048, .bf16⟩
  | .local _ .vmem, ⟨25, _⟩ => ⟨S1x2048x2048, .bf16⟩
  | .local _ .vmem, ⟨26, _⟩ => ⟨S1x2048x64, .f32⟩
  | .local _ .vmem, ⟨27, _⟩ => ⟨S1x2048x64, .f32⟩
  | .local _ .vmem, ⟨28, _⟩ => ⟨S1x2048x64, .f32⟩
  | .local _ .vmem, ⟨29, _⟩ => ⟨S1x2048x64, .f32⟩
  | .local _ .vmem, ⟨30, _⟩ => ⟨S2048x64, .f32⟩
  | .local _ .vmem, ⟨31, _⟩ => ⟨S1x2048x2048, .bf16⟩
  | .local _ .vmem, ⟨32, _⟩ => ⟨S1x2048x2048, .bf16⟩
  | .local _ .vmem, ⟨33, _⟩ => ⟨S1x2048x64, .f32⟩
  | .local _ .vmem, ⟨34, _⟩ => ⟨S1x2048x64, .f32⟩
  | .local _ .vmem, ⟨35, _⟩ => ⟨S1x2048x64, .f32⟩
  | .local _ .vmem, ⟨36, _⟩ => ⟨S1x2048x64, .f32⟩
  | .local _ .vmem, ⟨37, _⟩ => ⟨S2048x64, .f32⟩
  | .local _ .vmem, ⟨38, _⟩ => ⟨S1x1024x64, .f32⟩
  | .local _ .vmem, ⟨39, _⟩ => ⟨S1x1024x64, .f32⟩
  | .local _ .vmem, ⟨40, _⟩ => ⟨S64x64, .f32⟩
  | .local _ .vmem, ⟨41, _⟩ => ⟨S1x64, .f32⟩
  | .local _ .vmem, ⟨42, _⟩ => ⟨S1x1024x64, .f32⟩
  | .local _ .vmem, ⟨43, _⟩ => ⟨S1x1024x64, .f32⟩
  | .local _ .vmem, ⟨44, _⟩ => ⟨S1x2048x2048, .bf16⟩
  | .local _ .vmem, ⟨45, _⟩ => ⟨S1x2048x2048, .bf16⟩
  | .local _ .vmem, ⟨46, _⟩ => ⟨S1x2048x64, .f32⟩
  | .local _ .vmem, ⟨47, _⟩ => ⟨S1x2048x64, .f32⟩
  | .local _ .vmem, ⟨48, _⟩ => ⟨S1x2048x64, .f32⟩
  | .local _ .vmem, ⟨49, _⟩ => ⟨S1x2048x64, .f32⟩
  | .local _ .vmem, ⟨50, _⟩ => ⟨S2048x64, .f32⟩
  | .local _ .vmem, ⟨51, _⟩ => ⟨S1x2048x2048, .bf16⟩
  | .local _ .vmem, ⟨52, _⟩ => ⟨S1x2048x2048, .bf16⟩
  | .local _ .vmem, ⟨53, _⟩ => ⟨S1x2048x64, .f32⟩
  | .local _ .vmem, ⟨54, _⟩ => ⟨S1x2048x64, .f32⟩
  | .local _ .vmem, ⟨55, _⟩ => ⟨S1x2048x64, .f32⟩
  | .local _ .vmem, ⟨56, _⟩ => ⟨S1x2048x64, .f32⟩
  | .local _ .vmem, ⟨57, _⟩ => ⟨S2048x64, .f32⟩
  | .local _ .vmem, ⟨58, _⟩ => ⟨S1x2048x2048, .bf16⟩
  | .local _ .vmem, ⟨59, _⟩ => ⟨S1x2048x2048, .bf16⟩
  | .local _ .vmem, ⟨60, _⟩ => ⟨S1x2048x64, .f32⟩
  | .local _ .vmem, ⟨61, _⟩ => ⟨S1x2048x64, .f32⟩
  | .local _ .vmem, ⟨62, _⟩ => ⟨S1x2048x64, .f32⟩
  | .local _ .vmem, ⟨63, _⟩ => ⟨S1x2048x64, .f32⟩
  | .local _ .vmem, ⟨64, _⟩ => ⟨S2048x64, .f32⟩
  | .local _ .vmem, ⟨65, _⟩ => ⟨S1x2048x2048, .bf16⟩
  | .local _ .vmem, ⟨66, _⟩ => ⟨S1x2048x2048, .bf16⟩
  | .local _ .vmem, ⟨67, _⟩ => ⟨S1x2048x64, .f32⟩
  | .local _ .vmem, ⟨68, _⟩ => ⟨S1x2048x64, .f32⟩
  | .local _ .vmem, ⟨69, _⟩ => ⟨S1x2048x64, .f32⟩
  | .local _ .vmem, ⟨70, _⟩ => ⟨S1x2048x64, .f32⟩
  | .local _ .vmem, ⟨71, _⟩ => ⟨S2048x64, .f32⟩
  | .local _ .vmem, ⟨72, _⟩ => ⟨S1x1024x64, .f32⟩
  | .local _ .vmem, ⟨73, _⟩ => ⟨S1x1024x64, .f32⟩
  | .local _ .vmem, ⟨74, _⟩ => ⟨S64x64, .f32⟩
  | .local _ .vmem, ⟨75, _⟩ => ⟨S1x64, .f32⟩
  | .local _ .vmem, ⟨76, _⟩ => ⟨S1x1024x64, .f32⟩
  | .local _ .vmem, ⟨77, _⟩ => ⟨S1x1024x64, .f32⟩
  | _, _ => ⟨S2x8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | _, _ => false

abbrev semScoped : Fin 0 → Bool
  | ⟨_, h⟩ => absurd h (Nat.not_lt_zero _)

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  ofTc nBuf bufTy 0 70 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg3_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_scratch0 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg2_1 : Ref sig .tc := ⟨.vmem, 22, rfl⟩
abbrev cc3_scratch0 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg2_1 : Ref sig .tc := ⟨.vmem, 29, rfl⟩
abbrev cc4_scratch0 : Ref sig .tc := ⟨.vmem, 30, rfl⟩
abbrev cc5_stg0_0 : Ref sig .tc := ⟨.vmem, 31, rfl⟩
abbrev cc5_stg0_1 : Ref sig .tc := ⟨.vmem, 32, rfl⟩
abbrev cc5_stg1_0 : Ref sig .tc := ⟨.vmem, 33, rfl⟩
abbrev cc5_stg1_1 : Ref sig .tc := ⟨.vmem, 34, rfl⟩
abbrev cc5_stg2_0 : Ref sig .tc := ⟨.vmem, 35, rfl⟩
abbrev cc5_stg2_1 : Ref sig .tc := ⟨.vmem, 36, rfl⟩
abbrev cc5_scratch0 : Ref sig .tc := ⟨.vmem, 37, rfl⟩
abbrev cc6_stg0_0 : Ref sig .tc := ⟨.vmem, 38, rfl⟩
abbrev cc6_stg0_1 : Ref sig .tc := ⟨.vmem, 39, rfl⟩
abbrev cc6_stg1_0 : Ref sig .tc := ⟨.vmem, 40, rfl⟩
abbrev cc6_stg2_0 : Ref sig .tc := ⟨.vmem, 41, rfl⟩
abbrev cc6_stg3_0 : Ref sig .tc := ⟨.vmem, 42, rfl⟩
abbrev cc6_stg3_1 : Ref sig .tc := ⟨.vmem, 43, rfl⟩
abbrev cc7_stg0_0 : Ref sig .tc := ⟨.vmem, 44, rfl⟩
abbrev cc7_stg0_1 : Ref sig .tc := ⟨.vmem, 45, rfl⟩
abbrev cc7_stg1_0 : Ref sig .tc := ⟨.vmem, 46, rfl⟩
abbrev cc7_stg1_1 : Ref sig .tc := ⟨.vmem, 47, rfl⟩
abbrev cc7_stg2_0 : Ref sig .tc := ⟨.vmem, 48, rfl⟩
abbrev cc7_stg2_1 : Ref sig .tc := ⟨.vmem, 49, rfl⟩
abbrev cc7_scratch0 : Ref sig .tc := ⟨.vmem, 50, rfl⟩
abbrev cc8_stg0_0 : Ref sig .tc := ⟨.vmem, 51, rfl⟩
abbrev cc8_stg0_1 : Ref sig .tc := ⟨.vmem, 52, rfl⟩
abbrev cc8_stg1_0 : Ref sig .tc := ⟨.vmem, 53, rfl⟩
abbrev cc8_stg1_1 : Ref sig .tc := ⟨.vmem, 54, rfl⟩
abbrev cc8_stg2_0 : Ref sig .tc := ⟨.vmem, 55, rfl⟩
abbrev cc8_stg2_1 : Ref sig .tc := ⟨.vmem, 56, rfl⟩
abbrev cc8_scratch0 : Ref sig .tc := ⟨.vmem, 57, rfl⟩
abbrev cc9_stg0_0 : Ref sig .tc := ⟨.vmem, 58, rfl⟩
abbrev cc9_stg0_1 : Ref sig .tc := ⟨.vmem, 59, rfl⟩
abbrev cc9_stg1_0 : Ref sig .tc := ⟨.vmem, 60, rfl⟩
abbrev cc9_stg1_1 : Ref sig .tc := ⟨.vmem, 61, rfl⟩
abbrev cc9_stg2_0 : Ref sig .tc := ⟨.vmem, 62, rfl⟩
abbrev cc9_stg2_1 : Ref sig .tc := ⟨.vmem, 63, rfl⟩
abbrev cc9_scratch0 : Ref sig .tc := ⟨.vmem, 64, rfl⟩
abbrev cc10_stg0_0 : Ref sig .tc := ⟨.vmem, 65, rfl⟩
abbrev cc10_stg0_1 : Ref sig .tc := ⟨.vmem, 66, rfl⟩
abbrev cc10_stg1_0 : Ref sig .tc := ⟨.vmem, 67, rfl⟩
abbrev cc10_stg1_1 : Ref sig .tc := ⟨.vmem, 68, rfl⟩
abbrev cc10_stg2_0 : Ref sig .tc := ⟨.vmem, 69, rfl⟩
abbrev cc10_stg2_1 : Ref sig .tc := ⟨.vmem, 70, rfl⟩
abbrev cc10_scratch0 : Ref sig .tc := ⟨.vmem, 71, rfl⟩
abbrev cc11_stg0_0 : Ref sig .tc := ⟨.vmem, 72, rfl⟩
abbrev cc11_stg0_1 : Ref sig .tc := ⟨.vmem, 73, rfl⟩
abbrev cc11_stg1_0 : Ref sig .tc := ⟨.vmem, 74, rfl⟩
abbrev cc11_stg2_0 : Ref sig .tc := ⟨.vmem, 75, rfl⟩
abbrev cc11_stg3_0 : Ref sig .tc := ⟨.vmem, 76, rfl⟩
abbrev cc11_stg3_1 : Ref sig .tc := ⟨.vmem, 77, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem3_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem1_1 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem1_1 : DmaSem sig := 25
abbrev cc4_sem2_0 : DmaSem sig := 26
abbrev cc4_sem2_1 : DmaSem sig := 27
abbrev cc5_sem0_0 : DmaSem sig := 28
abbrev cc5_sem0_1 : DmaSem sig := 29
abbrev cc5_sem1_0 : DmaSem sig := 30
abbrev cc5_sem1_1 : DmaSem sig := 31
abbrev cc5_sem2_0 : DmaSem sig := 32
abbrev cc5_sem2_1 : DmaSem sig := 33
abbrev cc6_sem0_0 : DmaSem sig := 34
abbrev cc6_sem0_1 : DmaSem sig := 35
abbrev cc6_sem1_0 : DmaSem sig := 36
abbrev cc6_sem2_0 : DmaSem sig := 37
abbrev cc6_sem3_0 : DmaSem sig := 38
abbrev cc6_sem3_1 : DmaSem sig := 39
abbrev cc7_sem0_0 : DmaSem sig := 40
abbrev cc7_sem0_1 : DmaSem sig := 41
abbrev cc7_sem1_0 : DmaSem sig := 42
abbrev cc7_sem1_1 : DmaSem sig := 43
abbrev cc7_sem2_0 : DmaSem sig := 44
abbrev cc7_sem2_1 : DmaSem sig := 45
abbrev cc8_sem0_0 : DmaSem sig := 46
abbrev cc8_sem0_1 : DmaSem sig := 47
abbrev cc8_sem1_0 : DmaSem sig := 48
abbrev cc8_sem1_1 : DmaSem sig := 49
abbrev cc8_sem2_0 : DmaSem sig := 50
abbrev cc8_sem2_1 : DmaSem sig := 51
abbrev cc9_sem0_0 : DmaSem sig := 52
abbrev cc9_sem0_1 : DmaSem sig := 53
abbrev cc9_sem1_0 : DmaSem sig := 54
abbrev cc9_sem1_1 : DmaSem sig := 55
abbrev cc9_sem2_0 : DmaSem sig := 56
abbrev cc9_sem2_1 : DmaSem sig := 57
abbrev cc10_sem0_0 : DmaSem sig := 58
abbrev cc10_sem0_1 : DmaSem sig := 59
abbrev cc10_sem1_0 : DmaSem sig := 60
abbrev cc10_sem1_1 : DmaSem sig := 61
abbrev cc10_sem2_0 : DmaSem sig := 62
abbrev cc10_sem2_1 : DmaSem sig := 63
abbrev cc11_sem0_0 : DmaSem sig := 64
abbrev cc11_sem0_1 : DmaSem sig := 65
abbrev cc11_sem1_0 : DmaSem sig := 66
abbrev cc11_sem2_0 : DmaSem sig := 67
abbrev cc11_sem3_0 : DmaSem sig := 68
abbrev cc11_sem3_1 : DmaSem sig := 69

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨2, ![2, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S64x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x1024x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨3, ![2, 4, 4], ![false, false, false]⟩

def k2_cond2 (i : grid2.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_10 : BitVec 32 := 0#32
  let v16 : BitVec 1 := Scalar.cmpi .ne v15 c0_i32_10
  v16

def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage2_0 : Fin 2 → Memref sig .tc .vmem S1x2048x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, true]

abbrev stage2_1 : Fin 2 → Memref sig .tc .vmem S1x2048x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false, true]

abbrev stage2_2 : Fin 2 → Memref sig .tc .vmem S1x2048x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![2, 4, 4], ![false, false, false]⟩

def k3_cond2 (i : grid3.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_10 : BitVec 32 := 0#32
  let v16 : BitVec 1 := Scalar.cmpi .ne v15 c0_i32_10
  v16

def cc3_transform_0 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc3_transform_1 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc3_transform_2 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage3_0 : Fin 2 → Memref sig .tc .vmem S1x2048x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true, true]

abbrev stage3_1 : Fin 2 → Memref sig .tc .vmem S1x2048x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false, true]

abbrev stage3_2 : Fin 2 → Memref sig .tc .vmem S1x2048x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![2, 4, 4], ![false, false, false]⟩

def k4_cond2 (i : grid4.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_10 : BitVec 32 := 0#32
  let v16 : BitVec 1 := Scalar.cmpi .ne v15 c0_i32_10
  v16

def cc4_transform_0 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc4_transform_1 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc4_transform_2 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage4_0 : Fin 2 → Memref sig .tc .vmem S1x2048x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true, true]

abbrev stage4_1 : Fin 2 → Memref sig .tc .vmem S1x2048x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false, true]

abbrev stage4_2 : Fin 2 → Memref sig .tc .vmem S1x2048x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![2, 4, 4], ![false, false, false]⟩

def k5_cond2 (i : grid5.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_10 : BitVec 32 := 0#32
  let v16 : BitVec 1 := Scalar.cmpi .ne v15 c0_i32_10
  v16

def cc5_transform_0 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc5_transform_1 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc5_transform_2 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage5_0 : Fin 2 → Memref sig .tc .vmem S1x2048x2048 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true, true]

abbrev stage5_1 : Fin 2 → Memref sig .tc .vmem S1x2048x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, false, true]

abbrev stage5_2 : Fin 2 → Memref sig .tc .vmem S1x2048x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨2, ![2, 8], ![false, false]⟩

def cc6_transform_0 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage6_0 : Fin 2 → Memref sig .tc .vmem S1x1024x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, true]

abbrev stage6_1 : Fin 1 → Memref sig .tc .vmem S64x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false, false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false, false]

abbrev stage6_3 : Fin 2 → Memref sig .tc .vmem S1x1024x64 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, true]

abbrev grid7 : Pipeline.Grid := ⟨3, ![2, 4, 4], ![false, false, false]⟩

def k7_cond2 (i : grid7.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_10 : BitVec 32 := 0#32
  let v16 : BitVec 1 := Scalar.cmpi .ne v15 c0_i32_10
  v16

def cc7_transform_0 (i : grid7.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc7_transform_1 (i : grid7.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc7_transform_2 (i : grid7.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage7_0 : Fin 2 → Memref sig .tc .vmem S1x2048x2048 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, true, true]

abbrev stage7_1 : Fin 2 → Memref sig .tc .vmem S1x2048x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true, false, true]

abbrev stage7_2 : Fin 2 → Memref sig .tc .vmem S1x2048x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true, false]

abbrev grid8 : Pipeline.Grid := ⟨3, ![2, 4, 4], ![false, false, false]⟩

def k8_cond2 (i : grid8.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_10 : BitVec 32 := 0#32
  let v16 : BitVec 1 := Scalar.cmpi .ne v15 c0_i32_10
  v16

def cc8_transform_0 (i : grid8.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc8_transform_1 (i : grid8.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc8_transform_2 (i : grid8.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage8_0 : Fin 2 → Memref sig .tc .vmem S1x2048x2048 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, true, true]

abbrev stage8_1 : Fin 2 → Memref sig .tc .vmem S1x2048x64 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true, false, true]

abbrev stage8_2 : Fin 2 → Memref sig .tc .vmem S1x2048x64 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true, false]

abbrev grid9 : Pipeline.Grid := ⟨3, ![2, 4, 4], ![false, false, false]⟩

def k9_cond2 (i : grid9.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_10 : BitVec 32 := 0#32
  let v16 : BitVec 1 := Scalar.cmpi .ne v15 c0_i32_10
  v16

def cc9_transform_0 (i : grid9.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc9_transform_1 (i : grid9.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc9_transform_2 (i : grid9.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage9_0 : Fin 2 → Memref sig .tc .vmem S1x2048x2048 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, true, true]

abbrev stage9_1 : Fin 2 → Memref sig .tc .vmem S1x2048x64 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true, false, true]

abbrev stage9_2 : Fin 2 → Memref sig .tc .vmem S1x2048x64 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, true, false]

abbrev grid10 : Pipeline.Grid := ⟨3, ![2, 4, 4], ![false, false, false]⟩

def k10_cond2 (i : grid10.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_10 : BitVec 32 := 0#32
  let v16 : BitVec 1 := Scalar.cmpi .ne v15 c0_i32_10
  v16

def cc10_transform_0 (i : grid10.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc10_transform_1 (i : grid10.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc10_transform_2 (i : grid10.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage10_0 : Fin 2 → Memref sig .tc .vmem S1x2048x2048 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true, true, true]

abbrev stage10_1 : Fin 2 → Memref sig .tc .vmem S1x2048x64 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true, false, true]

abbrev stage10_2 : Fin 2 → Memref sig .tc .vmem S1x2048x64 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true, true, false]

abbrev grid11 : Pipeline.Grid := ⟨2, ![2, 8], ![false, false]⟩

def cc11_transform_0 (i : grid11.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc11_transform_1 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage11_0 : Fin 2 → Memref sig .tc .vmem S1x1024x64 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true, true]

abbrev stage11_1 : Fin 1 → Memref sig .tc .vmem S64x64 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false, false]

abbrev stage11_2 : Fin 1 → Memref sig .tc .vmem S1x64 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false, false]

abbrev stage11_3 : Fin 2 → Memref sig .tc .vmem S1x1024x64 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true, true]

class Facts₀ : Prop where
  inb_S1x256x8192_S1x256x8192_0_0_0 : ∀ a, (![0, 0, 0] : Fin 3 → Nat) a + S1x256x8192.size a ≤ S1x256x8192.size a
  h_S1x256x8192 : 0 < S1x256x8192.numel
  bitsLt_bf16_f32 : FTy.bits .bf16 < FTy.bits .f32
  packedbf16_S1x256x8192_S1x256x8192_0_0_0 : (Rect.unit (s := S1x256x8192) ![0, 0, 0] S1x256x8192.size inb_S1x256x8192_S1x256x8192_0_0_0).PackedRows (EltTy.packing .bf16)
  shapeCasts_S64_S1x64 : S64.ShapeCasts S1x64
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  inb_S64x128_S64x128_0_0 : ∀ a, (![0, 0] : Fin 2 → Nat) a + S64x128.size a ≤ S64x128.size a
  h_S64x128 : 0 < S64x128.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  shapeCasts_S1024x64_S1x1024x64 : S1024x64.ShapeCasts S1x1024x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S1x2048x2048_S1x2048x2048_0_0_0 : ∀ a, (![0, 0, 0] : Fin 3 → Nat) a + S1x2048x2048.size a ≤ S1x2048x2048.size a
  h_S1x2048x2048 : 0 < S1x2048x2048.numel
  shapeCasts_S1x2048x2048_S2048x2048 : S1x2048x2048.ShapeCasts S2048x2048
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  shapeCasts_S2048x64_S1x2048x64 : S2048x64.ShapeCasts S1x2048x64
  slices_S2x64x64_S1x64x64_0_0_0 : S2x64x64.Slices ![0, 0, 0] S1x64x64
  shapeCasts_S1x64x64_S64x64 : S1x64x64.ShapeCasts S64x64
  slices_S2x64_S1x64_0_0 : S2x64.Slices ![0, 0] S1x64
  shapeCasts_S1x64_S64 : S1x64.ShapeCasts S64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  slices_S2x64x64_S1x64x64_1_0_0 : S2x64x64.Slices ![1, 0, 0] S1x64x64
  slices_S2x64_S1x64_1_0 : S2x64.Slices ![1, 0] S1x64
  dot_S1024x128_S64x128_S1024x64_1_1_0_0_n_n_wf : DotDims.WF S1024x128 S64x128 S1024x64 [1] [1] [0] [0] [] []
  dot_S2048x2048_S2048x64_S2048x64_1_0_0_1_n_n_wf : DotDims.WF S2048x2048 S2048x64 S2048x64 [1] [0] [0] [1] [] []
  dot_S1024x64_S64x64_S1024x64_1_1_0_0_n_n_wf : DotDims.WF S1024x64 S64x64 S1024x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x8192.size a ≤ S2x8192x8192.size a
  hwx0_0 : ∀ i : grid0.Coords, EltTy.bits .f32 = 32 ∨ (Rect.block (s := S2x8192x8192) S1x256x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x8192.size a ≤ S2x8192x8192.size a
  hwx0_1 : ∀ i : grid0.Coords, EltTy.bits .bf16 = 32 ∨ (Rect.block (s := S2x8192x8192) S1x256x8192.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x128.size a ≤ S2x8192x128.size a
  hwx1_0 : ∀ i : grid1.Coords, EltTy.bits .f32 = 32 ∨ (Rect.block (s := S2x8192x128) S1x1024x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x128.size a ≤ S64x128.size a
  hwx1_1 : ∀ i : grid1.Coords, EltTy.bits .f32 = 32 ∨ (Rect.block (s := S64x128) S64x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x64.size a ≤ S2x8192x64.size a
  hwx1_3 : ∀ i : grid1.Coords, EltTy.bits .f32 = 32 ∨ (Rect.block (s := S2x8192x64) S1x1024x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x2048x2048.size a ≤ S2x8192x8192.size a
  hwx2_0 : ∀ i : grid2.Coords, EltTy.bits .bf16 = 32 ∨ (Rect.block (s := S2x8192x8192) S1x2048x2048.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x2048x64.size a ≤ S2x8192x64.size a
  hwx2_1 : ∀ i : grid2.Coords, EltTy.bits .f32 = 32 ∨ (Rect.block (s := S2x8192x64) S1x2048x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x2048x64.size a ≤ S2x8192x64.size a
  hwx2_2 : ∀ i : grid2.Coords, EltTy.bits .f32 = 32 ∨ (Rect.block (s := S2x8192x64) S1x2048x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x2048x2048.size a ≤ S2x8192x8192.size a
  hwx3_0 : ∀ i : grid3.Coords, EltTy.bits .bf16 = 32 ∨ (Rect.block (s := S2x8192x8192) S1x2048x2048.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x2048x64.size a ≤ S2x8192x64.size a
  hwx3_1 : ∀ i : grid3.Coords, EltTy.bits .f32 = 32 ∨ (Rect.block (s := S2x8192x64) S1x2048x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x2048x64.size a ≤ S2x8192x64.size a
  hwx3_2 : ∀ i : grid3.Coords, EltTy.bits .f32 = 32 ∨ (Rect.block (s := S2x8192x64) S1x2048x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1x2048x2048.size a ≤ S2x8192x8192.size a
  hwx4_0 : ∀ i : grid4.Coords, EltTy.bits .bf16 = 32 ∨ (Rect.block (s := S2x8192x8192) S1x2048x2048.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1x2048x64.size a ≤ S2x8192x64.size a
  hwx4_1 : ∀ i : grid4.Coords, EltTy.bits .f32 = 32 ∨ (Rect.block (s := S2x8192x64) S1x2048x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1x2048x64.size a ≤ S2x8192x64.size a
  hwx4_2 : ∀ i : grid4.Coords, EltTy.bits .f32 = 32 ∨ (Rect.block (s := S2x8192x64) S1x2048x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1x2048x2048.size a ≤ S2x8192x8192.size a
  hwx5_0 : ∀ i : grid5.Coords, EltTy.bits .bf16 = 32 ∨ (Rect.block (s := S2x8192x8192) S1x2048x2048.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1x2048x64.size a ≤ S2x8192x64.size a
  hwx5_1 : ∀ i : grid5.Coords, EltTy.bits .f32 = 32 ∨ (Rect.block (s := S2x8192x64) S1x2048x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1x2048x64.size a ≤ S2x8192x64.size a
  hwx5_2 : ∀ i : grid5.Coords, EltTy.bits .f32 = 32 ∨ (Rect.block (s := S2x8192x64) S1x2048x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1x1024x64.size a ≤ S2x8192x64.size a
  hwx6_0 : ∀ i : grid6.Coords, EltTy.bits .f32 = 32 ∨ (Rect.block (s := S2x8192x64) S1x1024x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x64.size a ≤ S64x64.size a
  hwx6_1 : ∀ i : grid6.Coords, EltTy.bits .f32 = 32 ∨ (Rect.block (s := S64x64) S64x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S1x1024x64.size a ≤ S2x8192x64.size a
  hwx6_3 : ∀ i : grid6.Coords, EltTy.bits .f32 = 32 ∨ (Rect.block (s := S2x8192x64) S1x1024x64.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1x2048x2048.size a ≤ S2x8192x8192.size a
  hwx7_0 : ∀ i : grid7.Coords, EltTy.bits .bf16 = 32 ∨ (Rect.block (s := S2x8192x8192) S1x2048x2048.size (cc7_transform_0 i) (hinb7_0 i)).WholeWords (EltTy.packing .bf16)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S1x2048x64.size a ≤ S2x8192x64.size a
  hwx7_1 : ∀ i : grid7.Coords, EltTy.bits .f32 = 32 ∨ (Rect.block (s := S2x8192x64) S1x2048x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S1x2048x64.size a ≤ S2x8192x64.size a
  hwx7_2 : ∀ i : grid7.Coords, EltTy.bits .f32 = 32 ∨ (Rect.block (s := S2x8192x64) S1x2048x64.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S1x2048x2048.size a ≤ S2x8192x8192.size a
  hwx8_0 : ∀ i : grid8.Coords, EltTy.bits .bf16 = 32 ∨ (Rect.block (s := S2x8192x8192) S1x2048x2048.size (cc8_transform_0 i) (hinb8_0 i)).WholeWords (EltTy.packing .bf16)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S1x2048x64.size a ≤ S2x8192x64.size a
  hwx8_1 : ∀ i : grid8.Coords, EltTy.bits .f32 = 32 ∨ (Rect.block (s := S2x8192x64) S1x2048x64.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S1x2048x64.size a ≤ S2x8192x64.size a
  hwx8_2 : ∀ i : grid8.Coords, EltTy.bits .f32 = 32 ∨ (Rect.block (s := S2x8192x64) S1x2048x64.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S1x2048x2048.size a ≤ S2x8192x8192.size a
  hwx9_0 : ∀ i : grid9.Coords, EltTy.bits .bf16 = 32 ∨ (Rect.block (s := S2x8192x8192) S1x2048x2048.size (cc9_transform_0 i) (hinb9_0 i)).WholeWords (EltTy.packing .bf16)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S1x2048x64.size a ≤ S2x8192x64.size a
  hwx9_1 : ∀ i : grid9.Coords, EltTy.bits .f32 = 32 ∨ (Rect.block (s := S2x8192x64) S1x2048x64.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S1x2048x64.size a ≤ S2x8192x64.size a
  hwx9_2 : ∀ i : grid9.Coords, EltTy.bits .f32 = 32 ∨ (Rect.block (s := S2x8192x64) S1x2048x64.size (cc9_transform_2 i) (hinb9_2 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S1x2048x2048.size a ≤ S2x8192x8192.size a
  hwx10_0 : ∀ i : grid10.Coords, EltTy.bits .bf16 = 32 ∨ (Rect.block (s := S2x8192x8192) S1x2048x2048.size (cc10_transform_0 i) (hinb10_0 i)).WholeWords (EltTy.packing .bf16)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S1x2048x64.size a ≤ S2x8192x64.size a
  hwx10_1 : ∀ i : grid10.Coords, EltTy.bits .f32 = 32 ∨ (Rect.block (s := S2x8192x64) S1x2048x64.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S1x2048x64.size a ≤ S2x8192x64.size a
  hwx10_2 : ∀ i : grid10.Coords, EltTy.bits .f32 = 32 ∨ (Rect.block (s := S2x8192x64) S1x2048x64.size (cc10_transform_2 i) (hinb10_2 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S1x1024x64.size a ≤ S2x8192x64.size a
  hwx11_0 : ∀ i : grid11.Coords, EltTy.bits .f32 = 32 ∨ (Rect.block (s := S2x8192x64) S1x1024x64.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S64x64.size a ≤ S64x64.size a
  hwx11_1 : ∀ i : grid11.Coords, EltTy.bits .f32 = 32 ∨ (Rect.block (s := S64x64) S64x64.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x64.size a ≤ S1x64.size a
  hwx11_2 : ∀ i : grid11.Coords, EltTy.bits .f32 = 32 ∨ (Rect.block (s := S1x64) S1x64.size (cc11_transform_2 i) (hinb11_2 i)).WholeWords (EltTy.packing .f32)
  hstage11_3 : ∀ j, (stage11_3 j).IsWhole
  nbuf11_3 : grid11.bufCount reads11_3 false = 2
  hreads11_3 : ∀ i i' : grid11.Coords, (∀ a, reads11_3 a = true → i a = i' a) → cc11_transform_3 i = cc11_transform_3 i'
  hinb11_3 : ∀ (i : grid11.Coords) a, (cc11_transform_3 i a + 1) * S1x1024x64.size a ≤ S2x8192x64.size a
  hwx11_3 : ∀ i : grid11.Coords, EltTy.bits .f32 = 32 ∨ (Rect.block (s := S2x8192x64) S1x1024x64.size (cc11_transform_3 i) (hinb11_3 i)).WholeWords (EltTy.packing .f32)

variable [Facts₀]

def dot_S1024x128_S64x128_S1024x64_1_1_0_0_n_n : DotDims S1024x128 S64x128 S1024x64 where
  lhsContracting := [1]
  rhsContracting := [1]
  lhsNonContracting := [0]
  rhsNonContracting := [0]
  lhsBatch := []
  rhsBatch := []
  wf := dot_S1024x128_S64x128_S1024x64_1_1_0_0_n_n_wf
def dot_S2048x2048_S2048x64_S2048x64_1_0_0_1_n_n : DotDims S2048x2048 S2048x64 S2048x64 where
  lhsContracting := [1]
  rhsContracting := [0]
  lhsNonContracting := [0]
  rhsNonContracting := [1]
  lhsBatch := []
  rhsBatch := []
  wf := dot_S2048x2048_S2048x64_S2048x64_1_0_0_1_n_n_wf
def dot_S1024x64_S64x64_S1024x64_1_1_0_0_n_n : DotDims S1024x64 S64x64 S1024x64 where
  lhsContracting := [1]
  rhsContracting := [1]
  lhsNonContracting := [0]
  rhsNonContracting := [0]
  lhsBatch := []
  rhsBatch := []
  wf := dot_S1024x64_S64x64_S1024x64_1_1_0_0_n_n_wf

abbrev win0_0 : Pipeline.Window sig grid0 :=
  Pipeline.Window.ofSpec (Memref.whole main_arg1) S1x256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x256x8192.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S1x1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S64x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x1024x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v0) S1x2048x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S1x2048x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v3) S1x2048x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

abbrev win3_0 : Pipeline.Window sig grid3 :=
  Pipeline.Window.ofSpec (Memref.whole main_v0) S1x2048x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v3) S1x2048x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v4) S1x2048x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond2 i == 1#1) | ⟨_ + 3, h⟩ => absurd h (Nat.not_lt.2 (Nat.le_add_left _ _))

abbrev win4_0 : Pipeline.Window sig grid4 :=
  Pipeline.Window.ofSpec (Memref.whole main_v0) S1x2048x2048.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v4) S1x2048x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v5) S1x2048x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun _ => false | 2 => fun i => !(k4_cond2 i == 1#1) | ⟨_ + 3, h⟩ => absurd h (Nat.not_lt.2 (Nat.le_add_left _ _))

abbrev win5_0 : Pipeline.Window sig grid5 :=
  Pipeline.Window.ofSpec (Memref.whole main_v0) S1x2048x2048.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v5) S1x2048x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v6) S1x2048x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev idle5 : Fin 3 → grid5.Coords → Bool := fun | 0 => fun _ => false | 1 => fun _ => false | 2 => fun i => !(k5_cond2 i == 1#1) | ⟨_ + 3, h⟩ => absurd h (Nat.not_lt.2 (Nat.le_add_left _ _))

abbrev win6_0 : Pipeline.Window sig grid6 :=
  Pipeline.Window.ofSpec (Memref.whole main_v6) S1x1024x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v8) S64x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v11) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v12) S1x1024x64.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v0) S1x2048x2048.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v12) S1x2048x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v13) S1x2048x64.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev idle7 : Fin 3 → grid7.Coords → Bool := fun | 0 => fun _ => false | 1 => fun _ => false | 2 => fun i => !(k7_cond2 i == 1#1) | ⟨_ + 3, h⟩ => absurd h (Nat.not_lt.2 (Nat.le_add_left _ _))

abbrev win8_0 : Pipeline.Window sig grid8 :=
  Pipeline.Window.ofSpec (Memref.whole main_v0) S1x2048x2048.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v13) S1x2048x64.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v14) S1x2048x64.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev idle8 : Fin 3 → grid8.Coords → Bool := fun | 0 => fun _ => false | 1 => fun _ => false | 2 => fun i => !(k8_cond2 i == 1#1) | ⟨_ + 3, h⟩ => absurd h (Nat.not_lt.2 (Nat.le_add_left _ _))

abbrev win9_0 : Pipeline.Window sig grid9 :=
  Pipeline.Window.ofSpec (Memref.whole main_v0) S1x2048x2048.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v14) S1x2048x64.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v15) S1x2048x64.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev idle9 : Fin 3 → grid9.Coords → Bool := fun | 0 => fun _ => false | 1 => fun _ => false | 2 => fun i => !(k9_cond2 i == 1#1) | ⟨_ + 3, h⟩ => absurd h (Nat.not_lt.2 (Nat.le_add_left _ _))

abbrev win10_0 : Pipeline.Window sig grid10 :=
  Pipeline.Window.ofSpec (Memref.whole main_v0) S1x2048x2048.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v15) S1x2048x64.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v16) S1x2048x64.size cc10_transform_2 reads10_2 true false 2 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev idle10 : Fin 3 → grid10.Coords → Bool := fun | 0 => fun _ => false | 1 => fun _ => false | 2 => fun i => !(k10_cond2 i == 1#1) | ⟨_ + 3, h⟩ => absurd h (Nat.not_lt.2 (Nat.le_add_left _ _))

abbrev win11_0 : Pipeline.Window sig grid11 :=
  Pipeline.Window.ofSpec (Memref.whole main_v16) S1x1024x64.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v18) S64x64.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v21) S1x64.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v22) S1x1024x64.size cc11_transform_3 reads11_3 true false 2 stage11_3 sem11_3
    hrank11 hreads11_3 hinb11_3 nbuf11_3 (Memref.isWhole_whole _) hwx11_3 hstage11_3

abbrev win11 : Fin 4 → Pipeline.Window sig grid11 := fun | 0 => win11_0 | 1 => win11_1 | 2 => win11_2 | 3 => win11_3 | ⟨_ + 4, h⟩ => absurd h (Nat.not_lt.2 (Nat.le_add_left _ _))
abbrev spec11 : Fin 4 → Pipeline.WinSpec sig grid11.rank := fun w => (win11 w).toWinSpec

class Facts : Prop extends Facts₀ where

variable [Facts]
-- ==== ReferenceIdeal.lean ====
abbrev S2x8192x128 : Shape := ⟨3, ![2, 8192, 128]⟩
abbrev S2x8192x8192 : Shape := ⟨3, ![2, 8192, 8192]⟩
abbrev S64x128 : Shape := ⟨2, ![64, 128]⟩
abbrev S64 : Shape := ⟨1, ![64]⟩
abbrev S2x64x64 : Shape := ⟨3, ![2, 64, 64]⟩
abbrev S2x64 : Shape := ⟨2, ![2, 64]⟩
abbrev S2x8192x64 : Shape := ⟨3, ![2, 8192, 64]⟩
abbrev S1x1x64 : Shape := ⟨3, ![1, 1, 64]⟩
abbrev S1x64x64 : Shape := ⟨3, ![1, 64, 64]⟩
abbrev S64x64 : Shape := ⟨2, ![64, 64]⟩
abbrev S1x64 : Shape := ⟨2, ![1, 64]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S2x8192x128, .f32⟩
  | .hbm, ⟨1, _⟩ => ⟨S2x8192x8192, .f32⟩
  | .hbm, ⟨2, _⟩ => ⟨S64x128, .f32⟩
  | .hbm, ⟨3, _⟩ => ⟨S64, .f32⟩
  | .hbm, ⟨4, _⟩ => ⟨S2x64x64, .f32⟩
  | .hbm, ⟨5, _⟩ => ⟨S2x64, .f32⟩
  | .hbm, ⟨6, _⟩ => ⟨S2x8192x64, .f32⟩
  | .hbm, ⟨7, _⟩ => ⟨S1x1x64, .f32⟩
  | .hbm, ⟨8, _⟩ => ⟨S2x8192x64, .f32⟩
  | .hbm, ⟨9, _⟩ => ⟨S2x8192x64, .f32⟩
  | .hbm, ⟨10, _⟩ => ⟨S2x8192x64, .f32⟩
  | .hbm, ⟨11, _⟩ => ⟨S2x8192x64, .f32⟩
  | .hbm, ⟨12, _⟩ => ⟨S2x8192x64, .f32⟩
  | .hbm, ⟨13, _⟩ => ⟨S2x8192x64, .f32⟩
  | .hbm, ⟨14, _⟩ => ⟨S1x64x64, .f32⟩
  | .hbm, ⟨15, _⟩ => ⟨S64x64, .f32⟩
  | .hbm, ⟨16, _⟩ => ⟨S2x8192x64, .f32⟩
  | .hbm, ⟨17, _⟩ => ⟨S1x64, .f32⟩
  | .hbm, ⟨18, _⟩ => ⟨S64, .f32⟩
  | .hbm, ⟨19, _⟩ => ⟨S1x1x64, .f32⟩
  | .hbm, ⟨20, _⟩ => ⟨S2x8192x64, .f32⟩
  | .hbm, ⟨21, _⟩ => ⟨S2x8192x64, .f32⟩
  | .hbm, ⟨22, _⟩ => ⟨S_, .f32⟩
  | .hbm, ⟨23, _⟩ => ⟨S2x8192x64, .f32⟩
  | .hbm, ⟨24, _⟩ => ⟨S2x8192x64, .f32⟩
  | .hbm, ⟨25, _⟩ => ⟨S2x8192x64, .f32⟩
  | .hbm, ⟨26, _⟩ => ⟨S2x8192x64, .f32⟩
  | .hbm, ⟨27, _⟩ => ⟨S2x8192x64, .f32⟩
  | .hbm, ⟨28, _⟩ => ⟨S2x8192x64, .f32⟩
  | .hbm, ⟨29, _⟩ => ⟨S1x64x64, .f32⟩
  | .hbm, ⟨30, _⟩ => ⟨S64x64, .f32⟩
  | .hbm, ⟨31, _⟩ => ⟨S2x8192x64, .f32⟩
  | .hbm, ⟨32, _⟩ => ⟨S1x64, .f32⟩
  | .hbm, ⟨33, _⟩ => ⟨S64, .f32⟩
  | .hbm, ⟨34, _⟩ => ⟨S1x1x64, .f32⟩
  | .hbm, ⟨35, _⟩ => ⟨S2x8192x64, .f32⟩
  | .hbm, ⟨36, _⟩ => ⟨S2x8192x64, .f32⟩
  | .hbm, ⟨37, _⟩ => ⟨S2x8192x64, .f32⟩
  | _, _ => ⟨S2x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_call0_cst : Ref sig .tc := ⟨.hbm, 22, rfl⟩
abbrev main_call0_v0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]

class Facts₀ : Prop where
  bcast_S64_S1x1x64_2 : S64.BroadcastsInDim S1x1x64 (![2] : Fin 1 → Fin S1x1x64.rank)
  bcast_S1x1x64_S2x8192x64_0_1_2 : S1x1x64.BroadcastsInDim S2x8192x64 (![0, 1, 2] : Fin 3 → Fin S2x8192x64.rank)
  slices_S2x64x64_S1x64x64_0_0_0 : S2x64x64.Slices ![0, 0, 0] S1x64x64
  shapeCasts_S1x64x64_S64x64 : S1x64x64.ShapeCasts S64x64
  slices_S2x64_S1x64_0_0 : S2x64.Slices ![0, 0] S1x64
  shapeCasts_S1x64_S64 : S1x64.ShapeCasts S64
  bcast_S_S2x8192x64 : S_.BroadcastsInDim S2x8192x64 (![] : Fin 0 → Fin S2x8192x64.rank)
  slices_S2x64x64_S1x64x64_1_0_0 : S2x64x64.Slices ![1, 0, 0] S1x64x64
  slices_S2x64_S1x64_1_0 : S2x64.Slices ![1, 0] S1x64
  dot_S2x8192x128_S64x128_S2x8192x64_2_1_01_0_n_n_wf : DotDims.WF S2x8192x128 S64x128 S2x8192x64 [2] [1] [0, 1] [0] [] []
  dot_S2x8192x8192_S2x8192x64_S2x8192x64_2_1_1_2_0_0_wf : DotDims.WF S2x8192x8192 S2x8192x64 S2x8192x64 [2] [1] [1] [2] [0] [0]
  dot_S2x8192x64_S64x64_S2x8192x64_2_1_01_0_n_n_wf : DotDims.WF S2x8192x64 S64x64 S2x8192x64 [2] [1] [0, 1] [0] [] []

variable [Facts₀]

def dot_S2x8192x128_S64x128_S2x8192x64_2_1_01_0_n_n : DotDims S2x8192x128 S64x128 S2x8192x64 where
  lhsContracting := [2]
  rhsContracting := [1]
  lhsNonContracting := [0, 1]
  rhsNonContracting := [0]
  lhsBatch := []
  rhsBatch := []
  wf := dot_S2x8192x128_S64x128_S2x8192x64_2_1_01_0_n_n_wf
def dot_S2x8192x8192_S2x8192x64_S2x8192x64_2_1_1_2_0_0 : DotDims S2x8192x8192 S2x8192x64 S2x8192x64 where
  lhsContracting := [2]
  rhsContracting := [1]
  lhsNonContracting := [1]
  rhsNonContracting := [2]
  lhsBatch := [0]
  rhsBatch := [0]
  wf := dot_S2x8192x8192_S2x8192x64_S2x8192x64_2_1_1_2_0_0_wf
def dot_S2x8192x64_S64x64_S2x8192x64_2_1_01_0_n_n : DotDims S2x8192x64 S64x64 S2x8192x64 where
  lhsContracting := [2]
  rhsContracting := [1]
  lhsNonContracting := [0, 1]
  rhsNonContracting := [0]
  lhsBatch := []
  rhsBatch := []
  wf := dot_S2x8192x64_S64x64_S2x8192x64_2_1_01_0_n_n_wf

class Facts : Prop extends Facts₀ where

variable [Facts]
-- ==== Proof.KI.R0.lean ====
import proofs.«137169_j48112223650339_1_alg».proof.Proof.Gen.KernelIdeal.Launch
import proofs.«137169_j48112223650339_1_alg».proof.Proof.Gen.KernelIdeal.Skeleton
import proofs.«137169_j48112223650339_1_alg».proof.Proof.Gen.KernelIdeal.Points
import Idealize.ShloMosaic.Lib.Pipeline.FrameBody
import Idealize.ShloMosaic.Lib.Pipeline.Frame
import Idealize.ShloMosaic.Lib.Tactic

/-! Region 0: the adjacency matrix converted, entry by entry, to the narrower float format, one block per grid point. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev whole0 : Rect S1x256x8192 := Rect.unit (s := S1x256x8192) ![0, 0, 0] S1x256x8192.size inb_S1x256x8192_S1x256x8192_0_0_0

def cast0 (x : Vec F S1x256x8192 .f32) : Vec F S1x256x8192 .bf16 :=
  View.canon [⟨whole0, k0_pay1 (View.ld x whole0)⟩]

theorem cast0_cover (p : Vec F S1x256x8192 .bf16) (y : S1x256x8192.Idx) :
    ∃ pc ∈ ([⟨whole0, p⟩] : List (View.Piece (Elt F) S1x256x8192 .bf16)), y ∈ pc.1.set :=
  View.cover_of_tiled [⟨whole0, p⟩] S1x256x8192.size (by rfl) y

set_option maxHeartbeats 1000000 in
theorem run0 (c : Dev nD) (E : Set ℕ) (i : grid0.Coords) (a0 : Memref sig .tc .vmem S1x256x8192 .f32) (h0 : a0.IsWhole)
    (a1 : Memref sig .tc .vmem S1x256x8192 .bf16) (h1 : a1.IsWhole) (x : Vec F S1x256x8192 .f32) (K : PUnit → sProp 𝕄) :
    iprop(owns (c : Thread nD τ) a0 fullShare x ∗ (∃ d, owns (c : Thread nD τ) a1 fullShare d)
        ∗ (iprop(owns (c : Thread nD τ) a0 fullShare x ∗ owns (c : Thread nD τ) a1 fullShare (cast0 x)) -∗ K ⟨⟩))
      ⊢ wp frame (wpE (defs₀ (F := F)) Variants.none c none) E (cc0__cast_kernel i a0 h0 a1 h1) K := by
  simp only [cc0__cast_kernel_eq_skeleton]; unfold cc0__cast_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cast0_cover _)

def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => cast0 (blk0 V c 0 t)
  Φ _ := Pipeline.scopedRest (Ix := Unit) (Name := ℕ) (U := UR sig nD τ) (Lvl := ℕ) (Val := Elt F) spec0 c
  q _ := fullShare
  owed _ := 0

theorem dat0_A (c : Dev nD) (w : Fin cfg0.W) : (dat0 V c).A w = V c (Pipeline.arrRef spec0 w) := by dsimp only [dat0]
theorem dat0_after0 (c : Dev nD) (t : Fin cfg0.N) : (dat0 V c).after 0 t = blk0 V c 0 t := by dsimp only [dat0]
theorem dat0_after1 (c : Dev nD) (t : Fin cfg0.N) : (dat0 V c).after 1 t = cast0 (blk0 V c 0 t) := by dsimp only [dat0]

theorem dat0_before0 (c : Dev nD) (t : Fin cfg0.N) (d) : (dat0 V c).before 0 t d = blk0 V c 0 t :=
  ((dat0 V c).before_in_eq_fetched 0 rfl (fun _ => rfl) (fun _ _ _ => rfl)
      (fun t => by rw [dat0_after0]; unfold Dat.blockOf blk0; rw [dat0_A]; try rfl) t d).trans
    (by unfold Dat.fetched Dat.blockOf blk0; rw [dat0_A]; try rfl)

/-- At every point the output block is left at the conversion of the input block. -/
theorem body0 (c : Dev nD) : BodyObligation (dat0 (F := F) V c) (defs₀ (F := F)) Variants.none () Set.univ := fun t => by
  rw [bigSep_W0, bigSep_W0]
  show iprop((dat0 V c).Φ t.castSucc ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d)))
    ⊢ wp frame (wpE (defs₀ (F := F)) Variants.none c none) Set.univ (bodyAt0 t) (fun _ =>
      iprop((dat0 V c).Φ t.succ ∗ (dat0 V c).owesAt () t.succ
        ∗ owns (c : Thread nD τ) (st0_0 t) fullShare ((dat0 V c).after 0 t)
        ∗ owns (c : Thread nD τ) (st0_1 t) fullShare ((dat0 V c).after 1 t)))
  simp only [dat0_before0]
  rw [show (dat0 V c).Φ t.succ = (dat0 V c).Φ t.castSucc from rfl,
    show (dat0 V c).owesAt () t.succ = (dat0 V c).owesAt () t.castSucc from rfl, dat0_after0, dat0_after1]
  iintro ⟨HΦ, Ho, ⟨%d0, H0⟩, ⟨%d1, H1⟩⟩
  iapply (run0 c Set.univ _ _ _ _ _ (blk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

end Cert.KernelIdeal.Hand

end
-- ==== Proof.KI.R1.lean ====
import proofs.«137169_j48112223650339_1_alg».proof.Proof.Gen.KernelIdeal.Launch
import proofs.«137169_j48112223650339_1_alg».proof.Proof.Gen.KernelIdeal.Skeleton
import proofs.«137169_j48112223650339_1_alg».proof.Proof.Gen.KernelIdeal.Points
import Idealize.ShloMosaic.Lib.Pipeline.FrameBody
import Idealize.ShloMosaic.Lib.Pipeline.Frame
import Idealize.ShloMosaic.Lib.Tactic

/-! Region 1: the linear layer, a block of rows of `x` against the rows of `W0`, plus the bias row. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev whole1_0 : Rect S1x1024x128 := Rect.unit (s := S1x1024x128) ![0, 0, 0] S1x1024x128.size inb_S1x1024x128_S1x1024x128_0_0_0
abbrev whole1_1 : Rect S64x128 := Rect.unit (s := S64x128) ![0, 0] S64x128.size inb_S64x128_S64x128_0_0
abbrev whole1_2 : Rect S1x64 := Rect.unit (s := S1x64) ![0, 0] S1x64.size inb_S1x64_S1x64_0_0
abbrev whole1_3 : Rect S1x1024x64 := Rect.unit (s := S1x1024x64) ![0, 0, 0] S1x1024x64.size inb_S1x1024x64_S1x1024x64_0_0_0

def out1 (x : Vec F S1x1024x128 .f32) (w : Vec F S64x128 .f32) (b : Vec F S1x64 .f32) : Vec F S1x1024x64 .f32 :=
  View.canon [⟨whole1_3, k1_pay1 (View.ld x whole1_0) (View.ld w whole1_1) (View.ld b whole1_2)⟩]

theorem out1_cover (p : Vec F S1x1024x64 .f32) (y : S1x1024x64.Idx) :
    ∃ pc ∈ ([⟨whole1_3, p⟩] : List (View.Piece (Elt F) S1x1024x64 .f32)), y ∈ pc.1.set :=
  View.cover_of_tiled [⟨whole1_3, p⟩] S1x1024x64.size (by rfl) y

set_option maxHeartbeats 1000000 in
theorem run1 (c : Dev nD) (E : Set ℕ) (i : grid1.Coords)
    (a0 : Memref sig .tc .vmem S1x1024x128 .f32) (h0 : a0.IsWhole)
    (a1 : Memref sig .tc .vmem S64x128 .f32) (h1 : a1.IsWhole)
    (a2 : Memref sig .tc .vmem S1x64 .f32) (h2 : a2.IsWhole)
    (a3 : Memref sig .tc .vmem S1x1024x64 .f32) (h3 : a3.IsWhole)
    (x : Vec F S1x1024x128 .f32) (w : Vec F S64x128 .f32) (b : Vec F S1x64 .f32) (K : PUnit → sProp 𝕄) :
    iprop(owns (c : Thread nD τ) a0 fullShare x ∗ owns (c : Thread nD τ) a1 fullShare w
        ∗ owns (c : Thread nD τ) a2 fullShare b ∗ (∃ d, owns (c : Thread nD τ) a3 fullShare d)
        ∗ (iprop(owns (c : Thread nD τ) a0 fullShare x ∗ owns (c : Thread nD τ) a1 fullShare w
            ∗ owns (c : Thread nD τ) a2 fullShare b ∗ owns (c : Thread nD τ) a3 fullShare (out1 x w b)) -∗ K ⟨⟩))
      ⊢ wp frame (wpE (defs₀ (F := F)) Variants.none c none) E (cc1__linear0_kernel i a0 h0 a1 h1 a2 h2 a3 h3) K := by
  simp only [cc1__linear0_kernel_eq_skeleton]; unfold cc1__linear0_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (out1_cover _)

def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => out1 (blk1 V c 0 t) (blk1 V c 1 t) (blk1 V c 2 t)
  Φ _ := Pipeline.scopedRest (Ix := Unit) (Name := ℕ) (U := UR sig nD τ) (Lvl := ℕ) (Val := Elt F) spec1 c
  q _ := fullShare
  owed _ := 0

theorem dat1_A (c : Dev nD) (w : Fin cfg1.W) : (dat1 V c).A w = V c (Pipeline.arrRef spec1 w) := by dsimp only [dat1]
theorem dat1_after0 (c : Dev nD) (t : Fin cfg1.N) : (dat1 V c).after 0 t = blk1 V c 0 t := by dsimp only [dat1]
theorem dat1_after1 (c : Dev nD) (t : Fin cfg1.N) : (dat1 V c).after 1 t = blk1 V c 1 t := by dsimp only [dat1]
theorem dat1_after2 (c : Dev nD) (t : Fin cfg1.N) : (dat1 V c).after 2 t = blk1 V c 2 t := by dsimp only [dat1]
theorem dat1_after3 (c : Dev nD) (t : Fin cfg1.N) :
    (dat1 V c).after 3 t = out1 (blk1 V c 0 t) (blk1 V c 1 t) (blk1 V c 2 t) := by dsimp only [dat1]

theorem dat1_before0 (c : Dev nD) (t : Fin cfg1.N) (d) : (dat1 V c).before 0 t d = blk1 V c 0 t :=
  ((dat1 V c).before_in_eq_fetched 0 rfl (fun _ => rfl) (fun _ _ _ => rfl)
      (fun t => by rw [dat1_after0]; unfold Dat.blockOf blk1; rw [dat1_A]; try rfl) t d).trans
    (by unfold Dat.fetched Dat.blockOf blk1; rw [dat1_A]; try rfl)
theorem dat1_before1 (c : Dev nD) (t : Fin cfg1.N) (d) : (dat1 V c).before 1 t d = blk1 V c 1 t :=
  ((dat1 V c).before_in_eq_fetched 1 rfl (fun _ => rfl) (fun _ _ _ => rfl)
      (fun t => by rw [dat1_after1]; unfold Dat.blockOf blk1; rw [dat1_A]; try rfl) t d).trans
    (by unfold Dat.fetched Dat.blockOf blk1; rw [dat1_A]; try rfl)
theorem dat1_before2 (c : Dev nD) (t : Fin cfg1.N) (d) : (dat1 V c).before 2 t d = blk1 V c 2 t :=
  ((dat1 V c).before_in_eq_fetched 2 rfl (fun _ => rfl) (fun _ _ _ => rfl)
      (fun t => by rw [dat1_after2]; unfold Dat.blockOf blk1; rw [dat1_A]; try rfl) t d).trans
    (by unfold Dat.fetched Dat.blockOf blk1; rw [dat1_A]; try rfl)

theorem body1 (c : Dev nD) : BodyObligation (dat1 (F := F) V c) (defs₀ (F := F)) Variants.none () Set.univ := fun t => by
  rw [bigSep_W1, bigSep_W1]
  show iprop((dat1 V c).Φ t.castSucc ∗ (dat1 V c).owesAt () t.castSucc
      ∗ (∃ d, owns (c : Thread nD τ) (st1_0 t) fullShare ((dat1 V c).before 0 t d))
      ∗ (∃ d, owns (c : Thread nD τ) (st1_1 t) fullShare ((dat1 V c).before 1 t d))
      ∗ (∃ d, owns (c : Thread nD τ) (st1_2 t) fullShare ((dat1 V c).before 2 t d))
      ∗ (∃ d, owns (c : Thread nD τ) (st1_3 t) fullShare ((dat1 V c).before 3 t d)))
    ⊢ wp frame (wpE (defs₀ (F := F)) Variants.none c none) Set.univ (bodyAt1 t) (fun _ =>
      iprop((dat1 V c).Φ t.succ ∗ (dat1 V c).owesAt () t.succ
        ∗ owns (c : Thread nD τ) (st1_0 t) fullShare ((dat1 V c).after 0 t)
        ∗ owns (c : Thread nD τ) (st1_1 t) fullShare ((dat1 V c).after 1 t)
        ∗ owns (c : Thread nD τ) (st1_2 t) fullShare ((dat1 V c).after 2 t)
        ∗ owns (c : Thread nD τ) (st1_3 t) fullShare ((dat1 V c).after 3 t)))
  simp only [dat1_before0, dat1_before1, dat1_before2]
  rw [show (dat1 V c).Φ t.succ = (dat1 V c).Φ t.castSucc from rfl,
    show (dat1 V c).owesAt () t.succ = (dat1 V c).owesAt () t.castSucc from rfl,
    dat1_after0, dat1_after1, dat1_after2, dat1_after3]
  iintro ⟨HΦ, Ho, ⟨%d0, H0⟩, ⟨%d1, H1⟩, ⟨%d2, H2⟩, ⟨%d3, H3⟩⟩
  iapply (run1 c Set.univ _ _ _ _ _ _ _ _ _ (blk1 V c 0 t) (blk1 V c 1 t) (blk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

end Cert.KernelIdeal.Hand

end
-- ==== Proof.KI.R2.lean ====
import proofs.«137169_j48112223650339_1_alg».proof.Proof.Gen.KernelIdeal.Launch
import proofs.«137169_j48112223650339_1_alg».proof.Proof.Gen.KernelIdeal.Skeleton
import proofs.«137169_j48112223650339_1_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Tactic

/-! Region 2, one diffusion step: a block row of the adjacency matrix against the feature matrix, the 8192-term contraction accumulated
  over four runs of 2048 columns. A grid point is a batch, a block row and, last, the run. The accumulator is the one piece of state
  carried from a point to the next; its contents after the body at point `n` are named by recursion on `n`, restarting at every first run. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The accumulator after the body at point `n`: the point's product added to the zero block at a first run (`n % 4 = 0`), else to what the point before left. -/
def acc2 (c : Dev nD) : ℕ → Vec F S2048x64 .f32
  | 0 => if h : 0 < cfg2.N then k2_pay2 (blk2 V c 0 ⟨0, h⟩) (blk2 V c 1 ⟨0, h⟩) (k2_pay1 (F := F)) else k2_pay1 (F := F)
  | m + 1 =>
    if h : m + 1 < cfg2.N then
      k2_pay2 (blk2 V c 0 ⟨m + 1, h⟩) (blk2 V c 1 ⟨m + 1, h⟩) (if (m + 1) % 4 = 0 then k2_pay1 (F := F) else acc2 c m)
    else k2_pay1 (F := F)

theorem acc2_reset (c : Dev nD) (t : Fin cfg2.N) (h : t.val % 4 = 0) :
    acc2 V c t.val = k2_pay2 (blk2 V c 0 t) (blk2 V c 1 t) (k2_pay1 (F := F)) := by
  obtain ⟨n, hn⟩ := t
  cases n with
  | zero => show acc2 V c 0 = _; rw [acc2, dif_pos hn]
  | succ m => show acc2 V c (m + 1) = _; rw [acc2, dif_pos hn, if_pos h]

theorem acc2_step (c : Dev nD) (t : Fin cfg2.N) (h : t.val % 4 ≠ 0) :
    acc2 V c t.val = k2_pay2 (blk2 V c 0 t) (blk2 V c 1 t) (acc2 V c (t.val - 1)) := by
  obtain ⟨n, hn⟩ := t
  cases n with
  | zero => exact absurd rfl h
  | succ m => show acc2 V c (m + 1) = _; rw [acc2, dif_pos hn, if_neg h]; rfl

def cond_reset2 (i : grid2.Coords) : BitVec 1 :=
  Scalar.cmpi .ne (Scalar.extui (Scalar.cmpi .eq (BitVec.ofNat 32 (i 2).val) 0#32)) 0#32

theorem cond_reset_iff2 : ∀ t : Fin cfg2.N, cond_reset2 (cfg2.grid.coords t) = 1#1 ↔ t.val % 4 = 0 :=
  (by decide +kernel : ∀ t : Fin grid2.N, cond_reset2 (grid2.coords t) = 1#1 ↔ t.val % 4 = 0)
theorem cond_flush_iff2 : ∀ t : Fin cfg2.N, k2_cond2 (cfg2.grid.coords t) = 1#1 ↔ t.val % 4 = 3 :=
  (by decide +kernel : ∀ t : Fin grid2.N, k2_cond2 (grid2.coords t) = 1#1 ↔ t.val % 4 = 3)

theorem zoffAcc2 : (![0, 0] : Fin S2048x64.rank → ℕ) = fun _ => 0 := by funext a; fin_cases a <;> rfl
theorem zoffAdj2 : (![0, 0, 0] : Fin S1x2048x2048.rank → ℕ) = fun _ => 0 := by funext a; fin_cases a <;> rfl
theorem zoffOut2 : (![0, 0, 0] : Fin S1x2048x64.rank → ℕ) = fun _ => 0 := by funext a; fin_cases a <;> rfl

set_option maxHeartbeats 1000000 in
/-- The body at a first run: the accumulator, whatever it held, is left at the point's product added to the zero block. -/
theorem runA2 (c : Dev nD) (E : Set ℕ) (i : grid2.Coords)
    (a0 : Memref sig .tc .vmem S1x2048x2048 .bf16) (h0 : a0.IsWhole) (a1 : Memref sig .tc .vmem S1x2048x64 .f32) (h1 : a1.IsWhole)
    (a2 : Memref sig .tc .vmem S1x2048x64 .f32) (h2 : a2.IsWhole) (a3 : Memref sig .tc .vmem S2048x64 .f32) (h3 : a3.IsWhole)
    (hr : cond_reset2 i = 1#1) (hf : ¬ k2_cond2 i = 1#1)
    (x0 : Vec F S1x2048x2048 .bf16) (x1 : Vec F S1x2048x64 .f32) (x2 : Vec F S1x2048x64 .f32) (K : PUnit → sProp 𝕄) :
    iprop(owns (c : Thread nD τ) a0 fullShare x0 ∗ owns (c : Thread nD τ) a1 fullShare x1 ∗ owns (c : Thread nD τ) a2 fullShare x2
        ∗ (∃ s', owns (c : Thread nD τ) a3 fullShare s')
        ∗ (iprop(owns (c : Thread nD τ) a0 fullShare x0 ∗ owns (c : Thread nD τ) a1 fullShare x1 ∗ owns (c : Thread nD τ) a2 fullShare x2
            ∗ owns (c : Thread nD τ) a3 fullShare (k2_pay2 x0 x1 (k2_pay1 (F := F)))) -∗ K ⟨⟩))
      ⊢ wp frame (wpE (defs₀ (F := F)) Variants.none c none) E (cc2__diffuse_kernel i a0 h0 a1 h1 a2 h2 a3 h3) K := by
  simp only [cc2__diffuse_kernel_eq_skeleton]; unfold cc2__diffuse_kernel_skel
  unfold owns
  iintro ⟨⟨%f0, %hf0, H0⟩, ⟨%f1, %hf1, H1⟩, ⟨%f2, %hf2, H2⟩, ⟨%s', %f3, -, H3⟩, Hk⟩
  subst hf0 hf1 hf2
  sl_exec (disch := first | exact hr | exact hf)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  refine (View.read_writes_eq_canon _ _ _ (fun y => ⟨_, List.mem_cons_self, View.mem_set_unit_zero zoffAcc2 inb_S2048x64_S2048x64_0_0 y⟩)).trans ?_
  rw [View.canon_cons_unit_zero zoffAcc2]
  sl_unfold_run_names
  simp only [View.readAt_eq_ld, View.ld_unit_zero (S := S1x2048x2048) zoffAdj2, View.ld_unit_zero (S := S1x2048x64) zoffOut2,
    View.ld_unit_zero (S := S2048x64) zoffAcc2, View.readCov_unit_zero (S := S2048x64) _ zoffAcc2]

set_option maxHeartbeats 1000000 in
/-- The body at a middle run: the accumulator is left at the point's product added to what it held. -/
theorem runB2 (c : Dev nD) (E : Set ℕ) (i : grid2.Coords)
    (a0 : Memref sig .tc .vmem S1x2048x2048 .bf16) (h0 : a0.IsWhole) (a1 : Memref sig .tc .vmem S1x2048x64 .f32) (h1 : a1.IsWhole)
    (a2 : Memref sig .tc .vmem S1x2048x64 .f32) (h2 : a2.IsWhole) (a3 : Memref sig .tc .vmem S2048x64 .f32) (h3 : a3.IsWhole)
    (hr : ¬ cond_reset2 i = 1#1) (hf : ¬ k2_cond2 i = 1#1)
    (x0 : Vec F S1x2048x2048 .bf16) (x1 : Vec F S1x2048x64 .f32) (x2 : Vec F S1x2048x64 .f32) (s : Vec F S2048x64 .f32) (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare s
        ∗ (iprop(owns (c : Thread nD τ) a0 fullShare x0 ∗ owns (c : Thread nD τ) a1 fullShare x1 ∗ owns (c : Thread nD τ) a2 fullShare x2
            ∗ owns (c : Thread nD τ) a3 fullShare (k2_pay2 x0 x1 s)) -∗ K ⟨⟩))
      ⊢ wp frame (wpE (defs₀ (F := F)) Variants.none c none) E (cc2__diffuse_kernel i a0 h0 a1 h1 a2 h2 a3 h3) K := by
  simp only [cc2__diffuse_kernel_eq_skeleton]; unfold cc2__diffuse_kernel_skel
  unfold owns
  iintro ⟨⟨%f0, %hf0, H0⟩, ⟨%f1, %hf1, H1⟩, ⟨%f2, %hf2, H2⟩, ⟨%f3, %hf3, H3⟩, Hk⟩
  subst hf0 hf1 hf2 hf3
  sl_exec (disch := first | exact hr | exact hf)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  refine (View.read_writes_eq_canon _ _ _ (fun y => ⟨_, List.mem_cons_self, View.mem_set_unit_zero zoffAcc2 inb_S2048x64_S2048x64_0_0 y⟩)).trans ?_
  rw [View.canon_cons_unit_zero zoffAcc2]
  simp only [View.readAt_eq_ld, View.ld_unit_zero (S := S1x2048x2048) zoffAdj2, View.ld_unit_zero (S := S1x2048x64) zoffOut2,
    View.ld_unit_zero (S := S2048x64) zoffAcc2, View.readCov_unit_zero (S := S2048x64) _ zoffAcc2]

set_option maxHeartbeats 1000000 in
/-- The body at a last run: the accumulator advanced as at a middle run, and copied to the output block. -/
theorem runC2 (c : Dev nD) (E : Set ℕ) (i : grid2.Coords)
    (a0 : Memref sig .tc .vmem S1x2048x2048 .bf16) (h0 : a0.IsWhole) (a1 : Memref sig .tc .vmem S1x2048x64 .f32) (h1 : a1.IsWhole)
    (a2 : Memref sig .tc .vmem S1x2048x64 .f32) (h2 : a2.IsWhole) (a3 : Memref sig .tc .vmem S2048x64 .f32) (h3 : a3.IsWhole)
    (hr : ¬ cond_reset2 i = 1#1) (hf : k2_cond2 i = 1#1)
    (x0 : Vec F S1x2048x2048 .bf16) (x1 : Vec F S1x2048x64 .f32) (s : Vec F S2048x64 .f32) (K : PUnit → sProp 𝕄) :
    iprop(owns (c : Thread nD τ) a0 fullShare x0 ∗ owns (c : Thread nD τ) a1 fullShare x1 ∗ (∃ d, owns (c : Thread nD τ) a2 fullShare d)
        ∗ owns (c : Thread nD τ) a3 fullShare s
        ∗ (iprop(owns (c : Thread nD τ) a0 fullShare x0 ∗ owns (c : Thread nD τ) a1 fullShare x1 ∗ owns (c : Thread nD τ) a2 fullShare (k2_pay3 (k2_pay2 x0 x1 s))
            ∗ owns (c : Thread nD τ) a3 fullShare (k2_pay2 x0 x1 s)) -∗ K ⟨⟩))
      ⊢ wp frame (wpE (defs₀ (F := F)) Variants.none c none) E (cc2__diffuse_kernel i a0 h0 a1 h1 a2 h2 a3 h3) K := by
  simp only [cc2__diffuse_kernel_eq_skeleton]; unfold cc2__diffuse_kernel_skel
  unfold owns
  iintro ⟨⟨%f0, %hf0, H0⟩, ⟨%f1, %hf1, H1⟩, ⟨%d2, %f2, -, H2⟩, ⟨%f3, %hf3, H3⟩, Hk⟩
  subst hf0 hf1 hf3
  sl_exec (disch := first | exact hr | exact hf)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (fun y => ⟨_, List.mem_cons_self, View.mem_set_unit_zero zoffOut2 inb_S1x2048x64_S1x2048x64_0_0_0 y⟩)).trans ?_
    rw [View.canon_cons_unit_zero zoffOut2]
    sl_unfold_run_names
    simp only [View.readAt_eq_ld, View.ld_unit_zero (S := S1x2048x2048) zoffAdj2, View.ld_unit_zero (S := S1x2048x64) zoffOut2,
      View.ld_unit_zero (S := S2048x64) zoffAcc2, View.readCov_unit_zero (S := S2048x64) _ zoffAcc2]
  iexists _; isplitr
  swap; · iexact H3
  ipureintro
  sl_unfold_run_names
  refine (View.read_writes_eq_canon _ _ _ (fun y => ⟨_, List.mem_cons_self, View.mem_set_unit_zero zoffAcc2 inb_S2048x64_S2048x64_0_0 y⟩)).trans ?_
  rw [View.canon_cons_unit_zero zoffAcc2]
  simp only [View.readAt_eq_ld, View.ld_unit_zero (S := S1x2048x2048) zoffAdj2, View.ld_unit_zero (S := S1x2048x64) zoffOut2,
    View.ld_unit_zero (S := S2048x64) zoffAcc2, View.readCov_unit_zero (S := S2048x64) _ zoffAcc2]

abbrev accM2 : Memref sig .tc .vmem S2048x64 .f32 := Memref.whole cc2_scratch0

def carried2 (c : Dev nD) : ℕ → sProp 𝕄
  | 0 => iprop((∃ s, owns (c : Thread nD τ) accM2 fullShare s) ∗ Pipeline.scopedRestBut (Ix := Unit) (Name := ℕ) (U := UR sig nD τ) (Lvl := ℕ) (Val := Elt F) spec2 c [cc2_scratch0])
  | m + 1 => iprop(owns (c : Thread nD τ) accM2 fullShare (acc2 V c m) ∗ Pipeline.scopedRestBut (Ix := Unit) (Name := ℕ) (U := UR sig nD τ) (Lvl := ℕ) (Val := Elt F) spec2 c [cc2_scratch0])

theorem carried_any2 (c : Dev nD) (n : ℕ) :
    carried2 V c n ⊢ iprop((∃ s, owns (c : Thread nD τ) accM2 fullShare s) ∗ Pipeline.scopedRestBut (Ix := Unit) (Name := ℕ) (U := UR sig nD τ) (Lvl := ℕ) (Val := Elt F) spec2 c [cc2_scratch0]) := by
  cases n with
  | zero => exact .rfl
  | succ m =>
    show iprop(owns (c : Thread nD τ) accM2 fullShare (acc2 V c m) ∗ Pipeline.scopedRestBut (Ix := Unit) (Name := ℕ) (U := UR sig nD τ) (Lvl := ℕ) (Val := Elt F) spec2 c [cc2_scratch0]) ⊢ _
    iintro ⟨H, HR⟩
    isplitl [H]
    · iexists _; iexact H
    iexact HR

theorem carried_pos2 (c : Dev nD) (n : ℕ) (h : n ≠ 0) :
    carried2 V c n = iprop(owns (c : Thread nD τ) accM2 fullShare (acc2 V c (n - 1)) ∗ Pipeline.scopedRestBut (Ix := Unit) (Name := ℕ) (U := UR sig nD τ) (Lvl := ℕ) (Val := Elt F) spec2 c [cc2_scratch0]) := by
  cases n with
  | zero => exact absurd rfl h
  | succ m => rfl

def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => k2_pay3 (acc2 V c t.val)
  Φ n := carried2 V c n.val
  q _ := fullShare
  owed _ := 0

theorem dat2_A (c : Dev nD) (w : Fin cfg2.W) : (dat2 V c).A w = V c (Pipeline.arrRef spec2 w) := by dsimp only [dat2]
theorem dat2_after0 (c : Dev nD) (t : Fin cfg2.N) : (dat2 V c).after 0 t = blk2 V c 0 t := by dsimp only [dat2]
theorem dat2_after1 (c : Dev nD) (t : Fin cfg2.N) : (dat2 V c).after 1 t = blk2 V c 1 t := by dsimp only [dat2]
theorem dat2_after2 (c : Dev nD) (t : Fin cfg2.N) : (dat2 V c).after 2 t = k2_pay3 (acc2 V c t.val) := by dsimp only [dat2]
theorem dat2_Φ (c : Dev nD) (n : Fin (cfg2.N + 1)) : (dat2 V c).Φ n = carried2 V c n.val := by dsimp only [dat2]

theorem dat2_before0 (c : Dev nD) (t : Fin cfg2.N) (d) : (dat2 V c).before 0 t d = blk2 V c 0 t :=
  ((dat2 V c).before_in_eq_fetched 0 rfl (fun _ => rfl) (fun _ _ _ => rfl)
      (fun t => by rw [dat2_after0]; unfold Dat.blockOf blk2; rw [dat2_A]; try rfl) t d).trans
    (by unfold Dat.fetched Dat.blockOf blk2; rw [dat2_A]; try rfl)
theorem dat2_before1 (c : Dev nD) (t : Fin cfg2.N) (d) : (dat2 V c).before 1 t d = blk2 V c 1 t :=
  ((dat2 V c).before_in_eq_fetched 1 rfl (fun _ => rfl) (fun _ _ _ => rfl)
      (fun t => by rw [dat2_after1]; unfold Dat.blockOf blk2; rw [dat2_A]; try rfl) t d).trans
    (by unfold Dat.fetched Dat.blockOf blk2; rw [dat2_A]; try rfl)

theorem Φ2_first (c : Dev nD) : (Pipeline.scopedRest (Ix := Unit) (Name := ℕ) (U := UR sig nD τ) (Lvl := ℕ) (Val := Elt F) spec2 c : sProp 𝕄) ⊢ (dat2 V c).Φ 0 := by
  rw [scopedRest2_split, dat2_Φ]
  show _ ⊢ carried2 V c 0
  unfold carried2
  iintro ⟨⟨%f, H⟩, HR⟩
  isplitl [H]
  · iexists f; rw [owns_whole]; iexact H
  iexact HR

theorem Φ2_last (c : Dev nD) : (dat2 V c).Φ (Fin.last cfg2.N) ⊢ (Pipeline.scopedRest (Ix := Unit) (Name := ℕ) (U := UR sig nD τ) (Lvl := ℕ) (Val := Elt F) spec2 c : sProp 𝕄) := by
  rw [scopedRest2_split, dat2_Φ]
  refine (carried_any2 V c _).trans ?_
  simp only [owns_whole]
  exact .rfl

theorem bodyIdle2 (c : Dev nD) (t : Fin cfg2.N) (hC : ¬ t.val % 4 = 3) :
    iprop((dat2 V c).Φ t.castSucc ∗ (dat2 V c).owesAt () t.castSucc
        ∗ (∃ d, owns (c : Thread nD τ) (st2_0 t) fullShare ((dat2 V c).before 0 t d))
        ∗ (∃ d, owns (c : Thread nD τ) (st2_1 t) fullShare ((dat2 V c).before 1 t d))
        ∗ (∃ d, owns (c : Thread nD τ) (st2_2 t) fullShare ((dat2 V c).before 2 t d)))
      ⊢ wp frame (wpE (defs₀ (F := F)) Variants.none c none) Set.univ (bodyAt2 t) (fun _ =>
        iprop((dat2 V c).Φ t.succ ∗ (dat2 V c).owesAt () t.succ
          ∗ owns (c : Thread nD τ) (st2_0 t) fullShare ((dat2 V c).after 0 t)
          ∗ owns (c : Thread nD τ) (st2_1 t) fullShare ((dat2 V c).after 1 t)
          ∗ (∃ d, owns (c : Thread nD τ) (st2_2 t) fullShare ((dat2 V c).before 2 t d)))) := by
  have hf : ¬ k2_cond2 (grid2.coords t) = 1#1 := fun h => hC ((cond_flush_iff2 t).mp h)
  simp only [dat2_before0, dat2_before1]
  rw [show (dat2 V c).owesAt () t.succ = (dat2 V c).owesAt () t.castSucc from rfl, dat2_after0, dat2_after1, dat2_Φ, dat2_Φ,
    show (t.succ : Fin (cfg2.N + 1)).val = t.val + 1 from rfl, show (t.castSucc : Fin (cfg2.N + 1)).val = t.val from rfl]
  show _ ⊢ wp frame (wpE (defs₀ (F := F)) Variants.none c none) Set.univ (bodyAt2 t) (fun _ =>
        iprop(iprop(owns (c : Thread nD τ) accM2 fullShare (acc2 V c t.val) ∗ Pipeline.scopedRestBut (Ix := Unit) (Name := ℕ) (U := UR sig nD τ) (Lvl := ℕ) (Val := Elt F) spec2 c [cc2_scratch0]) ∗ (dat2 V c).owesAt () t.castSucc
          ∗ owns (c : Thread nD τ) (st2_0 t) fullShare (blk2 V c 0 t)
          ∗ owns (c : Thread nD τ) (st2_1 t) fullShare (blk2 V c 1 t)
          ∗ (∃ d, owns (c : Thread nD τ) (st2_2 t) fullShare ((dat2 V c).before 2 t d))))
  by_cases hA : t.val % 4 = 0
  · have hr : cond_reset2 (grid2.coords t) = 1#1 := (cond_reset_iff2 t).mpr hA
    rw [acc2_reset V c t hA]
    iintro ⟨HΦ, Ho, ⟨%d0, H0⟩, ⟨%d1, H1⟩, ⟨%d2, H2⟩⟩
    ihave HΦ' := (carried_any2 V c t.val) $$ HΦ
    icases HΦ' with ⟨Hs, HR⟩
    iapply (runA2 c Set.univ _ _ _ _ _ _ _ _ _ hr hf (blk2 V c 0 t) (blk2 V c 1 t) ((dat2 V c).before 2 t d2) _)
    isplitl [H0]; · iexact H0
    isplitl [H1]; · iexact H1
    isplitl [H2]; · iexact H2
    isplitl [Hs]; · iexact Hs
    iintro ⟨H0, H1, H2, Hs⟩
    isplitl [Hs HR]
    · isplitl [Hs]; · iexact Hs
      iexact HR
    isplitl [Ho]; · iexact Ho
    isplitl [H0]; · iexact H0
    isplitl [H1]; · iexact H1
    iexists d2; iexact H2
  · have hr : ¬ cond_reset2 (grid2.coords t) = 1#1 := fun h => hA ((cond_reset_iff2 t).mp h)
    rw [acc2_step V c t hA, carried_pos2 V c t.val (fun h => hA (by rw [h]))]
    iintro ⟨⟨Hs, HR⟩, Ho, ⟨%d0, H0⟩, ⟨%d1, H1⟩, ⟨%d2, H2⟩⟩
    iapply (runB2 c Set.univ _ _ _ _ _ _ _ _ _ hr hf (blk2 V c 0 t) (blk2 V c 1 t) ((dat2 V c).before 2 t d2) (acc2 V c (t.val - 1)) _)
    isplitl [H0]; · iexact H0
    isplitl [H1]; · iexact H1
    isplitl [H2]; · iexact H2
    isplitl [Hs]; · iexact Hs
    iintro ⟨H0, H1, H2, Hs⟩
    isplitl [Hs HR]
    · isplitl [Hs]; · iexact Hs
      iexact HR
    isplitl [Ho]; · iexact Ho
    isplitl [H0]; · iexact H0
    isplitl [H1]; · iexact H1
    iexists d2; iexact H2

theorem bodyFlush2 (c : Dev nD) (t : Fin cfg2.N) (hC : t.val % 4 = 3) :
    iprop((dat2 V c).Φ t.castSucc ∗ (dat2 V c).owesAt () t.castSucc
        ∗ (∃ d, owns (c : Thread nD τ) (st2_0 t) fullShare ((dat2 V c).before 0 t d))
        ∗ (∃ d, owns (c : Thread nD τ) (st2_1 t) fullShare ((dat2 V c).before 1 t d))
        ∗ (∃ d, owns (c : Thread nD τ) (st2_2 t) fullShare ((dat2 V c).before 2 t d)))
      ⊢ wp frame (wpE (defs₀ (F := F)) Variants.none c none) Set.univ (bodyAt2 t) (fun _ =>
        iprop((dat2 V c).Φ t.succ ∗ (dat2 V c).owesAt () t.succ
          ∗ owns (c : Thread nD τ) (st2_0 t) fullShare ((dat2 V c).after 0 t)
          ∗ owns (c : Thread nD τ) (st2_1 t) fullShare ((dat2 V c).after 1 t)
          ∗ owns (c : Thread nD τ) (st2_2 t) fullShare ((dat2 V c).after 2 t))) := by
  have hA : ¬ t.val % 4 = 0 := by omega
  have hf : k2_cond2 (grid2.coords t) = 1#1 := (cond_flush_iff2 t).mpr hC
  have hr : ¬ cond_reset2 (grid2.coords t) = 1#1 := fun h => hA ((cond_reset_iff2 t).mp h)
  simp only [dat2_before0, dat2_before1]
  rw [show (dat2 V c).owesAt () t.succ = (dat2 V c).owesAt () t.castSucc from rfl, dat2_after0, dat2_after1, dat2_after2, dat2_Φ, dat2_Φ,
    show (t.succ : Fin (cfg2.N + 1)).val = t.val + 1 from rfl, show (t.castSucc : Fin (cfg2.N + 1)).val = t.val from rfl]
  show _ ⊢ wp frame (wpE (defs₀ (F := F)) Variants.none c none) Set.univ (bodyAt2 t) (fun _ =>
        iprop(iprop(owns (c : Thread nD τ) accM2 fullShare (acc2 V c t.val) ∗ Pipeline.scopedRestBut (Ix := Unit) (Name := ℕ) (U := UR sig nD τ) (Lvl := ℕ) (Val := Elt F) spec2 c [cc2_scratch0]) ∗ (dat2 V c).owesAt () t.castSucc
          ∗ owns (c : Thread nD τ) (st2_0 t) fullShare (blk2 V c 0 t)
          ∗ owns (c : Thread nD τ) (st2_1 t) fullShare (blk2 V c 1 t)
          ∗ owns (c : Thread nD τ) (st2_2 t) fullShare (k2_pay3 (acc2 V c t.val))))
  rw [acc2_step V c t hA, carried_pos2 V c t.val (fun h => hA (by rw [h]))]
  iintro ⟨⟨Hs, HR⟩, Ho, ⟨%d0, H0⟩, ⟨%d1, H1⟩, ⟨%d2, H2⟩⟩
  iapply (runC2 c Set.univ _ _ _ _ _ _ _ _ _ hr hf (blk2 V c 0 t) (blk2 V c 1 t) (acc2 V c (t.val - 1)) _)
  isplitl [H0]; · iexact H0
  isplitl [H1]; · iexact H1
  isplitl [H2]; · iexists _; iexact H2
  isplitl [Hs]; · iexact Hs
  iintro ⟨H0, H1, H2, Hs⟩
  isplitl [Hs HR]
  · isplitl [Hs]; · iexact Hs
    iexact HR
  isplitl [Ho]; · iexact Ho
  isplitl [H0]; · iexact H0
  isplitl [H1]; · iexact H1
  iexact H2

/-- The body obligation at every point, by the run. -/
theorem body2 (c : Dev nD) : BodyObligation (dat2 (F := F) V c) (defs₀ (F := F)) Variants.none () Set.univ := fun t => by
  rw [bigSep_W2, bigSep_W2]
  by_cases hC : t.val % 4 = 3
  · have hidle : cfg2.idle 2 (cfg2.grid.coords t) = false := by
      show (!(k2_cond2 (cfg2.grid.coords t) == 1#1)) = false
      rw [beq_iff_eq.mpr ((cond_flush_iff2 t).mpr hC)]; rfl
    rw [hidle]
    exact bodyFlush2 V c t hC
  · have hidle : cfg2.idle 2 (cfg2.grid.coords t) = true := by
      show (!(k2_cond2 (cfg2.grid.coords t) == 1#1)) = true
      rw [beq_false_of_ne (fun h => hC ((cond_flush_iff2 t).mp h))]; rfl
    have hfl : (cfg2.win 2).flush t = false := Bool.eq_false_iff.mpr (fun h => hC ((flush2_2 t).mp h))
    rw [hidle, hfl]
    exact bodyIdle2 V c t hC

end Cert.KernelIdeal.Hand

end
-- ==== Proof.Spec.lean ====
import Idealize.ShloMosaic.Lib.ValueIdx
import Idealize.ShloMosaic.PureOps.Ideal.Laws

/-! The network as one function of its six argument arrays, entry by entry over the extended reals: a linear layer, four
  diffusion steps, a rectified readout, four more diffusion steps, a readout with a residual. -/

noncomputable section

namespace Cert.Spec

open Idealize.ShloMosaic Idealize.ShloMosaic.ValueIdx

abbrev SX : Shape := ⟨3, ![2, 8192, 128]⟩
abbrev SA : Shape := ⟨3, ![2, 8192, 8192]⟩
abbrev SH : Shape := ⟨3, ![2, 8192, 64]⟩
abbrev SW0 : Shape := ⟨2, ![64, 128]⟩
abbrev SW : Shape := ⟨2, ![64, 64]⟩
abbrev SRow : Shape := ⟨2, ![1, 64]⟩
abbrev SB0 : Shape := ⟨1, ![64]⟩
abbrev SWs : Shape := ⟨3, ![2, 64, 64]⟩
abbrev SBs : Shape := ⟨2, ![2, 64]⟩

def linC (X : SX.Idx → EReal) (W : SW0.Idx → EReal) (bias : SRow.Idx → EReal) (b : Fin 2) (n : Fin 8192) (h : Fin 64) : EReal :=
  (∑ κ : Fin 128, X (ix3 b n κ) * W (ix2 h κ)) + bias (ix2 (0 : Fin 1) h)

/-- One diffusion step at an entry: row `n` of batch `b` of `A` against column `h` of batch `b` of `D`. -/
def diffC (A : SA.Idx → EReal) (D : SH.Idx → EReal) (b : Fin 2) (n : Fin 8192) (h : Fin 64) : EReal :=
  ∑ κ : Fin 8192, A (ix3 b n κ) * D (ix3 b κ h)

def readC (D : SH.Idx → EReal) (W : SW.Idx → EReal) (bias : SRow.Idx → EReal) (b : Fin 2) (n : Fin 8192) (h : Fin 64) : EReal :=
  (∑ κ : Fin 64, D (ix3 b n κ) * W (ix2 h κ)) + bias (ix2 (0 : Fin 1) h)

def arr3 (f : Fin 2 → Fin 8192 → Fin 64 → EReal) : SH.Idx → EReal := fun i => f (i 0) (i 1) (i 2)

theorem arr3_ix3 (f : Fin 2 → Fin 8192 → Fin 64 → EReal) (b : Fin 2) (n : Fin 8192) (h : Fin 64) :
    arr3 f (ix3 b n h) = f b n h := rfl

def lin (X : SX.Idx → EReal) (W : SW0.Idx → EReal) (bias : SRow.Idx → EReal) : SH.Idx → EReal := arr3 (linC X W bias)
def diffuse (A : SA.Idx → EReal) (D : SH.Idx → EReal) : SH.Idx → EReal := arr3 (diffC A D)
def readRelu (D : SH.Idx → EReal) (W : SW.Idx → EReal) (bias : SRow.Idx → EReal) : SH.Idx → EReal :=
  arr3 fun b n h => max (readC D W bias b n h) 0
def readRes (D : SH.Idx → EReal) (W : SW.Idx → EReal) (bias : SRow.Idx → EReal) : SH.Idx → EReal :=
  arr3 fun b n h => readC D W bias b n h + D (ix3 b n h)

def diffuse4 (A : SA.Idx → EReal) (D : SH.Idx → EReal) : SH.Idx → EReal := diffuse A (diffuse A (diffuse A (diffuse A D)))

def layerW (Ws : SWs.Idx → EReal) (l : Fin 2) : SW.Idx → EReal := fun i => Ws (ix3 l (i 0) (i 1))
def layerB (bs : SBs.Idx → EReal) (l : Fin 2) : SRow.Idx → EReal := fun i => bs (ix2 l (i 1))
def rowOf (b0 : SB0.Idx → EReal) : SRow.Idx → EReal := fun i => b0 (ix1 (i 1))

def net (x : SX.Idx → EReal) (adj : SA.Idx → EReal) (W0 : SW0.Idx → EReal) (b0 : SB0.Idx → EReal) (Ws : SWs.Idx → EReal) (bs : SBs.Idx → EReal) :
    SH.Idx → EReal :=
  readRes (diffuse4 adj (readRelu (diffuse4 adj (lin x W0 (rowOf b0))) (layerW Ws 0) (layerB bs 0))) (layerW Ws 1) (layerB bs 1)

/-- A sum over 8192 positions is the sum over four runs of 2048. -/
theorem sum_blocks (f : Fin 8192 → EReal) :
    ∑ κ : Fin 8192, f κ = ∑ g : Fin 4, ∑ j : Fin 2048, f ⟨2048 * g.val + j.val, by have := g.isLt; have := j.isLt; omega⟩ := by
  rw [← Equiv.sum_comp (finProdFinEquiv : Fin 4 × Fin 2048 ≃ Fin 8192) f, Fintype.sum_prod_type]
  refine Finset.sum_congr rfl fun g _ => Finset.sum_congr rfl fun j _ => ?_
  exact congrArg f (Fin.ext (by simp only [finProdFinEquiv, Equiv.coe_fn_mk]; omega))

/-- Four terms added onto 0 one after the other are their sum: addition is associative with neutral element 0. -/
theorem acc_four (d : Fin 4 → EReal) : (((0 + d 0) + d 1) + d 2) + d 3 = ∑ g : Fin 4, d g := by
  rw [Fin.sum_univ_four, zero_add]

end Cert.Spec

end
-- ==== Proof.LibPlainDot.lean ====
/-
  A plain matrix product [a, k] · [k, b] → [a, b]: no batch axis, one contracted axis of extent k (axis 1 of the left
  operand, axis 0 of the right), the rows from the left operand, the columns from the right.

  The dimension numbers place the coordinates: the left operand is read at (row of the result, contraction
  position), the right at (contraction position, column of the result). So at the ideal values, where both the
  kernel's product into a zero accumulator and the host's product are the exact sum over the contraction index,
  the entry (p, q) of either is  ∑ κ < k, l (p, κ) · r (κ, q).
-/
import Idealize.ShloMosaic.Lib.ValueIdx
import Idealize.ShloMosaic.PureOps.Ideal.Laws

namespace Cert.PlainDot

open Idealize.ShloMosaic Idealize.ShloMosaic.ValueIdx

variable {a k b : ℕ} (d : DotDims ⟨2, ![a, k]⟩ ⟨2, ![k, b]⟩ ⟨2, ![a, b]⟩)

/-- The dimension numbers of a plain matrix product. -/
structure Plain : Prop where
  lhsBatch : d.lhsBatch = []
  lhsNon : d.lhsNonContracting = [0]
  lhsContr : d.lhsContracting = [1]
  rhsBatch : d.rhsBatch = []
  rhsNon : d.rhsNonContracting = [1]
  rhsContr : d.rhsContracting = [0]

variable {d}

/-- The left operand's row is the result's row. -/
theorem lhs_row (h : Plain d) (j : (⟨2, ![a, b]⟩ : Shape).Idx) (q : d.contr.Idx) : (d.lhsIdx j q 0).val = (j 0).val := by
  unfold DotDims.lhsIdx
  rw [dif_neg (by rw [h.lhsBatch]; exact List.not_mem_nil), dif_pos (by rw [h.lhsNon]; exact List.mem_singleton.mpr rfl)]
  simp only [Fin.val_cast]
  have key : ∀ (p : Nat) (hp : p < 2), p = 0 → (j ⟨p, hp⟩).val = (j 0).val := fun p hp e => by subst e; rfl
  exact key _ _ (by simp [h.lhsBatch, h.lhsNon])

/-- The right operand's column is the result's column. -/
theorem rhs_col (h : Plain d) (j : (⟨2, ![a, b]⟩ : Shape).Idx) (q : d.contr.Idx) : (d.rhsIdx j q 1).val = (j 1).val := by
  unfold DotDims.rhsIdx
  rw [dif_neg (by rw [h.rhsBatch]; exact List.not_mem_nil), dif_pos (by rw [h.rhsNon]; exact List.mem_singleton.mpr rfl)]
  simp only [Fin.val_cast]
  have key : ∀ (p : Nat) (hp : p < 2), p = 1 → (j ⟨p, hp⟩).val = (j 1).val := fun p hp e => by subst e; rfl
  exact key _ _ (by simp [h.lhsBatch, h.lhsNon, h.rhsNon])

/-- The contraction over the record's own index type, re-indexed to κ < k. -/
theorem sum_contr (h : Plain d) (hr : d.contr.rank = 1) (hs : d.contr.size ⟨0, by omega⟩ = k)
    (l : (⟨2, ![a, k]⟩ : Shape).Idx → EReal) (r : (⟨2, ![k, b]⟩ : Shape).Idx → EReal) (p : Fin a) (q : Fin b) :
    ∑ κ : d.contr.Idx, l (d.lhsIdx (ix2 p q) κ) * r (d.rhsIdx (ix2 p q) κ) = ∑ κ : Fin k, l (ix2 p κ) * r (ix2 κ q) := by
  rw [← Equiv.sum_comp (contrEquiv1 d k hr hs).symm]
  refine Finset.sum_congr rfl fun κ _ => ?_
  have hk := contrEquiv1_symm_val d k hr hs κ
  have el : d.lhsIdx (ix2 p q) ((contrEquiv1 d k hr hs).symm κ) = ix2 p κ := funext fun x => Fin.ext (by
    match x with
    | ⟨0, _⟩ => exact lhs_row h _ _
    | ⟨1, _⟩ => exact (d.lhsIdx_val_of_single h.lhsContr _ _).trans hk)
  have er : d.rhsIdx (ix2 p q) ((contrEquiv1 d k hr hs).symm κ) = ix2 κ q := funext fun x => Fin.ext (by
    match x with
    | ⟨0, _⟩ => exact (d.rhsIdx_val_of_single h.rhsContr _ _).trans hk
    | ⟨1, _⟩ => exact rhs_col h _ _)
  rw [el, er]

/-- The kernel's matrix product into a zero accumulator, at an entry. -/
theorem matmul_zero_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    matmul d prec l r (constant ⟨2, ![a, b]⟩ .f32 0x00000000#32) (ix2 p q) = ∑ κ : Fin k, l (ix2 p κ) * r (ix2 κ q) :=
  (Ideal.matmul_constant_zero_apply d prec l r (ix2 p q)).trans (sum_contr h hr hs l r p q)

/-- The host's matrix product, at an entry. -/
theorem dotGeneral_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    Host.dotGeneral d prec l r (ix2 p q) = ∑ κ : Fin k, l (ix2 p κ) * r (ix2 κ q) := by
  simp only [Host.dotGeneral]
  exact (Ideal.dotGeneral_apply d prec _ l r (ix2 p q)).trans (sum_contr h hr hs l r p q)

end Cert.PlainDot
-- ==== Proof.LibDotNT.lean ====
/-
  A matrix product with the right operand transposed, [a, k] · [b, k]ᵀ → [a, b]: no batch axis, one contracted axis of
  extent k which is axis 1 of BOTH operands; the result's rows come from the left operand's axis 0 and its columns from
  the right operand's axis 0.

  The dimension numbers place the coordinates. The result's axes are listed as (left kept axes, then right kept axes),
  so the right operand's kept axis 0 is the result's axis 1, and each operand's contracted axis 1 carries the
  contraction position. Hence the left operand is read at (row of the result, contraction position) and the right
  operand at (column of the result, contraction position): row q of the right operand, not column q. At the ideal
  values both the kernel's product into a zero accumulator and the host's product are the exact sum over the
  contraction index, so the entry (p, q) of either is  ∑ κ < k, l (p, κ) · r (q, κ).
-/
import Idealize.ShloMosaic.Lib.ValueIdx
import Idealize.ShloMosaic.PureOps.Ideal.Laws

namespace Cert.DotNT

open Idealize.ShloMosaic Idealize.ShloMosaic.ValueIdx

/-- A coordinate of an index depends on the axis only through the axis's number. -/
theorem val_at {s : Shape} (j : s.Idx) {x y : Fin s.rank} (e : x.val = y.val) : (j x).val = (j y).val := by
  obtain rfl : x = y := Fin.ext e
  rfl

variable {a k b : ℕ} (d : DotDims ⟨2, ![a, k]⟩ ⟨2, ![b, k]⟩ ⟨2, ![a, b]⟩)

/-- The dimension numbers of a matrix product whose right operand is transposed: both operands contract their axis 1
    and keep their axis 0. -/
structure RhsT : Prop where
  lhsBatch : d.lhsBatch = []
  lhsNon : d.lhsNonContracting = [0]
  lhsContr : d.lhsContracting = [1]
  rhsBatch : d.rhsBatch = []
  rhsNon : d.rhsNonContracting = [0]
  rhsContr : d.rhsContracting = [1]

variable {d}

/-- The contraction index's one coordinate, as a number below k. -/
theorem contrEquiv1_val (hr : d.contr.rank = 1) (hs : d.contr.size ⟨0, by omega⟩ = k) (c : d.contr.Idx) :
    (contrEquiv1 d k hr hs c).val = (c ⟨0, by omega⟩).val := rfl

/-- The left operand's kept axis 0 is the first of the result's axes: it reads the result's row. -/
theorem lhs_axis0 (h : RhsT d) (j : (⟨2, ![a, b]⟩ : Shape).Idx) (c : d.contr.Idx) : (d.lhsIdx j c 0).val = (j 0).val := by
  have hb : (0 : Fin 2) ∉ d.lhsBatch := by rw [h.lhsBatch]; exact List.not_mem_nil
  have hn : (0 : Fin 2) ∈ d.lhsNonContracting := by rw [h.lhsNon]; exact List.mem_singleton.mpr rfl
  unfold DotDims.lhsIdx
  rw [dif_neg hb, dif_pos hn]
  simp only [Fin.val_cast]
  exact val_at j (by simp [h.lhsBatch, h.lhsNon])

/-- The right operand's kept axis 0 comes after the left operand's one kept axis among the result's axes: it reads
    the result's column. -/
theorem rhs_axis0 (h : RhsT d) (j : (⟨2, ![a, b]⟩ : Shape).Idx) (c : d.contr.Idx) : (d.rhsIdx j c 0).val = (j 1).val := by
  have hb : (0 : Fin 2) ∉ d.rhsBatch := by rw [h.rhsBatch]; exact List.not_mem_nil
  have hn : (0 : Fin 2) ∈ d.rhsNonContracting := by rw [h.rhsNon]; exact List.mem_singleton.mpr rfl
  unfold DotDims.rhsIdx
  rw [dif_neg hb, dif_pos hn]
  simp only [Fin.val_cast]
  exact val_at j (by simp [h.lhsBatch, h.lhsNon, h.rhsNon])

/-- The left operand is read at (row of the result, contraction position). -/
theorem lhsIdx_eq (h : RhsT d) (hr : d.contr.rank = 1) (hs : d.contr.size ⟨0, by omega⟩ = k) (p : Fin a) (q : Fin b)
    (c : d.contr.Idx) : d.lhsIdx (ix2 p q) c = ix2 p (contrEquiv1 d k hr hs c) := by
  funext x
  apply Fin.ext
  match x with
  | ⟨0, _⟩ => exact lhs_axis0 h _ _
  | ⟨1, _⟩ => exact (d.lhsIdx_val_of_single h.lhsContr _ _).trans (contrEquiv1_val hr hs c).symm

/-- The right operand is read at (column of the result, contraction position): its axis 0 is the kept one and its
    axis 1 the contracted one. -/
theorem rhsIdx_eq (h : RhsT d) (hr : d.contr.rank = 1) (hs : d.contr.size ⟨0, by omega⟩ = k) (p : Fin a) (q : Fin b)
    (c : d.contr.Idx) : d.rhsIdx (ix2 p q) c = ix2 q (contrEquiv1 d k hr hs c) := by
  funext x
  apply Fin.ext
  match x with
  | ⟨0, _⟩ => exact rhs_axis0 h _ _
  | ⟨1, _⟩ => exact (d.rhsIdx_val_of_single h.rhsContr _ _).trans (contrEquiv1_val hr hs c).symm

/-- The contraction over the record's own index type is the sum over κ < k of the left row p against the right row q. -/
theorem sum_contr (h : RhsT d) (hr : d.contr.rank = 1) (hs : d.contr.size ⟨0, by omega⟩ = k)
    (l : (⟨2, ![a, k]⟩ : Shape).Idx → EReal) (r : (⟨2, ![b, k]⟩ : Shape).Idx → EReal) (p : Fin a) (q : Fin b) :
    ∑ c : d.contr.Idx, l (d.lhsIdx (ix2 p q) c) * r (d.rhsIdx (ix2 p q) c) = ∑ κ : Fin k, l (ix2 p κ) * r (ix2 q κ) :=
  Fintype.sum_equiv (contrEquiv1 d k hr hs) _ _ fun c => by rw [lhsIdx_eq h hr hs, rhsIdx_eq h hr hs]

/-- The kernel's matrix product into a zero accumulator, at an entry. -/
theorem matmul_zero_apply {φ₁ φ₂ : FTy} (h : RhsT d) (hr : d.contr.rank = 1) (hs : d.contr.size ⟨0, by omega⟩ = k)
    (prec : Option ContractPrecision) (l : FVec Ideal ⟨2, ![a, k]⟩ φ₁) (r : FVec Ideal ⟨2, ![b, k]⟩ φ₂) (p : Fin a) (q : Fin b) :
    matmul d prec l r (constant ⟨2, ![a, b]⟩ .f32 0x00000000#32) (ix2 p q) = ∑ κ : Fin k, l (ix2 p κ) * r (ix2 q κ) := by
  rw [← sum_contr h hr hs l r p q]
  exact Ideal.matmul_constant_zero_apply d prec l r (ix2 p q)

/-- The host's matrix product, at an entry. -/
theorem dotGeneral_apply {φ₁ φ₂ : FTy} (h : RhsT d) (hr : d.contr.rank = 1) (hs : d.contr.size ⟨0, by omega⟩ = k)
    (prec : Option ContractPrecision) (l : FVec Ideal ⟨2, ![a, k]⟩ φ₁) (r : FVec Ideal ⟨2, ![b, k]⟩ φ₂) (p : Fin a) (q : Fin b) :
    Host.dotGeneral d prec l r (ix2 p q) = ∑ κ : Fin k, l (ix2 p κ) * r (ix2 q κ) := by
  rw [← sum_contr h hr hs l r p q]
  simp only [Host.dotGeneral]
  exact Ideal.dotGeneral_apply d prec _ l r (ix2 p q)

end Cert.DotNT
-- ==== Proof.KI.Dots.lean ====
import proofs.«137169_j48112223650339_1_alg».proof.KernelIdeal
import proofs.«137169_j48112223650339_1_alg».proof.Proof.LibPlainDot
import proofs.«137169_j48112223650339_1_alg».proof.Proof.LibDotNT

/-! The kernels' three matrix products, onto a zero accumulator, as plain sums over the contracted axis. -/

namespace Cert.KernelIdeal.Dots

open Idealize.ShloMosaic Idealize.ShloMosaic.ValueIdx

variable [Facts₀]

theorem diffuse_dot (l : FVec Ideal S2048x2048 .bf16) (r : FVec Ideal S2048x64 .bf16) (p : Fin 2048) (q : Fin 64) :
    matmul dot_S2048x2048_S2048x64_S2048x64_1_0_0_1_n_n none l r (constant S2048x64 .f32 0x00000000#32) (ix2 p q)
      = ∑ κ : Fin 2048, l (ix2 p κ) * r (ix2 κ q) :=
  Cert.PlainDot.matmul_zero_apply (d := dot_S2048x2048_S2048x64_S2048x64_1_0_0_1_n_n)
    ⟨rfl, rfl, rfl, rfl, rfl, rfl⟩ rfl rfl none l r p q

theorem lin_dot (l : FVec Ideal S1024x128 .bf16) (r : FVec Ideal S64x128 .bf16) (p : Fin 1024) (q : Fin 64) :
    matmul dot_S1024x128_S64x128_S1024x64_1_1_0_0_n_n none l r (constant S1024x64 .f32 0x00000000#32) (ix2 p q)
      = ∑ κ : Fin 128, l (ix2 p κ) * r (ix2 q κ) :=
  Cert.DotNT.matmul_zero_apply (d := dot_S1024x128_S64x128_S1024x64_1_1_0_0_n_n)
    ⟨rfl, rfl, rfl, rfl, rfl, rfl⟩ rfl rfl none l r p q

theorem read_dot (l : FVec Ideal S1024x64 .bf16) (r : FVec Ideal S64x64 .bf16) (p : Fin 1024) (q : Fin 64) :
    matmul dot_S1024x64_S64x64_S1024x64_1_1_0_0_n_n none l r (constant S1024x64 .f32 0x00000000#32) (ix2 p q)
      = ∑ κ : Fin 64, l (ix2 p κ) * r (ix2 q κ) :=
  Cert.DotNT.matmul_zero_apply (d := dot_S1024x64_S64x64_S1024x64_1_1_0_0_n_n)
    ⟨rfl, rfl, rfl, rfl, rfl, rfl⟩ rfl rfl none l r p q

end Cert.KernelIdeal.Dots
-- ==== Proof.KI.R2Val.lean ====
import proofs.«137169_j48112223650339_1_alg».proof.Proof.Gen.KernelIdeal.Launch
import proofs.«137169_j48112223650339_1_alg».proof.Proof.Gen.KernelIdeal.Skeleton
import proofs.«137169_j48112223650339_1_alg».proof.Proof.Gen.KernelIdeal.Points
import Idealize.ShloMosaic.Lib.Pipeline.FrameBody
import Idealize.ShloMosaic.Lib.Pipeline.Frame
import Idealize.ShloMosaic.Lib.Tactic

import Idealize.ShloMosaic.Lib.Pipeline.Value
import Idealize.ShloMosaic.Lib.ValueIdx
import Idealize.ShloMosaic.Lib.ValueLayout
import Idealize.ShloMosaic.PureOps.Ideal.Laws
import proofs.«137169_j48112223650339_1_alg».proof.Proof.KI.R2
import proofs.«137169_j48112223650339_1_alg».proof.Proof.Spec
import proofs.«137169_j48112223650339_1_alg».proof.Proof.KI.Dots

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

theorem zeroAcc2_apply (p : Fin 2048) (q : Fin 64) : k2_pay1 (F := Ideal) (ix2 p q) = 0 := by
  unfold k2_pay1
  refine (congrFun (shapeCast_self _ _) _).trans ?_
  exact Ideal.ofBits_zero_f32

theorem accStep2_apply (x : Vec Ideal S1x2048x2048 .bf16) (y : Vec Ideal S1x2048x64 .f32) (acc : Vec Ideal S2048x64 .f32)
    (p : Fin 2048) (q : Fin 64) :
    k2_pay2 (F := Ideal) x y acc (ix2 p q)
      = acc (ix2 p q) + ∑ κ : Fin 2048, x (ix3 (0 : Fin 1) p κ) * y (ix3 (0 : Fin 1) κ q) := by
  unfold k2_pay2
  refine (congrFun (shapeCast_self _ _) _).trans ?_
  refine congrArg (fun z => acc (ix2 p q) + z) ?_
  refine (Dots.diffuse_dot _ _ p q).trans ?_
  refine Finset.sum_congr rfl fun κ _ => ?_
  exact congrArg₂ (· * ·) (shapeCast_1ab_ab_apply x _ p κ) (shapeCast_1ab_ab_apply y _ κ q)

theorem outBlock2_apply (v : Vec Ideal S2048x64 .f32) (u : Fin 1) (p : Fin 2048) (q : Fin 64) :
    k2_pay3 (F := Ideal) v (ix3 u p q) = v (ix2 p q) := by
  unfold k2_pay3
  exact shapeCast_ab_1ab_apply v _ u p q

theorem fourRuns2_apply (x0 x1 x2 x3 : Vec Ideal S1x2048x2048 .bf16) (y0 y1 y2 y3 : Vec Ideal S1x2048x64 .f32)
    (u : Fin 1) (p : Fin 2048) (q : Fin 64) :
    k2_pay3 (F := Ideal) (k2_pay2 x3 y3 (k2_pay2 x2 y2 (k2_pay2 x1 y1 (k2_pay2 x0 y0 (k2_pay1 (F := Ideal)))))) (ix3 u p q)
      = (((0 + ∑ κ : Fin 2048, x0 (ix3 (0 : Fin 1) p κ) * y0 (ix3 (0 : Fin 1) κ q))
            + ∑ κ : Fin 2048, x1 (ix3 (0 : Fin 1) p κ) * y1 (ix3 (0 : Fin 1) κ q))
          + ∑ κ : Fin 2048, x2 (ix3 (0 : Fin 1) p κ) * y2 (ix3 (0 : Fin 1) κ q))
        + ∑ κ : Fin 2048, x3 (ix3 (0 : Fin 1) p κ) * y3 (ix3 (0 : Fin 1) κ q) := by
  rw [outBlock2_apply, accStep2_apply, accStep2_apply, accStep2_apply, accStep2_apply, zeroAcc2_apply]

abbrev runPos2 (g : Fin 4) (j : Fin 2048) : Fin 8192 := ⟨2048 * g.val + j.val, by have := g.isLt; have := j.isLt; omega⟩

theorem runsValue2 (A : S2x8192x8192.Idx → EReal) (D : S2x8192x64.Idx → EReal) (b : Fin 2) (i : Fin 4)
    (x0 x1 x2 x3 : Vec Ideal S1x2048x2048 .bf16) (y0 y1 y2 y3 : Vec Ideal S1x2048x64 .f32)
    (hx0 : ∀ p κ : Fin 2048, x0 (ix3 (0 : Fin 1) p κ) = A (ix3 b (runPos2 i p) (runPos2 0 κ)))
    (hx1 : ∀ p κ : Fin 2048, x1 (ix3 (0 : Fin 1) p κ) = A (ix3 b (runPos2 i p) (runPos2 1 κ)))
    (hx2 : ∀ p κ : Fin 2048, x2 (ix3 (0 : Fin 1) p κ) = A (ix3 b (runPos2 i p) (runPos2 2 κ)))
    (hx3 : ∀ p κ : Fin 2048, x3 (ix3 (0 : Fin 1) p κ) = A (ix3 b (runPos2 i p) (runPos2 3 κ)))
    (hy0 : ∀ (κ : Fin 2048) (q : Fin 64), y0 (ix3 (0 : Fin 1) κ q) = D (ix3 b (runPos2 0 κ) q))
    (hy1 : ∀ (κ : Fin 2048) (q : Fin 64), y1 (ix3 (0 : Fin 1) κ q) = D (ix3 b (runPos2 1 κ) q))
    (hy2 : ∀ (κ : Fin 2048) (q : Fin 64), y2 (ix3 (0 : Fin 1) κ q) = D (ix3 b (runPos2 2 κ) q))
    (hy3 : ∀ (κ : Fin 2048) (q : Fin 64), y3 (ix3 (0 : Fin 1) κ q) = D (ix3 b (runPos2 3 κ) q))
    (u : Fin 1) (p : Fin 2048) (q : Fin 64) :
    k2_pay3 (F := Ideal) (k2_pay2 x3 y3 (k2_pay2 x2 y2 (k2_pay2 x1 y1 (k2_pay2 x0 y0 (k2_pay1 (F := Ideal)))))) (ix3 u p q)
      = Cert.Spec.diffC A D b (runPos2 i p) q := by
  rw [fourRuns2_apply]
  simp only [hx0, hx1, hx2, hx3, hy0, hy1, hy2, hy3]
  exact (Cert.Spec.acc_four fun g => ∑ κ : Fin 2048, A (ix3 b (runPos2 i p) (runPos2 g κ)) * D (ix3 b (runPos2 g κ) q)).trans
    (Cert.Spec.sum_blocks fun κ => A (ix3 b (runPos2 i p) κ) * D (ix3 b κ q)).symm

section AnyArrays

-- the two arrays a diffusion region reads, and the accumulator's contents after each grid point
variable (A : S2x8192x8192.Idx → EReal) (D : S2x8192x64.Idx → EReal) (acc : ℕ → Vec Ideal S2048x64 .f32)

/-- The block of `A` and the block of `D` the body multiplies at point `t`. -/
abbrev lhsBlk (t : Fin cfg2.N) : Vec Ideal S1x2048x2048 .bf16 := ((cfg2.win 0).blk t).view.read (Elt Ideal) A
abbrev rhsBlk (t : Fin cfg2.N) : Vec Ideal S1x2048x64 .f32 := ((cfg2.win 1).blk t).view.read (Elt Ideal) D

/-- The grid's 32 points are (batch, row block, run) = (t / 16, t / 4 % 4, t % 4); the three windows' block indices follow. -/
theorem idx_facts2 : ∀ t : Fin cfg2.N,
    win2_0.index t (0 : Fin 3) = t.val / 16 ∧ win2_0.index t (1 : Fin 3) = t.val / 4 % 4 ∧ win2_0.index t (2 : Fin 3) = t.val % 4
    ∧ win2_1.index t (0 : Fin 3) = t.val / 16 ∧ win2_1.index t (1 : Fin 3) = t.val % 4 ∧ win2_1.index t (2 : Fin 3) = 0
    ∧ win2_2.index t (0 : Fin 3) = t.val / 16 ∧ win2_2.index t (1 : Fin 3) = t.val / 4 % 4 ∧ win2_2.index t (2 : Fin 3) = 0 :=
  (by decide +kernel : ∀ t : Fin grid2.N, _)

theorem lhsBlk_apply (t : Fin cfg2.N) (b : Fin 2) (i k : Fin 4) (hb : t.val / 16 = b.val)
    (hi : t.val / 4 % 4 = i.val) (hk : t.val % 4 = k.val) (u : Fin 1) (p κ : Fin 2048) :
    lhsBlk A t (ix3 u p κ) = A (ix3 b (runPos2 i p) (runPos2 k κ)) := by
  obtain ⟨e0, e1, e2, -⟩ := idx_facts2 t
  have hu := u.isLt
  show A (((cfg2.win 0).blk t).view.emb (ix3 u p κ)) = A (ix3 b (runPos2 i p) (runPos2 k κ))
  refine congrArg A (funext fun a => Fin.ext ?_)
  match a with
  | ⟨0, _⟩ => show win2_0.index t (0 : Fin 3) * 1 + 1 * u.val = b.val; omega
  | ⟨1, _⟩ => show win2_0.index t (1 : Fin 3) * 2048 + 1 * p.val = 2048 * i.val + p.val; omega
  | ⟨2, _⟩ => show win2_0.index t (2 : Fin 3) * 2048 + 1 * κ.val = 2048 * k.val + κ.val; omega

theorem rhsBlk_apply (t : Fin cfg2.N) (b : Fin 2) (k : Fin 4) (hb : t.val / 16 = b.val)
    (hk : t.val % 4 = k.val) (u : Fin 1) (κ : Fin 2048) (q : Fin 64) :
    rhsBlk D t (ix3 u κ q) = D (ix3 b (runPos2 k κ) q) := by
  obtain ⟨-, -, -, e0, e1, e2, -⟩ := idx_facts2 t
  have hu := u.isLt
  show D (((cfg2.win 1).blk t).view.emb (ix3 u κ q)) = D (ix3 b (runPos2 k κ) q)
  refine congrArg D (funext fun a => Fin.ext ?_)
  match a with
  | ⟨0, _⟩ => show win2_1.index t (0 : Fin 3) * 1 + 1 * u.val = b.val; omega
  | ⟨1, _⟩ => show win2_1.index t (1 : Fin 3) * 2048 + 1 * κ.val = 2048 * k.val + κ.val; omega
  | ⟨2, _⟩ => show win2_1.index t (2 : Fin 3) * 64 + 1 * q.val = q.val; omega

theorem outBlk_emb (t : Fin cfg2.N) (b : Fin 2) (i : Fin 4) (hb : t.val / 16 = b.val) (hi : t.val / 4 % 4 = i.val)
    (u : Fin 1) (p : Fin 2048) (q : Fin 64) :
    (((cfg2.win 2).blk t).view.emb (ix3 u p q) : S2x8192x64.Idx) = ix3 b (runPos2 i p) q := by
  obtain ⟨-, -, -, -, -, -, e0, e1, e2⟩ := idx_facts2 t
  have hu := u.isLt
  refine funext fun a => Fin.ext ?_
  match a with
  | ⟨0, _⟩ => show win2_2.index t (0 : Fin 3) * 1 + 1 * u.val = b.val; omega
  | ⟨1, _⟩ => show win2_2.index t (1 : Fin 3) * 2048 + 1 * p.val = 2048 * i.val + p.val; omega
  | ⟨2, _⟩ => show win2_2.index t (2 : Fin 3) * 64 + 1 * q.val = q.val; omega

/-- Whatever the two arrays hold: if the accumulator restarts at the points ≡ 0 (mod 4) and otherwise adds the point's
    product to what the point before left, then at a point ≡ 3 (mod 4) the accumulator, laid out as an output block, is
    that block of one diffusion step of the two arrays: four partial sums over runs of 2048 are the sum over 8192. -/
theorem flushed_eq
    (hreset : ∀ t : Fin cfg2.N, t.val % 4 = 0 → acc t.val = k2_pay2 (lhsBlk A t) (rhsBlk D t) (k2_pay1 (F := Ideal)))
    (hstep : ∀ t : Fin cfg2.N, t.val % 4 ≠ 0 → acc t.val = k2_pay2 (lhsBlk A t) (rhsBlk D t) (acc (t.val - 1)))
    (t : Fin cfg2.N) (h3 : t.val % 4 = 3) :
    k2_pay3 (F := Ideal) (acc t.val) = ((cfg2.win 2).blk t).view.read (Elt Ideal) (Cert.Spec.diffuse A D) := by
  have hN : cfg2.N = 32 := N_2
  have hlt : t.val < 32 := by have := t.isLt; omega
  funext j
  obtain ⟨u, p, q, rfl⟩ : ∃ (u : Fin 1) (p : Fin 2048) (q : Fin 64), j = ix3 u p q := ⟨j 0, j 1, j 2, eq_ix3 j⟩
  show k2_pay3 (F := Ideal) (acc t.val) (ix3 u p q) = Cert.Spec.diffuse A D (((cfg2.win 2).blk t).view.emb (ix3 u p q))
  obtain ⟨b, hb⟩ : ∃ b : Fin 2, t.val / 16 = b.val := ⟨⟨t.val / 16, by omega⟩, rfl⟩
  obtain ⟨i, hi⟩ : ∃ i : Fin 4, t.val / 4 % 4 = i.val := ⟨⟨t.val / 4 % 4, by omega⟩, rfl⟩
  obtain ⟨t0, ht0⟩ : ∃ s : Fin cfg2.N, s.val = t.val - 3 := ⟨⟨t.val - 3, by omega⟩, rfl⟩
  obtain ⟨t1, ht1⟩ : ∃ s : Fin cfg2.N, s.val = t.val - 2 := ⟨⟨t.val - 2, by omega⟩, rfl⟩
  obtain ⟨t2, ht2⟩ : ∃ s : Fin cfg2.N, s.val = t.val - 1 := ⟨⟨t.val - 1, by omega⟩, rfl⟩
  rw [hstep t (by omega), show t.val - 1 = t2.val by omega, hstep t2 (by omega), show t2.val - 1 = t1.val by omega,
    hstep t1 (by omega), show t1.val - 1 = t0.val by omega, hreset t0 (by omega), outBlk_emb t b i hb hi u p q]
  exact runsValue2 A D b i _ _ _ _ _ _ _ _
    (fun p κ => lhsBlk_apply A t0 b i 0 (by omega) (by omega) (by show t0.val % 4 = 0; omega) 0 p κ)
    (fun p κ => lhsBlk_apply A t1 b i 1 (by omega) (by omega) (by show t1.val % 4 = 1; omega) 0 p κ)
    (fun p κ => lhsBlk_apply A t2 b i 2 (by omega) (by omega) (by show t2.val % 4 = 2; omega) 0 p κ)
    (fun p κ => lhsBlk_apply A t b i 3 hb hi (by show t.val % 4 = 3; omega) 0 p κ)
    (fun κ q => rhsBlk_apply D t0 b 0 (by omega) (by show t0.val % 4 = 0; omega) 0 κ q)
    (fun κ q => rhsBlk_apply D t1 b 1 (by omega) (by show t1.val % 4 = 1; omega) 0 κ q)
    (fun κ q => rhsBlk_apply D t2 b 2 (by omega) (by show t2.val % 4 = 2; omega) 0 κ q)
    (fun κ q => rhsBlk_apply D t b 3 hb (by show t.val % 4 = 3; omega) 0 κ q)
    u p q

end AnyArrays

theorem mem_blk2 (t : Fin cfg2.N) (i : S2x8192x64.Idx) :
    i ∈ ((cfg2.win 2).blk t).view.set ↔ ∀ a : Fin 3, win2_2.index t a * S1x2048x64.size a ≤ (i a).val
      ∧ (i a).val < win2_2.index t a * S1x2048x64.size a + S1x2048x64.size a := by
  show i ∈ ((View.whole (Pipeline.arrRef spec2 2)).slice (win2_2.rect t)).set ↔ _
  rw [View.set_slice_whole, Rect.mem_set_unit]
  exact Iff.rfl

theorem cover2 (i : S2x8192x64.Idx) : ∃ t : Fin cfg2.N, (cfg2.win 2).flush t = true ∧ i ∈ ((cfg2.win 2).blk t).view.set := by
  have h0 : (i 0).val < 2 := (i 0).isLt
  have h1 : (i 1).val < 8192 := (i 1).isLt
  have h2 : (i 2).val < 64 := (i 2).isLt
  have hN : cfg2.N = 32 := N_2
  refine ⟨⟨16 * (i 0).val + 4 * ((i 1).val / 2048) + 3, by rw [hN]; omega⟩,
    (flush2_2 _).mpr (by show (16 * (i 0).val + 4 * ((i 1).val / 2048) + 3) % 4 = 3; omega), ?_⟩
  rw [mem_blk2]
  obtain ⟨-, -, -, -, -, -, f0, f1, f2⟩ := idx_facts2 ⟨16 * (i 0).val + 4 * ((i 1).val / 2048) + 3, by rw [hN]; omega⟩
  intro a
  match a with
  | ⟨0, _⟩ =>
    show win2_2.index _ (0 : Fin 3) * 1 ≤ (i 0).val ∧ (i 0).val < win2_2.index _ (0 : Fin 3) * 1 + 1
    rw [f0]
    show (16 * (i 0).val + 4 * ((i 1).val / 2048) + 3) / 16 * 1 ≤ (i 0).val
      ∧ (i 0).val < (16 * (i 0).val + 4 * ((i 1).val / 2048) + 3) / 16 * 1 + 1
    omega
  | ⟨1, _⟩ =>
    show win2_2.index _ (1 : Fin 3) * 2048 ≤ (i 1).val ∧ (i 1).val < win2_2.index _ (1 : Fin 3) * 2048 + 2048
    rw [f1]
    show (16 * (i 0).val + 4 * ((i 1).val / 2048) + 3) / 4 % 4 * 2048 ≤ (i 1).val
      ∧ (i 1).val < (16 * (i 0).val + 4 * ((i 1).val / 2048) + 3) / 4 % 4 * 2048 + 2048
    omega
  | ⟨2, _⟩ =>
    show win2_2.index _ (2 : Fin 3) * 64 ≤ (i 2).val ∧ (i 2).val < win2_2.index _ (2 : Fin 3) * 64 + 64
    rw [f2]; omega

variable (V : (c : Dev nD) → (b : Ref sig .tc) → Buf (Elt Ideal) ((c : Thread nD τ).loc b))

/-- After the last write-back the output's array holds one diffusion step of the two arrays the region reads. -/
theorem val2 (c : Dev nD) :
    (dat2 (F := Ideal) V c).arrAt 2 cfg2.N
      = Cert.Spec.diffuse (V c (Pipeline.arrRef spec2 0)) (V c (Pipeline.arrRef spec2 1)) :=
  (dat2 (F := Ideal) V c).arrAt_eq_of_cover 2 _
    (fun t hf => by
      show (cfg2.win 2).cut (grid2.coords t) ((dat2 V c).after 2 t) = _
      rw [dat2_after2]
      exact flushed_eq _ _ (acc2 V c) (fun t h => acc2_reset V c t h) (fun t h => acc2_step V c t h) t ((flush2_2 t).mp hf))
    cover2

end Cert.KernelIdeal.Hand

end
-- ==== Proof.KI.R3.lean ====
import proofs.«137169_j48112223650339_1_alg».proof.Proof.Gen.KernelIdeal.Launch
import proofs.«137169_j48112223650339_1_alg».proof.Proof.Gen.KernelIdeal.Skeleton
import proofs.«137169_j48112223650339_1_alg».proof.Proof.Gen.KernelIdeal.Points
import proofs.«137169_j48112223650339_1_alg».proof.Proof.KI.R2
import proofs.«137169_j48112223650339_1_alg».proof.Proof.KI.R2Val
import Idealize.ShloMosaic.Lib.Pipeline.FrameBody
import Idealize.ShloMosaic.Lib.Pipeline.Frame
import Idealize.ShloMosaic.Lib.Pipeline.Value
import Idealize.ShloMosaic.Lib.Tactic

/-! A diffusion step like region 2: the same body on other buffers (`bodyAt3_eq`), so region 2's payloads, its three body
  theorems and its value lemma serve, and only the bookkeeping over this region's own buffers is written again. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (V : (c : Dev nD) → (b : Ref sig .tc) → Buf (Elt F) ((c : Thread nD τ).loc b))

def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def acc3 (c : Dev nD) : ℕ → Vec F S2048x64 .f32
  | 0 => if h : 0 < cfg3.N then k2_pay2 (blk3 V c 0 ⟨0, h⟩) (blk3 V c 1 ⟨0, h⟩) (k2_pay1 (F := F)) else k2_pay1 (F := F)
  | m + 1 =>
    if h : m + 1 < cfg3.N then
      k2_pay2 (blk3 V c 0 ⟨m + 1, h⟩) (blk3 V c 1 ⟨m + 1, h⟩) (if (m + 1) % 4 = 0 then k2_pay1 (F := F) else acc3 c m)
    else k2_pay1 (F := F)

theorem acc3_reset (c : Dev nD) (t : Fin cfg3.N) (h : t.val % 4 = 0) :
    acc3 V c t.val = k2_pay2 (blk3 V c 0 t) (blk3 V c 1 t) (k2_pay1 (F := F)) := by
  obtain ⟨n, hn⟩ := t
  cases n with
  | zero => show acc3 V c 0 = _; rw [acc3, dif_pos hn]
  | succ m => show acc3 V c (m + 1) = _; rw [acc3, dif_pos hn, if_pos h]

theorem acc3_step (c : Dev nD) (t : Fin cfg3.N) (h : t.val % 4 ≠ 0) :
    acc3 V c t.val = k2_pay2 (blk3 V c 0 t) (blk3 V c 1 t) (acc3 V c (t.val - 1)) := by
  obtain ⟨n, hn⟩ := t
  cases n with
  | zero => exact absurd rfl h
  | succ m => show acc3 V c (m + 1) = _; rw [acc3, dif_pos hn, if_neg h]; rfl

abbrev accM3 : Memref sig .tc .vmem S2048x64 .f32 := Memref.whole cc3_scratch0

/-- The region runs region 2's body. -/
theorem bodyAt3_eq (t : Fin cfg3.N) :
    bodyAt3 (F := F) t = cc2__diffuse_kernel (grid3.coords t) (st3_0 t) (Facts₀.hstage3_0 ((cfg3.slots t 0).cast Facts₀.nbuf3_0))
      (st3_1 t) (Facts₀.hstage3_1 ((cfg3.slots t 1).cast Facts₀.nbuf3_1)) (st3_2 t) (Facts₀.hstage3_2 ((cfg3.slots t 2).cast Facts₀.nbuf3_2))
      accM3 (Memref.isWhole_whole _) := rfl

def carried3 (c : Dev nD) : ℕ → sProp 𝕄
  | 0 => iprop((∃ s, owns (c : Thread nD τ) accM3 fullShare s) ∗ Pipeline.scopedRestBut (Ix := Unit) (Name := ℕ) (U := UR sig nD τ) (Lvl := ℕ) (Val := Elt F) spec3 c [cc3_scratch0])
  | m + 1 => iprop(owns (c : Thread nD τ) accM3 fullShare (acc3 V c m) ∗ Pipeline.scopedRestBut (Ix := Unit) (Name := ℕ) (U := UR sig nD τ) (Lvl := ℕ) (Val := Elt F) spec3 c [cc3_scratch0])

theorem carried_any3 (c : Dev nD) (n : ℕ) :
    carried3 V c n ⊢ iprop((∃ s, owns (c : Thread nD τ) accM3 fullShare s) ∗ Pipeline.scopedRestBut (Ix := Unit) (Name := ℕ) (U := UR sig nD τ) (Lvl := ℕ) (Val := Elt F) spec3 c [cc3_scratch0]) := by
  cases n with
  | zero => exact .rfl
  | succ m =>
    show iprop(owns (c : Thread nD τ) accM3 fullShare (acc3 V c m) ∗ Pipeline.scopedRestBut (Ix := Unit) (Name := ℕ) (U := UR sig nD τ) (Lvl := ℕ) (Val := Elt F) spec3 c [cc3_scratch0]) ⊢ _
    iintro ⟨H, HR⟩
    isplitl [H]
    · iexists _; iexact H
    iexact HR

theorem carried_pos3 (c : Dev nD) (n : ℕ) (h : n ≠ 0) :
    carried3 V c n = iprop(owns (c : Thread nD τ) accM3 fullShare (acc3 V c (n - 1)) ∗ Pipeline.scopedRestBut (Ix := Unit) (Name := ℕ) (U := UR sig nD τ) (Lvl := ℕ) (Val := Elt F) spec3 c [cc3_scratch0]) := by
  cases n with
  | zero => exact absurd rfl h
  | succ m => rfl

def dat3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => k2_pay3 (acc3 V c t.val)
  Φ n := carried3 V c n.val
  q _ := fullShare
  owed _ := 0

theorem dat3_A (c : Dev nD) (w : Fin cfg3.W) : (dat3 V c).A w = V c (Pipeline.arrRef spec3 w) := by dsimp only [dat3]
theorem dat3_after0 (c : Dev nD) (t : Fin cfg3.N) : (dat3 V c).after 0 t = blk3 V c 0 t := by dsimp only [dat3]
theorem dat3_after1 (c : Dev nD) (t : Fin cfg3.N) : (dat3 V c).after 1 t = blk3 V c 1 t := by dsimp only [dat3]
theorem dat3_after2 (c : Dev nD) (t : Fin cfg3.N) : (dat3 V c).after 2 t = k2_pay3 (acc3 V c t.val) := by dsimp only [dat3]
theorem dat3_Φ (c : Dev nD) (n : Fin (cfg3.N + 1)) : (dat3 V c).Φ n = carried3 V c n.val := by dsimp only [dat3]

theorem dat3_before0 (c : Dev nD) (t : Fin cfg3.N) (d) : (dat3 V c).before 0 t d = blk3 V c 0 t :=
  ((dat3 V c).before_in_eq_fetched 0 rfl (fun _ => rfl) (fun _ _ _ => rfl)
      (fun t => by rw [dat3_after0]; unfold Dat.blockOf blk3; rw [dat3_A]; try rfl) t d).trans
    (by unfold Dat.fetched Dat.blockOf blk3; rw [dat3_A]; try rfl)
theorem dat3_before1 (c : Dev nD) (t : Fin cfg3.N) (d) : (dat3 V c).before 1 t d = blk3 V c 1 t :=
  ((dat3 V c).before_in_eq_fetched 1 rfl (fun _ => rfl) (fun _ _ _ => rfl)
      (fun t => by rw [dat3_after1]; unfold Dat.blockOf blk3; rw [dat3_A]; try rfl) t d).trans
    (by unfold Dat.fetched Dat.blockOf blk3; rw [dat3_A]; try rfl)

theorem Φ3_first (c : Dev nD) : (Pipeline.scopedRest (Ix := Unit) (Name := ℕ) (U := UR sig nD τ) (Lvl := ℕ) (Val := Elt F) spec3 c : sProp 𝕄) ⊢ (dat3 V c).Φ 0 := by
  rw [scopedRest3_split, dat3_Φ]
  show _ ⊢ carried3 V c 0
  unfold carried3
  iintro ⟨⟨%f, H⟩, HR⟩
  isplitl [H]
  · iexists f; rw [owns_whole]; iexact H
  iexact HR

theorem Φ3_last (c : Dev nD) : (dat3 V c).Φ (Fin.last cfg3.N) ⊢ (Pipeline.scopedRest (Ix := Unit) (Name := ℕ) (U := UR sig nD τ) (Lvl := ℕ) (Val := Elt F) spec3 c : sProp 𝕄) := by
  rw [scopedRest3_split, dat3_Φ]
  refine (carried_any3 V c _).trans ?_
  simp only [owns_whole]
  exact .rfl

theorem bodyIdle3 (c : Dev nD) (t : Fin cfg3.N) (hC : ¬ t.val % 4 = 3) :
    iprop((dat3 V c).Φ t.castSucc ∗ (dat3 V c).owesAt () t.castSucc
        ∗ (∃ d, owns (c : Thread nD τ) (st3_0 t) fullShare ((dat3 V c).before 0 t d))
        ∗ (∃ d, owns (c : Thread nD τ) (st3_1 t) fullShare ((dat3 V c).before 1 t d))
        ∗ (∃ d, owns (c : Thread nD τ) (st3_2 t) fullShare ((dat3 V c).before 2 t d)))
      ⊢ wp frame (wpE (defs₀ (F := F)) Variants.none c none) Set.univ (bodyAt3 t) (fun _ =>
        iprop((dat3 V c).Φ t.succ ∗ (dat3 V c).owesAt () t.succ
          ∗ owns (c : Thread nD τ) (st3_0 t) fullShare ((dat3 V c).after 0 t)
          ∗ owns (c : Thread nD τ) (st3_1 t) fullShare ((dat3 V c).after 1 t)
          ∗ (∃ d, owns (c : Thread nD τ) (st3_2 t) fullShare ((dat3 V c).before 2 t d)))) := by
  have hf : ¬ k2_cond2 (grid3.coords t) = 1#1 := fun h => hC ((cond_flush_iff2 t).mp h)
  simp only [dat3_before0, dat3_before1]
  rw [show (dat3 V c).owesAt () t.succ = (dat3 V c).owesAt () t.castSucc from rfl, dat3_after0, dat3_after1, dat3_Φ, dat3_Φ,
    show (t.succ : Fin (cfg3.N + 1)).val = t.val + 1 from rfl, show (t.castSucc : Fin (cfg3.N + 1)).val = t.val from rfl]
  show _ ⊢ wp frame (wpE (defs₀ (F := F)) Variants.none c none) Set.univ (bodyAt3 t) (fun _ =>
        iprop(iprop(owns (c : Thread nD τ) accM3 fullShare (acc3 V c t.val) ∗ Pipeline.scopedRestBut (Ix := Unit) (Name := ℕ) (U := UR sig nD τ) (Lvl := ℕ) (Val := Elt F) spec3 c [cc3_scratch0]) ∗ (dat3 V c).owesAt () t.castSucc
          ∗ owns (c : Thread nD τ) (st3_0 t) fullShare (blk3 V c 0 t)
          ∗ owns (c : Thread nD τ) (st3_1 t) fullShare (blk3 V c 1 t)
          ∗ (∃ d, owns (c : Thread nD τ) (st3_2 t) fullShare ((dat3 V c).before 2 t d))))
  rw [bodyAt3_eq]
  by_cases hA : t.val % 4 = 0
  · have hr : cond_reset2 (grid3.coords t) = 1#1 := (cond_reset_iff2 t).mpr hA
    rw [acc3_reset V c t hA]
    iintro ⟨HΦ, Ho, ⟨%d0, H0⟩, ⟨%d1, H1⟩, ⟨%d2, H2⟩⟩
    ihave HΦ' := (carried_any3 V c t.val) $$ HΦ
    icases HΦ' with ⟨Hs, HR⟩
    iapply (runA2 c Set.univ _ _ _ _ _ _ _ _ _ hr hf (blk3 V c 0 t) (blk3 V c 1 t) ((dat3 V c).before 2 t d2) _)
    isplitl [H0]; · iexact H0
    isplitl [H1]; · iexact H1
    isplitl [H2]; · iexact H2
    isplitl [Hs]; · iexact Hs
    iintro ⟨H0, H1, H2, Hs⟩
    isplitl [Hs HR]
    · isplitl [Hs]; · iexact Hs
      iexact HR
    isplitl [Ho]; · iexact Ho
    isplitl [H0]; · iexact H0
    isplitl [H1]; · iexact H1
    iexists d2; iexact H2
  · have hr : ¬ cond_reset2 (grid3.coords t) = 1#1 := fun h => hA ((cond_reset_iff2 t).mp h)
    rw [acc3_step V c t hA, carried_pos3 V c t.val (fun h => hA (by rw [h]))]
    iintro ⟨⟨Hs, HR⟩, Ho, ⟨%d0, H0⟩, ⟨%d1, H1⟩, ⟨%d2, H2⟩⟩
    iapply (runB2 c Set.univ _ _ _ _ _ _ _ _ _ hr hf (blk3 V c 0 t) (blk3 V c 1 t) ((dat3 V c).before 2 t d2) (acc3 V c (t.val - 1)) _)
    isplitl [H0]; · iexact H0
    isplitl [H1]; · iexact H1
    isplitl [H2]; · iexact H2
    isplitl [Hs]; · iexact Hs
    iintro ⟨H0, H1, H2, Hs⟩
    isplitl [Hs HR]
    · isplitl [Hs]; · iexact Hs
      iexact HR
    isplitl [Ho]; · iexact Ho
    isplitl [H0]; · iexact H0
    isplitl [H1]; · iexact H1
    iexists d2; iexact H2

theorem bodyFlush3 (c : Dev nD) (t : Fin cfg3.N) (hC : t.val % 4 = 3) :
    iprop((dat3 V c).Φ t.castSucc ∗ (dat3 V c).owesAt () t.castSucc
        ∗ (∃ d, owns (c : Thread nD τ) (st3_0 t) fullShare ((dat3 V c).before 0 t d))
        ∗ (∃ d, owns (c : Thread nD τ) (st3_1 t) fullShare ((dat3 V c).before 1 t d))
        ∗ (∃ d, owns (c : Thread nD τ) (st3_2 t) fullShare ((dat3 V c).before 2 t d)))
      ⊢ wp frame (wpE (defs₀ (F := F)) Variants.none c none) Set.univ (bodyAt3 t) (fun _ =>
        iprop((dat3 V c).Φ t.succ ∗ (dat3 V c).owesAt () t.succ
          ∗ owns (c : Thread nD τ) (st3_0 t) fullShare ((dat3 V c).after 0 t)
          ∗ owns (c : Thread nD τ) (st3_1 t) fullShare ((dat3 V c).after 1 t)
          ∗ owns (c : Thread nD τ) (st3_2 t) fullShare ((dat3 V c).after 2 t))) := by
  have hA : ¬ t.val % 4 = 0 := by omega
  have hf : k2_cond2 (grid3.coords t) = 1#1 := (cond_flush_iff2 t).mpr hC
  have hr : ¬ cond_reset2 (grid3.coords t) = 1#1 := fun h => hA ((cond_reset_iff2 t).mp h)
  simp only [dat3_before0, dat3_before1]
  rw [show (dat3 V c).owesAt () t.succ = (dat3 V c).owesAt () t.castSucc from rfl, dat3_after0, dat3_after1, dat3_after2, dat3_Φ, dat3_Φ,
    show (t.succ : Fin (cfg3.N + 1)).val = t.val + 1 from rfl, show (t.castSucc : Fin (cfg3.N + 1)).val = t.val from rfl]
  show _ ⊢ wp frame (wpE (defs₀ (F := F)) Variants.none c none) Set.univ (bodyAt3 t) (fun _ =>
        iprop(iprop(owns (c : Thread nD τ) accM3 fullShare (acc3 V c t.val) ∗ Pipeline.scopedRestBut (Ix := Unit) (Name := ℕ) (U := UR sig nD τ) (Lvl := ℕ) (Val := Elt F) spec3 c [cc3_scratch0]) ∗ (dat3 V c).owesAt () t.castSucc
          ∗ owns (c : Thread nD τ) (st3_0 t) fullShare (blk3 V c 0 t)
          ∗ owns (c : Thread nD τ) (st3_1 t) fullShare (blk3 V c 1 t)
          ∗ owns (c : Thread nD τ) (st3_2 t) fullShare (k2_pay3 (acc3 V c t.val))))
  rw [bodyAt3_eq]
  rw [acc3_step V c t hA, carried_pos3 V c t.val (fun h => hA (by rw [h]))]
  iintro ⟨⟨Hs, HR⟩, Ho, ⟨%d0, H0⟩, ⟨%d1, H1⟩, ⟨%d2, H2⟩⟩
  iapply (runC2 c Set.univ _ _ _ _ _ _ _ _ _ hr hf (blk3 V c 0 t) (blk3 V c 1 t) (acc3 V c (t.val - 1)) _)
  isplitl [H0]; · iexact H0
  isplitl [H1]; · iexact H1
  isplitl [H2]; · iexists _; iexact H2
  isplitl [Hs]; · iexact Hs
  iintro ⟨H0, H1, H2, Hs⟩
  isplitl [Hs HR]
  · isplitl [Hs]; · iexact Hs
    iexact HR
  isplitl [Ho]; · iexact Ho
  isplitl [H0]; · iexact H0
  isplitl [H1]; · iexact H1
  iexact H2

theorem body3 (c : Dev nD) : BodyObligation (dat3 (F := F) V c) (defs₀ (F := F)) Variants.none () Set.univ := fun t => by
  rw [bigSep_W3, bigSep_W3]
  by_cases hC : t.val % 4 = 3
  · have hidle : cfg3.idle 2 (cfg3.grid.coords t) = false := by
      show (!(k2_cond2 (cfg3.grid.coords t) == 1#1)) = false
      rw [beq_iff_eq.mpr ((cond_flush_iff2 t).mpr hC)]; rfl
    rw [hidle]
    exact bodyFlush3 V c t hC
  · have hidle : cfg3.idle 2 (cfg3.grid.coords t) = true := by
      show (!(k2_cond2 (cfg3.grid.coords t) == 1#1)) = true
      rw [beq_false_of_ne (fun h => hC ((cond_flush_iff2 t).mp h))]; rfl
    have hfl : (cfg3.win 2).flush t = false := Bool.eq_false_iff.mpr (fun h => hC ((flush3_2 t).mp h))
    rw [hidle, hfl]
    exact bodyIdle3 V c t hC

/-- After the last write-back the output array holds one diffusion step of the two arrays the region reads. -/
theorem val3 (V' : (c : Dev nD) → (b : Ref sig .tc) → Buf (Elt Ideal) ((c : Thread nD τ).loc b)) (c : Dev nD) :
    (dat3 (F := Ideal) V' c).arrAt 2 cfg3.N
      = Cert.Spec.diffuse (V' c (Pipeline.arrRef spec3 0)) (V' c (Pipeline.arrRef spec3 1)) :=
  (dat3 (F := Ideal) V' c).arrAt_eq_of_cover 2 _
    (fun t hf => by
      show (cfg3.win 2).cut (grid3.coords t) ((dat3 V' c).after 2 t) = _
      rw [dat3_after2]
      exact flushed_eq _ _ (acc3 V' c) (fun t h => acc3_reset V' c t h) (fun t h => acc3_step V' c t h) t ((flush3_2 t).mp hf))
    cover2

end Cert.KernelIdeal.Hand

end
-- ==== Proof.KI.R4.lean ====
import proofs.«137169_j48112223650339_1_alg».proof.Proof.Gen.KernelIdeal.Launch
import proofs.«137169_j48112223650339_1_alg».proof.Proof.Gen.KernelIdeal.Skeleton
import proofs.«137169_j48112223650339_1_alg».proof.Proof.Gen.KernelIdeal.Points
import proofs.«137169_j48112223650339_1_alg».proof.Proof.KI.R2
import proofs.«137169_j48112223650339_1_alg».proof.Proof.KI.R2Val
import Idealize.ShloMosaic.Lib.Pipeline.FrameBody
import Idealize.ShloMosaic.Lib.Pipeline.Frame
import Idealize.ShloMosaic.Lib.Pipeline.Value
import Idealize.ShloMosaic.Lib.Tactic

/-! A diffusion step like region 2: the same body on other buffers (`bodyAt4_eq`), so region 2's payloads, its three body
  theorems and its value lemma serve, and only the bookkeeping over this region's own buffers is written again. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (V : (c : Dev nD) → (b : Ref sig .tc) → Buf (Elt F) ((c : Thread nD τ).loc b))

def blk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def acc4 (c : Dev nD) : ℕ → Vec F S2048x64 .f32
  | 0 => if h : 0 < cfg4.N then k2_pay2 (blk4 V c 0 ⟨0, h⟩) (blk4 V c 1 ⟨0, h⟩) (k2_pay1 (F := F)) else k2_pay1 (F := F)
  | m + 1 =>
    if h : m + 1 < cfg4.N then
      k2_pay2 (blk4 V c 0 ⟨m + 1, h⟩) (blk4 V c 1 ⟨m + 1, h⟩) (if (m + 1) % 4 = 0 then k2_pay1 (F := F) else acc4 c m)
    else k2_pay1 (F := F)

theorem acc4_reset (c : Dev nD) (t : Fin cfg4.N) (h : t.val % 4 = 0) :
    acc4 V c t.val = k2_pay2 (blk4 V c 0 t) (blk4 V c 1 t) (k2_pay1 (F := F)) := by
  obtain ⟨n, hn⟩ := t
  cases n with
  | zero => show acc4 V c 0 = _; rw [acc4, dif_pos hn]
  | succ m => show acc4 V c (m + 1) = _; rw [acc4, dif_pos hn, if_pos h]

theorem acc4_step (c : Dev nD) (t : Fin cfg4.N) (h : t.val % 4 ≠ 0) :
    acc4 V c t.val = k2_pay2 (blk4 V c 0 t) (blk4 V c 1 t) (acc4 V c (t.val - 1)) := by
  obtain ⟨n, hn⟩ := t
  cases n with
  | zero => exact absurd rfl h
  | succ m => show acc4 V c (m + 1) = _; rw [acc4, dif_pos hn, if_neg h]; rfl

abbrev accM4 : Memref sig .tc .vmem S2048x64 .f32 := Memref.whole cc4_scratch0

/-- The region runs region 2's body. -/
theorem bodyAt4_eq (t : Fin cfg4.N) :
    bodyAt4 (F := F) t = cc2__diffuse_kernel (grid4.coords t) (st4_0 t) (Facts₀.hstage4_0 ((cfg4.slots t 0).cast Facts₀.nbuf4_0))
      (st4_1 t) (Facts₀.hstage4_1 ((cfg4.slots t 1).cast Facts₀.nbuf4_1)) (st4_2 t) (Facts₀.hstage4_2 ((cfg4.slots t 2).cast Facts₀.nbuf4_2))
      accM4 (Memref.isWhole_whole _) := rfl

def carried4 (c : Dev nD) : ℕ → sProp 𝕄
  | 0 => iprop((∃ s, owns (c : Thread nD τ) accM4 fullShare s) ∗ Pipeline.scopedRestBut (Ix := Unit) (Name := ℕ) (U := UR sig nD τ) (Lvl := ℕ) (Val := Elt F) spec4 c [cc4_scratch0])
  | m + 1 => iprop(owns (c : Thread nD τ) accM4 fullShare (acc4 V c m) ∗ Pipeline.scopedRestBut (Ix := Unit) (Name := ℕ) (U := UR sig nD τ) (Lvl := ℕ) (Val := Elt F) spec4 c [cc4_scratch0])

theorem carried_any4 (c : Dev nD) (n : ℕ) :
    carried4 V c n ⊢ iprop((∃ s, owns (c : Thread nD τ) accM4 fullShare s) ∗ Pipeline.scopedRestBut (Ix := Unit) (Name := ℕ) (U := UR sig nD τ) (Lvl := ℕ) (Val := Elt F) spec4 c [cc4_scratch0]) := by
  cases n with
  | zero => exact .rfl
  | succ m =>
    show iprop(owns (c : Thread nD τ) accM4 fullShare (acc4 V c m) ∗ Pipeline.scopedRestBut (Ix := Unit) (Name := ℕ) (U := UR sig nD τ) (Lvl := ℕ) (Val := Elt F) spec4 c [cc4_scratch0]) ⊢ _
    iintro ⟨H, HR⟩
    isplitl [H]
    · iexists _; iexact H
    iexact HR

theorem carried_pos4 (c : Dev nD) (n : ℕ) (h : n ≠ 0) :
    carried4 V c n = iprop(owns (c : Thread nD τ) accM4 fullShare (acc4 V c (n - 1)) ∗ Pipeline.scopedRestBut (Ix := Unit) (Name := ℕ) (U := UR sig nD τ) (Lvl := ℕ) (Val := Elt F) spec4 c [cc4_scratch0]) := by
  cases n with
  | zero => exact absurd rfl h
  | succ m => rfl

def dat4 (c : Dev nD) : Dat τ (Elt F) Unit ℕ (UR sig nD τ) ℕ cfg4 c where
  A w := V c (Pipeline.arrRef spec4 w)
  after w t := match w with
    | ⟨0, _⟩ => blk4 V c 0 t
    | ⟨1, _⟩ => blk4 V c 1 t
    | ⟨2, _⟩ => k2_pay3 (acc4 V c t.val)
  Φ n := carried4 V c n.val
  q _ := fullShare
  owed _ := 0

theorem dat4_A (c : Dev nD) (w : Fin cfg4.W) : (dat4 V c).A w = V c (Pipeline.arrRef spec4 w) := by dsimp only [dat4]
theorem dat4_after0 (c : Dev nD) (t : Fin cfg4.N) : (dat4 V c).after 0 t = blk4 V c 0 t := by dsimp only [dat4]
theorem dat4_after1 (c : Dev nD) (t : Fin cfg4.N) : (dat4 V c).after 1 t = blk4 V c 1 t := by dsimp only [dat4]
theorem dat4_after2 (c : Dev nD) (t : Fin cfg4.N) : (dat4 V c).after 2 t = k2_pay3 (acc4 V c t.val) := by dsimp only [dat4]
theorem dat4_Φ (c : Dev nD) (n : Fin (cfg4.N + 1)) : (dat4 V c).Φ n = carried4 V c n.val := by dsimp only [dat4]

theorem dat4_before0 (c : Dev nD) (t : Fin cfg4.N) (d) : (dat4 V c).before 0 t d = blk4 V c 0 t :=
  ((dat4 V c).before_in_eq_fetched 0 rfl (fun _ => rfl) (fun _ _ _ => rfl)
      (fun t => by rw [dat4_after0]; unfold Dat.blockOf blk4; rw [dat4_A]; try rfl) t d).trans
    (by unfold Dat.fetched Dat.blockOf blk4; rw [dat4_A]; try rfl)
theorem dat4_before1 (c : Dev nD) (t : Fin cfg4.N) (d) : (dat4 V c).before 1 t d = blk4 V c 1 t :=
  ((dat4 V c).before_in_eq_fetched 1 rfl (fun _ => rfl) (fun _ _ _ => rfl)
      (fun t => by rw [dat4_after1]; unfold Dat.blockOf blk4; rw [dat4_A]; try rfl) t d).trans
    (by unfold Dat.fetched Dat.blockOf blk4; rw [dat4_A]; try rfl)

theorem Φ4_first (c : Dev nD) : (Pipeline.scopedRest (Ix := Unit) (Name := ℕ) (U := UR sig nD τ) (Lvl := ℕ) (Val := Elt F) spec4 c : sProp 𝕄) ⊢ (dat4 V c).Φ 0 := by
  rw [scopedRest4_split, dat4_Φ]
  show _ ⊢ carried4 V c 0
  unfold carried4
  iintro ⟨⟨%f, H⟩, HR⟩
  isplitl [H]
  · iexists f; rw [owns_whole]; iexact H
  iexact HR

theorem Φ4_last (c : Dev nD) : (dat4 V c).Φ (Fin.last cfg4.N) ⊢ (Pipeline.scopedRest (Ix := Unit) (Name := ℕ) (U := UR sig nD τ) (Lvl := ℕ) (Val := Elt F) spec4 c : sProp 𝕄) := by
  rw [scopedRest4_split, dat4_Φ]
  refine (carried_any4 V c _).trans ?_
  simp only [owns_whole]
  exact .rfl

theorem bodyIdle4 (c : Dev nD) (t : Fin cfg4.N) (hC : ¬ t.val % 4 = 3) :
    iprop((dat4 V c).Φ t.castSucc ∗ (dat4 V c).owesAt () t.castSucc
        ∗ (∃ d, owns (c : Thread nD τ) (st4_0 t) fullShare ((dat4 V c).before 0 t d))
        ∗ (∃ d, owns (c : Thread nD τ) (st4_1 t) fullShare ((dat4 V c).before 1 t d))
        ∗ (∃ d, owns (c : Thread nD τ) (st4_2 t) fullShare ((dat4 V c).before 2 t d)))
      ⊢ wp frame (wpE (defs₀ (F := F)) Variants.none c none) Set.univ (bodyAt4 t) (fun _ =>
        iprop((dat4 V c).Φ t.succ ∗ (dat4 V c).owesAt () t.succ
          ∗ owns (c : Thread nD τ) (st4_0 t) fullShare ((dat4 V c).after 0 t)
          ∗ owns (c : Thread nD τ) (st4_1 t) fullShare ((dat4 V c).after 1 t)
          ∗ (∃ d, owns (c : Thread nD τ) (st4_2 t) fullShare ((dat4 V c).before 2 t d)))) := by
  have hf : ¬ k2_cond2 (grid4.coords t) = 1#1 := fun h => hC ((cond_flush_iff2 t).mp h)
  simp only [dat4_before0, dat4_before1]
  rw [show (dat4 V c).owesAt () t.succ = (dat4 V c).owesAt () t.castSucc from rfl, dat4_after0, dat4_after1, dat4_Φ, dat4_Φ,
    show (t.succ : Fin (cfg4.N + 1)).val = t.val + 1 from rfl, show (t.castSucc : Fin (cfg4.N + 1)).val = t.val from rfl]
  show _ ⊢ wp frame (wpE (defs₀ (F := F)) Variants.none c none) Set.univ (bodyAt4 t) (fun _ =>
        iprop(iprop(owns (c : Thread nD τ) accM4 fullShare (acc4 V c t.val) ∗ Pipeline.scopedRestBut (Ix := Unit) (Name := ℕ) (U := UR sig nD τ) (Lvl := ℕ) (Val := Elt F) spec4 c [cc4_scratch0]) ∗ (dat4 V c).owesAt () t.castSucc
          ∗ owns (c : Thread nD τ) (st4_0 t) fullShare (blk4 V c 0 t)
          ∗ owns (c : Thread nD τ) (st4_1 t) fullShare (blk4 V c 1 t)
          ∗ (∃ d, owns (c : Thread nD τ) (st4_2 t) fullShare ((dat4 V c).before 2 t d))))
  rw [bodyAt4_eq]
  by_cases hA : t.val % 4 = 0
  · have hr : cond_reset2 (grid4.coords t) = 1#1 := (cond_reset_iff2 t).mpr hA
    rw [acc4_reset V c t hA]
    iintro ⟨HΦ, Ho, ⟨%d0, H0⟩, ⟨%d1, H1⟩, ⟨%d2, H2⟩⟩
    ihave HΦ' := (carried_any4 V c t.val) $$ HΦ
    icases HΦ' with ⟨Hs, HR⟩
    iapply (runA2 c Set.univ _ _ _ _ _ _ _ _ _ hr hf (blk4 V c 0 t) (blk4 V c 1 t) ((dat4 V c).before 2 t d2) _)
    isplitl [H0]; · iexact H0
    isplitl [H1]; · iexact H1
    isplitl [H2]; · iexact H2
    isplitl [Hs]; · iexact Hs
    iintro ⟨H0, H1, H2, Hs⟩
    isplitl [Hs HR]
    · isplitl [Hs]; · iexact Hs
      iexact HR
    isplitl [Ho]; · iexact Ho
    isplitl [H0]; · iexact H0
    isplitl [H1]; · iexact H1
    iexists d2; iexact H2
  · have hr : ¬ cond_reset2 (grid4.coords t) = 1#1 := fun h => hA ((cond_reset_iff2 t).mp h)
    rw [acc4_step V c t hA, carried_pos4 V c t.val (fun h => hA (by rw [h]))]
    iintro ⟨⟨Hs, HR⟩, Ho, ⟨%d0, H0⟩, ⟨%d1, H1⟩, ⟨%d2, H2⟩⟩
    iapply (runB2 c Set.univ _ _ _ _ _ _ _ _ _ hr hf (blk4 V c 0 t) (blk4 V c 1 t) ((dat4 V c).before 2 t d2) (acc4 V c (t.val - 1)) _)
    isplitl [H0]; · iexact H0
    isplitl [H1]; · iexact H1
    isplitl [H2]; · iexact H2
    isplitl [Hs]; · iexact Hs
    iintro ⟨H0, H1, H2, Hs⟩
    isplitl [Hs HR]
    · isplitl [Hs]; · iexact Hs
      iexact HR
    isplitl [Ho]; · iexact Ho
    isplitl [H0]; · iexact H0
    isplitl [H1]; · iexact H1
    iexists d2; iexact H2

theorem bodyFlush4 (c : Dev nD) (t : Fin cfg4.N) (hC : t.val % 4 = 3) :
    iprop((dat4 V c).Φ t.castSucc ∗ (dat4 V c).owesAt () t.castSucc
        ∗ (∃ d, owns (c : Thread nD τ) (st4_0 t) fullShare ((dat4 V c).before 0 t d))
        ∗ (∃ d, owns (c : Thread nD τ) (st4_1 t) fullShare ((dat4 V c).before 1 t d))
        ∗ (∃ d, owns (c : Thread nD τ) (st4_2 t) fullShare ((dat4 V c).before 2 t d)))
      ⊢ wp frame (wpE (defs₀ (F := F)) Variants.none c none) Set.univ (bodyAt4 t) (fun _ =>
        iprop((dat4 V c).Φ t.succ ∗ (dat4 V c).owesAt () t.succ
          ∗ owns (c : Thread nD τ) (st4_0 t) fullShare ((dat4 V c).after 0 t)
          ∗ owns (c : Thread nD τ) (st4_1 t) fullShare ((dat4 V c).after 1 t)
          ∗ owns (c : Thread nD τ) (st4_2 t) fullShare ((dat4 V c).after 2 t))) := by
  have hA : ¬ t.val % 4 = 0 := by omega
  have hf : k2_cond2 (grid4.coords t) = 1#1 := (cond_flush_iff2 t).mpr hC
  have hr : ¬ cond_reset2 (grid4.coords t) = 1#1 := fun h => hA ((cond_reset_iff2 t).mp h)
  simp only [dat4_before0, dat4_before1]
  rw [show (dat4 V c).owesAt () t.succ = (dat4 V c).owesAt () t.castSucc from rfl, dat4_after0, dat4_after1, dat4_after2, dat4_Φ, dat4_Φ,
    show (t.succ : Fin (cfg4.N + 1)).val = t.val + 1 from rfl, show (t.castSucc : Fin (cfg4.N + 1)).val = t.val from rfl]
  show _ ⊢ wp frame (wpE (defs₀ (F := F)) Variants.none c none) Set.univ (bodyAt4 t) (fun _ =>
        iprop(iprop(owns (c : Thread nD τ) accM4 fullShare (acc4 V c t.val) ∗ Pipeline.scopedRestBut (Ix := Unit) (Name := ℕ) (U := UR sig nD τ) (Lvl := ℕ) (Val := Elt F) spec4 c [cc4_scratch0]) ∗ (dat4 V c).owesAt () t.castSucc
          ∗ owns (c : Thread nD τ) (st4_0 t) fullShare (blk4 V c 0 t)
          ∗ owns (c : Thread nD τ) (st4_1 t) fullShare (blk4 V c 1 t)
          ∗ owns (c : Thread nD τ) (st4_2 t) fullShare (k2_pay3 (acc4 V c t.val))))
  rw [bodyAt4_eq]
  rw [acc4_step V c t hA, carried_pos4 V c t.val (fun h => hA (by rw [h]))]
  iintro ⟨⟨Hs, HR⟩, Ho, ⟨%d0, H0⟩, ⟨%d1, H1⟩, ⟨%d2, H2⟩⟩
  iapply (runC2 c Set.univ _ _ _ _ _ _ _ _ _ hr hf (blk4 V c 0 t) (blk4 V c 1 t) (acc4 V c (t.val - 1)) _)
  isplitl [H0]; · iexact H0
  isplitl [H1]; · iexact H1
  isplitl [H2]; · iexists _; iexact H2
  isplitl [Hs]; · iexact Hs
  iintro ⟨H0, H1, H2, Hs⟩
  isplitl [Hs HR]
  · isplitl [Hs]; · iexact Hs
    iexact HR
  isplitl [Ho]; · iexact Ho
  isplitl [H0]; · iexact H0
  isplitl [H1]; · iexact H1
  iexact H2

theorem body4 (c : Dev nD) : BodyObligation (dat4 (F := F) V c) (defs₀ (F := F)) Variants.none () Set.univ := fun t => by
  rw [bigSep_W4, bigSep_W4]
  by_cases hC : t.val % 4 = 3
  · have hidle : cfg4.idle 2 (cfg4.grid.coords t) = false := by
      show (!(k2_cond2 (cfg4.grid.coords t) == 1#1)) = false
      rw [beq_iff_eq.mpr ((cond_flush_iff2 t).mpr hC)]; rfl
    rw [hidle]
    exact bodyFlush4 V c t hC
  · have hidle : cfg4.idle 2 (cfg4.grid.coords t) = true := by
      show (!(k2_cond2 (cfg4.grid.coords t) == 1#1)) = true
      rw [beq_false_of_ne (fun h => hC ((cond_flush_iff2 t).mp h))]; rfl
    have hfl : (cfg4.win 2).flush t = false := Bool.eq_false_iff.mpr (fun h => hC ((flush4_2 t).mp h))
    rw [hidle, hfl]
    exact bodyIdle4 V c t hC

/-- After the last write-back the output array holds one diffusion step of the two arrays the region reads. -/
theorem val4 (V' : (c : Dev nD) → (b : Ref sig .tc) → Buf (Elt Ideal) ((c : Thread nD τ).loc b)) (c : Dev nD) :
    (dat4 (F := Ideal) V' c).arrAt 2 cfg4.N
      = Cert.Spec.diffuse (V' c (Pipeline.arrRef spec4 0)) (V' c (Pipeline.arrRef spec4 1)) :=
  (dat4 (F := Ideal) V' c).arrAt_eq_of_cover 2 _
    (fun t hf => by
      show (cfg4.win 2).cut (grid4.coords t) ((dat4 V' c).after 2 t) = _
      rw [dat4_after2]
      exact flushed_eq _ _ (acc4 V' c) (fun t h => acc4_reset V' c t h) (fun t h => acc4_step V' c t h) t ((flush4_2 t).mp hf))
    cover2

end Cert.KernelIdeal.Hand

end
-- ==== Proof.KI.R5.lean ====
import proofs.«137169_j48112223650339_1_alg».proof.Proof.Gen.KernelIdeal.Launch
import proofs.«137169_j48112223650339_1_alg».proof.Proof.Gen.KernelIdeal.Skeleton
import proofs.«137169_j48112223650339_1_alg».proof.Proof.Gen.KernelIdeal.Points
import proofs.«137169_j48112223650339_1_alg».proof.Proof.KI.R2
import proofs.«137169_j48112223650339_1_alg».proof.Proof.KI.R2Val
import Idealize.ShloMosaic.Lib.Pipeline.FrameBody
import Idealize.ShloMosaic.Lib.Pipeline.Frame
import Idealize.ShloMosaic.Lib.Pipeline.Value
import Idealize.ShloMosaic.Lib.Tactic

/-! A diffusion step like region 2: the same body on other buffers (`bodyAt5_eq`), so region 2's payloads, its three body
  theorems and its value lemma serve, and only the bookkeeping over this region's own buffers is written again. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (V : (c : Dev nD) → (b : Ref sig .tc) → Buf (Elt F) ((c : Thread nD τ).loc b))

def blk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

def acc5 (c : Dev nD) : ℕ → Vec F S2048x64 .f32
  | 0 => if h : 0 < cfg5.N then k2_pay2 (blk5 V c 0 ⟨0, h⟩) (blk5 V c 1 ⟨0, h⟩) (k2_pay1 (F := F)) else k2_pay1 (F := F)
  | m + 1 =>
    if h : m + 1 < cfg5.N then
      k2_pay2 (blk5 V c 0 ⟨m + 1, h⟩) (blk5 V c 1 ⟨m + 1, h⟩) (if (m + 1) % 4 = 0 then k2_pay1 (F := F) else acc5 c m)
    else k2_pay1 (F := F)

theorem acc5_reset (c : Dev nD) (t : Fin cfg5.N) (h : t.val % 4 = 0) :
    acc5 V c t.val = k2_pay2 (blk5 V c 0 t) (blk5 V c 1 t) (k2_pay1 (F := F)) := by
  obtain ⟨n, hn⟩ := t
  cases n with
  | zero => show acc5 V c 0 = _; rw [acc5, dif_pos hn]
  | succ m => show acc5 V c (m + 1) = _; rw [acc5, dif_pos hn, if_pos h]

theorem acc5_step (c : Dev nD) (t : Fin cfg5.N) (h : t.val % 4 ≠ 0) :
    acc5 V c t.val = k2_pay2 (blk5 V c 0 t) (blk5 V c 1 t) (acc5 V c (t.val - 1)) := by
  obtain ⟨n, hn⟩ := t
  cases n with
  | zero => exact absurd rfl h
  | succ m => show acc5 V c (m + 1) = _; rw [acc5, dif_pos hn, if_neg h]; rfl

abbrev accM5 : Memref sig .tc .vmem S2048x64 .f32 := Memref.whole cc5_scratch0

/-- The region runs region 2's body. -/
theorem bodyAt5_eq (t : Fin cfg5.N) :
    bodyAt5 (F := F) t = cc2__diffuse_kernel (grid5.coords t) (st5_0 t) (Facts₀.hstage5_0 ((cfg5.slots t 0).cast Facts₀.nbuf5_0))
      (st5_1 t) (Facts₀.hstage5_1 ((cfg5.slots t 1).cast Facts₀.nbuf5_1)) (st5_2 t) (Facts₀.hstage5_2 ((cfg5.slots t 2).cast Facts₀.nbuf5_2))
      accM5 (Memref.isWhole_whole _) := rfl

def carried5 (c : Dev nD) : ℕ → sProp 𝕄
  | 0 => iprop((∃ s, owns (c : Thread nD τ) accM5 fullShare s) ∗ Pipeline.scopedRestBut (Ix := Unit) (Name := ℕ) (U := UR sig nD τ) (Lvl := ℕ) (Val := Elt F) spec5 c [cc5_scratch0])
  | m + 1 => iprop(owns (c : Thread nD τ) accM5 fullShare (acc5 V c m) ∗ Pipeline.scopedRestBut (Ix := Unit) (Name := ℕ) (U := UR sig nD τ) (Lvl := ℕ) (Val := Elt F) spec5 c [cc5_scratch0])

theorem carried_any5 (c : Dev nD) (n : ℕ) :
    carried5 V c n ⊢ iprop((∃ s, owns (c : Thread nD τ) accM5 fullShare s) ∗ Pipeline.scopedRestBut (Ix := Unit) (Name := ℕ) (U := UR sig nD τ) (Lvl := ℕ) (Val := Elt F) spec5 c [cc5_scratch0]) := by
  cases n with
  | zero => exact .rfl
  | succ m =>
    show iprop(owns (c : Thread nD τ) accM5 fullShare (acc5 V c m) ∗ Pipeline.scopedRestBut (Ix := Unit) (Name := ℕ) (U := UR sig nD τ) (Lvl := ℕ) (Val := Elt F) spec5 c [cc5_scratch0]) ⊢ _
    iintro ⟨H, HR⟩
    isplitl [H]
    · iexists _; iexact H
    iexact HR

theorem carried_pos5 (c : Dev nD) (n : ℕ) (h : n ≠ 0) :
    carried5 V c n = iprop(owns (c : Thread nD τ) accM5 fullShare (acc5 V c (n - 1)) ∗ Pipeline.scopedRestBut (Ix := Unit) (Name := ℕ) (U := UR sig nD τ) (Lvl := ℕ) (Val := Elt F) spec5 c [cc5_scratch0]) := by
  cases n with
  | zero => exact absurd rfl h
  | succ m => rfl

def dat5 (c : Dev nD) : Dat τ (Elt F) Unit ℕ (UR sig nD τ) ℕ cfg5 c where
  A w := V c (Pipeline.arrRef spec5 w)
  after w t := match w with
    | ⟨0, _⟩ => blk5 V c 0 t
    | ⟨1, _⟩ => blk5 V c 1 t
    | ⟨2, _⟩ => k2_pay3 (acc5 V c t.val)
  Φ n := carried5 V c n.val
  q _ := fullShare
  owed _ := 0

theorem dat5_A (c : Dev nD) (w : Fin cfg5.W) : (dat5 V c).A w = V c (Pipeline.arrRef spec5 w) := by dsimp only [dat5]
theorem dat5_after0 (c : Dev nD) (t : Fin cfg5.N) : (dat5 V c).after 0 t = blk5 V c 0 t := by dsimp only [dat5]
theorem dat5_after1 (c : Dev nD) (t : Fin cfg5.N) : (dat5 V c).after 1 t = blk5 V c 1 t := by dsimp only [dat5]
theorem dat5_after2 (c : Dev nD) (t : Fin cfg5.N) : (dat5 V c).after 2 t = k2_pay3 (acc5 V c t.val) := by dsimp only [dat5]
theorem dat5_Φ (c : Dev nD) (n : Fin (cfg5.N + 1)) : (dat5 V c).Φ n = carried5 V c n.val := by dsimp only [dat5]

theorem dat5_before0 (c : Dev nD) (t : Fin cfg5.N) (d) : (dat5 V c).before 0 t d = blk5 V c 0 t :=
  ((dat5 V c).before_in_eq_fetched 0 rfl (fun _ => rfl) (fun _ _ _ => rfl)
      (fun t => by rw [dat5_after0]; unfold Dat.blockOf blk5; rw [dat5_A]; try rfl) t d).trans
    (by unfold Dat.fetched Dat.blockOf blk5; rw [dat5_A]; try rfl)
theorem dat5_before1 (c : Dev nD) (t : Fin cfg5.N) (d) : (dat5 V c).before 1 t d = blk5 V c 1 t :=
  ((dat5 V c).before_in_eq_fetched 1 rfl (fun _ => rfl) (fun _ _ _ => rfl)
      (fun t => by rw [dat5_after1]; unfold Dat.blockOf blk5; rw [dat5_A]; try rfl) t d).trans
    (by unfold Dat.fetched Dat.blockOf blk5; rw [dat5_A]; try rfl)

theorem Φ5_first (c : Dev nD) : (Pipeline.scopedRest (Ix := Unit) (Name := ℕ) (U := UR sig nD τ) (Lvl := ℕ) (Val := Elt F) spec5 c : sProp 𝕄) ⊢ (dat5 V c).Φ 0 := by
  rw [scopedRest5_split, dat5_Φ]
  show _ ⊢ carried5 V c 0
  unfold carried5
  iintro ⟨⟨%f, H⟩, HR⟩
  isplitl [H]
  · iexists f; rw [owns_whole]; iexact H
  iexact HR

theorem Φ5_last (c : Dev nD) : (dat5 V c).Φ (Fin.last cfg5.N) ⊢ (Pipeline.scopedRest (Ix := Unit) (Name := ℕ) (U := UR sig nD τ) (Lvl := ℕ) (Val := Elt F) spec5 c : sProp 𝕄) := by
  rw [scopedRest5_split, dat5_Φ]
  refine (carried_any5 V c _).trans ?_
  simp only [owns_whole]
  exact .rfl

theorem bodyIdle5 (c : Dev nD) (t : Fin cfg5.N) (hC : ¬ t.val % 4 = 3) :
    iprop((dat5 V c).Φ t.castSucc ∗ (dat5 V c).owesAt () t.castSucc
        ∗ (∃ d, owns (c : Thread nD τ) (st5_0 t) fullShare ((dat5 V c).before 0 t d))
        ∗ (∃ d, owns (c : Thread nD τ) (st5_1 t) fullShare ((dat5 V c).before 1 t d))
        ∗ (∃ d, owns (c : Thread nD τ) (st5_2 t) fullShare ((dat5 V c).before 2 t d)))
      ⊢ wp frame (wpE (defs₀ (F := F)) Variants.none c none) Set.univ (bodyAt5 t) (fun _ =>
        iprop((dat5 V c).Φ t.succ ∗ (dat5 V c).owesAt () t.succ
          ∗ owns (c : Thread nD τ) (st5_0 t) fullShare ((dat5 V c).after 0 t)
          ∗ owns (c : Thread nD τ) (st5_1 t) fullShare ((dat5 V c).after 1 t)
          ∗ (∃ d, owns (c : Thread nD τ) (st5_2 t) fullShare ((dat5 V c).before 2 t d)))) := by
  have hf : ¬ k2_cond2 (grid5.coords t) = 1#1 := fun h => hC ((cond_flush_iff2 t).mp h)
  simp only [dat5_before0, dat5_before1]
  rw [show (dat5 V c).owesAt () t.succ = (dat5 V c).owesAt () t.castSucc from rfl, dat5_after0, dat5_after1, dat5_Φ, dat5_Φ,
    show (t.succ : Fin (cfg5.N + 1)).val = t.val + 1 from rfl, show (t.castSucc : Fin (cfg5.N + 1)).val = t.val from rfl]
  show _ ⊢ wp frame (wpE (defs₀ (F := F)) Variants.none c none) Set.univ (bodyAt5 t) (fun _ =>
        iprop(iprop(owns (c : Thread nD τ) accM5 fullShare (acc5 V c t.val) ∗ Pipeline.scopedRestBut (Ix := Unit) (Name := ℕ) (U := UR sig nD τ) (Lvl := ℕ) (Val := Elt F) spec5 c [cc5_scratch0]) ∗ (dat5 V c).owesAt () t.castSucc
          ∗ owns (c : Thread nD τ) (st5_0 t) fullShare (blk5 V c 0 t)
          ∗ owns (c : Thread nD τ) (st5_1 t) fullShare (blk5 V c 1 t)
          ∗ (∃ d, owns (c : Thread nD τ) (st5_2 t) fullShare ((dat5 V c).before 2 t d))))
  rw [bodyAt5_eq]
  by_cases hA : t.val % 4 = 0
  · have hr : cond_reset2 (grid5.coords t) = 1#1 := (cond_reset_iff2 t).mpr hA
    rw [acc5_reset V c t hA]
    iintro ⟨HΦ, Ho, ⟨%d0, H0⟩, ⟨%d1, H1⟩, ⟨%d2, H2⟩⟩
    ihave HΦ' := (carried_any5 V c t.val) $$ HΦ
    icases HΦ' with ⟨Hs, HR⟩
    iapply (runA2 c Set.univ _ _ _ _ _ _ _ _ _ hr hf (blk5 V c 0 t) (blk5 V c 1 t) ((dat5 V c).before 2 t d2) _)
    isplitl [H0]; · iexact H0
    isplitl [H1]; · iexact H1
    isplitl [H2]; · iexact H2
    isplitl [Hs]; · iexact Hs
    iintro ⟨H0, H1, H2, Hs⟩
    isplitl [Hs HR]
    · isplitl [Hs]; · iexact Hs
      iexact HR
    isplitl [Ho]; · iexact Ho
    isplitl [H0]; · iexact H0
    isplitl [H1]; · iexact H1
    iexists d2; iexact H2
  · have hr : ¬ cond_reset2 (grid5.coords t) = 1#1 := fun h => hA ((cond_reset_iff2 t).mp h)
    rw [acc5_step V c t hA, carried_pos5 V c t.val (fun h => hA (by rw [h]))]
    iintro ⟨⟨Hs, HR⟩, Ho, ⟨%d0, H0⟩, ⟨%d1, H1⟩, ⟨%d2, H2⟩⟩
    iapply (runB2 c Set.univ _ _ _ _ _ _ _ _ _ hr hf (blk5 V c 0 t) (blk5 V c 1 t) ((dat5 V c).before 2 t d2) (acc5 V c (t.val - 1)) _)
    isplitl [H0]; · iexact H0
    isplitl [H1]; · iexact H1
    isplitl [H2]; · iexact H2
    isplitl [Hs]; · iexact Hs
    iintro ⟨H0, H1, H2, Hs⟩
    isplitl [Hs HR]
    · isplitl [Hs]; · iexact Hs
      iexact HR
    isplitl [Ho]; · iexact Ho
    isplitl [H0]; · iexact H0
    isplitl [H1]; · iexact H1
    iexists d2; iexact H2

theorem bodyFlush5 (c : Dev nD) (t : Fin cfg5.N) (hC : t.val % 4 = 3) :
    iprop((dat5 V c).Φ t.castSucc ∗ (dat5 V c).owesAt () t.castSucc
        ∗ (∃ d, owns (c : Thread nD τ) (st5_0 t) fullShare ((dat5 V c).before 0 t d))
        ∗ (∃ d, owns (c : Thread nD τ) (st5_1 t) fullShare ((dat5 V c).before 1 t d))
        ∗ (∃ d, owns (c : Thread nD τ) (st5_2 t) fullShare ((dat5 V c).before 2 t d)))
      ⊢ wp frame (wpE (defs₀ (F := F)) Variants.none c none) Set.univ (bodyAt5 t) (fun _ =>
        iprop((dat5 V c).Φ t.succ ∗ (dat5 V c).owesAt () t.succ
          ∗ owns (c : Thread nD τ) (st5_0 t) fullShare ((dat5 V c).after 0 t)
          ∗ owns (c : Thread nD τ) (st5_1 t) fullShare ((dat5 V c).after 1 t)
          ∗ owns (c : Thread nD τ) (st5_2 t) fullShare ((dat5 V c).after 2 t))) := by
  have hA : ¬ t.val % 4 = 0 := by omega
  have hf : k2_cond2 (grid5.coords t) = 1#1 := (cond_flush_iff2 t).mpr hC
  have hr : ¬ cond_reset2 (grid5.coords t) = 1#1 := fun h => hA ((cond_reset_iff2 t).mp h)
  simp only [dat5_before0, dat5_before1]
  rw [show (dat5 V c).owesAt () t.succ = (dat5 V c).owesAt () t.castSucc from rfl, dat5_after0, dat5_after1, dat5_after2, dat5_Φ, dat5_Φ,
    show (t.succ : Fin (cfg5.N + 1)).val = t.val + 1 from rfl, show (t.castSucc : Fin (cfg5.N + 1)).val = t.val from rfl]
  show _ ⊢ wp frame (wpE (defs₀ (F := F)) Variants.none c none) Set.univ (bodyAt5 t) (fun _ =>
        iprop(iprop(owns (c : Thread nD τ) accM5 fullShare (acc5 V c t.val) ∗ Pipeline.scopedRestBut (Ix := Unit) (Name := ℕ) (U := UR sig nD τ) (Lvl := ℕ) (Val := Elt F) spec5 c [cc5_scratch0]) ∗ (dat5 V c).owesAt () t.castSucc
          ∗ owns (c : Thread nD τ) (st5_0 t) fullShare (blk5 V c 0 t)
          ∗ owns (c : Thread nD τ) (st5_1 t) fullShare (blk5 V c 1 t)
          ∗ owns (c : Thread nD τ) (st5_2 t) fullShare (k2_pay3 (acc5 V c t.val))))
  rw [bodyAt5_eq]
  rw [acc5_step V c t hA, carried_pos5 V c t.val (fun h => hA (by rw [h]))]
  iintro ⟨⟨Hs, HR⟩, Ho, ⟨%d0, H0⟩, ⟨%d1, H1⟩, ⟨%d2, H2⟩⟩
  iapply (runC2 c Set.univ _ _ _ _ _ _ _ _ _ hr hf (blk5 V c 0 t) (blk5 V c 1 t) (acc5 V c (t.val - 1)) _)
  isplitl [H0]; · iexact H0
  isplitl [H1]; · iexact H1
  isplitl [H2]; · iexists _; iexact H2
  isplitl [Hs]; · iexact Hs
  iintro ⟨H0, H1, H2, Hs⟩
  isplitl [Hs HR]
  · isplitl [Hs]; · iexact Hs
    iexact HR
  isplitl [Ho]; · iexact Ho
  isplitl [H0]; · iexact H0
  isplitl [H1]; · iexact H1
  iexact H2

theorem body5 (c : Dev nD) : BodyObligation (dat5 (F := F) V c) (defs₀ (F := F)) Variants.none () Set.univ := fun t => by
  rw [bigSep_W5, bigSep_W5]
  by_cases hC : t.val % 4 = 3
  · have hidle : cfg5.idle 2 (cfg5.grid.coords t) = false := by
      show (!(k2_cond2 (cfg5.grid.coords t) == 1#1)) = false
      rw [beq_iff_eq.mpr ((cond_flush_iff2 t).mpr hC)]; rfl
    rw [hidle]
    exact bodyFlush5 V c t hC
  · have hidle : cfg5.idle 2 (cfg5.grid.coords t) = true := by
      show (!(k2_cond2 (cfg5.grid.coords t) == 1#1)) = true
      rw [beq_false_of_ne (fun h => hC ((cond_flush_iff2 t).mp h))]; rfl
    have hfl : (cfg5.win 2).flush t = false := Bool.eq_false_iff.mpr (fun h => hC ((flush5_2 t).mp h))
    rw [hidle, hfl]
    exact bodyIdle5 V c t hC

/-- After the last write-back the output array holds one diffusion step of the two arrays the region reads. -/
theorem val5 (V' : (c : Dev nD) → (b : Ref sig .tc) → Buf (Elt Ideal) ((c : Thread nD τ).loc b)) (c : Dev nD) :
    (dat5 (F := Ideal) V' c).arrAt 2 cfg5.N
      = Cert.Spec.diffuse (V' c (Pipeline.arrRef spec5 0)) (V' c (Pipeline.arrRef spec5 1)) :=
  (dat5 (F := Ideal) V' c).arrAt_eq_of_cover 2 _
    (fun t hf => by
      show (cfg5.win 2).cut (grid5.coords t) ((dat5 V' c).after 2 t) = _
      rw [dat5_after2]
      exact flushed_eq _ _ (acc5 V' c) (fun t h => acc5_reset V' c t h) (fun t h => acc5_step V' c t h) t ((flush5_2 t).mp hf))
    cover2

end Cert.KernelIdeal.Hand

end
-- ==== Proof.KI.R6.lean ====
import proofs.«137169_j48112223650339_1_alg».proof.Proof.Gen.KernelIdeal.Launch
import proofs.«137169_j48112223650339_1_alg».proof.Proof.Gen.KernelIdeal.Skeleton
import proofs.«137169_j48112223650339_1_alg».proof.Proof.Gen.KernelIdeal.Points
import Idealize.ShloMosaic.Lib.Pipeline.FrameBody
import Idealize.ShloMosaic.Lib.Pipeline.Frame
import Idealize.ShloMosaic.Lib.Tactic

/-! Region 6: the rectified readout, a block of rows against the rows of the layer's weight matrix, plus the bias row, clamped at 0 from below. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def blk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev whole6_0 : Rect S1x1024x64 := Rect.unit (s := S1x1024x64) ![0, 0, 0] S1x1024x64.size inb_S1x1024x64_S1x1024x64_0_0_0

abbrev whole6_1 : Rect S64x64 := Rect.unit (s := S64x64) ![0, 0] S64x64.size inb_S64x64_S64x64_0_0

abbrev whole6_2 : Rect S1x64 := Rect.unit (s := S1x64) ![0, 0] S1x64.size inb_S1x64_S1x64_0_0

def out6 (d : Vec F S1x1024x64 .f32) (w : Vec F S64x64 .f32) (b : Vec F S1x64 .f32) : Vec F S1x1024x64 .f32 :=
  View.canon [⟨whole6_0, k6_pay1 (View.ld d whole6_0) (View.ld w whole6_1) (View.ld b whole6_2)⟩]

theorem out6_cover (p : Vec F S1x1024x64 .f32) (y : S1x1024x64.Idx) :
    ∃ pc ∈ ([⟨whole6_0, p⟩] : List (View.Piece (Elt F) S1x1024x64 .f32)), y ∈ pc.1.set :=
  View.cover_of_tiled [⟨whole6_0, p⟩] S1x1024x64.size (by rfl) y

set_option maxHeartbeats 1000000 in
theorem run6 (c : Dev nD) (E : Set ℕ) (i : grid6.Coords)
    (a0 : Memref sig .tc .vmem S1x1024x64 .f32) (h0 : a0.IsWhole) (a1 : Memref sig .tc .vmem S64x64 .f32) (h1 : a1.IsWhole)
    (a2 : Memref sig .tc .vmem S1x64 .f32) (h2 : a2.IsWhole) (a3 : Memref sig .tc .vmem S1x1024x64 .f32) (h3 : a3.IsWhole)
    (d : Vec F S1x1024x64 .f32) (w : Vec F S64x64 .f32) (b : Vec F S1x64 .f32) (K : PUnit → sProp 𝕄) :
    iprop(owns (c : Thread nD τ) a0 fullShare d ∗ owns (c : Thread nD τ) a1 fullShare w ∗ owns (c : Thread nD τ) a2 fullShare b
        ∗ (∃ o, owns (c : Thread nD τ) a3 fullShare o)
        ∗ (iprop(owns (c : Thread nD τ) a0 fullShare d ∗ owns (c : Thread nD τ) a1 fullShare w ∗ owns (c : Thread nD τ) a2 fullShare b
            ∗ owns (c : Thread nD τ) a3 fullShare (out6 d w b)) -∗ K ⟨⟩))
      ⊢ wp frame (wpE (defs₀ (F := F)) Variants.none c none) E (cc6__post_diffusion_kernel i a0 h0 a1 h1 a2 h2 a3 h3) K := by
  simp only [cc6__post_diffusion_kernel_eq_skeleton]; unfold cc6__post_diffusion_kernel_skel
  unfold owns
  iintro ⟨⟨%f0, %hf0, H0⟩, ⟨%f1, %hf1, H1⟩, ⟨%f2, %hf2, H2⟩, ⟨%o, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (out6_cover _)

def dat6 (c : Dev nD) : Dat τ (Elt F) Unit ℕ (UR sig nD τ) ℕ cfg6 c where
  A w := V c (Pipeline.arrRef spec6 w)
  after w t := match w with
    | ⟨0, _⟩ => blk6 V c 0 t
    | ⟨1, _⟩ => blk6 V c 1 t
    | ⟨2, _⟩ => blk6 V c 2 t
    | ⟨3, _⟩ => out6 (blk6 V c 0 t) (blk6 V c 1 t) (blk6 V c 2 t)
  Φ _ := Pipeline.scopedRest (Ix := Unit) (Name := ℕ) (U := UR sig nD τ) (Lvl := ℕ) (Val := Elt F) spec6 c
  q _ := fullShare
  owed _ := 0

theorem dat6_A (c : Dev nD) (w : Fin cfg6.W) : (dat6 V c).A w = V c (Pipeline.arrRef spec6 w) := by dsimp only [dat6]
theorem dat6_after0 (c : Dev nD) (t : Fin cfg6.N) : (dat6 V c).after 0 t = blk6 V c 0 t := by dsimp only [dat6]
theorem dat6_after1 (c : Dev nD) (t : Fin cfg6.N) : (dat6 V c).after 1 t = blk6 V c 1 t := by dsimp only [dat6]
theorem dat6_after2 (c : Dev nD) (t : Fin cfg6.N) : (dat6 V c).after 2 t = blk6 V c 2 t := by dsimp only [dat6]
theorem dat6_after3 (c : Dev nD) (t : Fin cfg6.N) :
    (dat6 V c).after 3 t = out6 (blk6 V c 0 t) (blk6 V c 1 t) (blk6 V c 2 t) := by dsimp only [dat6]

theorem dat6_before0 (c : Dev nD) (t : Fin cfg6.N) (d) : (dat6 V c).before 0 t d = blk6 V c 0 t :=
  ((dat6 V c).before_in_eq_fetched 0 rfl (fun _ => rfl) (fun _ _ _ => rfl)
      (fun t => by rw [dat6_after0]; unfold Dat.blockOf blk6; rw [dat6_A]; try rfl) t d).trans
    (by unfold Dat.fetched Dat.blockOf blk6; rw [dat6_A]; try rfl)

theorem dat6_before1 (c : Dev nD) (t : Fin cfg6.N) (d) : (dat6 V c).before 1 t d = blk6 V c 1 t :=
  ((dat6 V c).before_in_eq_fetched 1 rfl (fun _ => rfl) (fun _ _ _ => rfl)
      (fun t => by rw [dat6_after1]; unfold Dat.blockOf blk6; rw [dat6_A]; try rfl) t d).trans
    (by unfold Dat.fetched Dat.blockOf blk6; rw [dat6_A]; try rfl)

theorem dat6_before2 (c : Dev nD) (t : Fin cfg6.N) (d) : (dat6 V c).before 2 t d = blk6 V c 2 t :=
  ((dat6 V c).before_in_eq_fetched 2 rfl (fun _ => rfl) (fun _ _ _ => rfl)
      (fun t => by rw [dat6_after2]; unfold Dat.blockOf blk6; rw [dat6_A]; try rfl) t d).trans
    (by unfold Dat.fetched Dat.blockOf blk6; rw [dat6_A]; try rfl)

theorem body6 (c : Dev nD) : BodyObligation (dat6 (F := F) V c) (defs₀ (F := F)) Variants.none () Set.univ := fun t => by
  rw [bigSep_W6, bigSep_W6]
  show iprop((dat6 V c).Φ t.castSucc ∗ (dat6 V c).owesAt () t.castSucc
      ∗ (∃ d, owns (c : Thread nD τ) (st6_0 t) fullShare ((dat6 V c).before 0 t d))
      ∗ (∃ d, owns (c : Thread nD τ) (st6_1 t) fullShare ((dat6 V c).before 1 t d))
      ∗ (∃ d, owns (c : Thread nD τ) (st6_2 t) fullShare ((dat6 V c).before 2 t d))
      ∗ (∃ d, owns (c : Thread nD τ) (st6_3 t) fullShare ((dat6 V c).before 3 t d)))
    ⊢ wp frame (wpE (defs₀ (F := F)) Variants.none c none) Set.univ (bodyAt6 t) (fun _ =>
      iprop((dat6 V c).Φ t.succ ∗ (dat6 V c).owesAt () t.succ
        ∗ owns (c : Thread nD τ) (st6_0 t) fullShare ((dat6 V c).after 0 t)
        ∗ owns (c : Thread nD τ) (st6_1 t) fullShare ((dat6 V c).after 1 t)
        ∗ owns (c : Thread nD τ) (st6_2 t) fullShare ((dat6 V c).after 2 t)
        ∗ owns (c : Thread nD τ) (st6_3 t) fullShare ((dat6 V c).after 3 t)))
  simp only [dat6_before0, dat6_before1, dat6_before2]
  rw [show (dat6 V c).Φ t.succ = (dat6 V c).Φ t.castSucc from rfl,
    show (dat6 V c).owesAt () t.succ = (dat6 V c).owesAt () t.castSucc from rfl,
    dat6_after0, dat6_after1, dat6_after2, dat6_after3]
  iintro ⟨HΦ, Ho, ⟨%d0, H0⟩, ⟨%d1, H1⟩, ⟨%d2, H2⟩, ⟨%d3, H3⟩⟩
  iapply (run6 c Set.univ _ _ _ _ _ _ _ _ _ (blk6 V c 0 t) (blk6 V c 1 t) (blk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

end Cert.KernelIdeal.Hand

end
-- ==== Proof.KI.R7.lean ====
import proofs.«137169_j48112223650339_1_alg».proof.Proof.Gen.KernelIdeal.Launch
import proofs.«137169_j48112223650339_1_alg».proof.Proof.Gen.KernelIdeal.Skeleton
import proofs.«137169_j48112223650339_1_alg».proof.Proof.Gen.KernelIdeal.Points
import proofs.«137169_j48112223650339_1_alg».proof.Proof.KI.R2
import proofs.«137169_j48112223650339_1_alg».proof.Proof.KI.R2Val
import Idealize.ShloMosaic.Lib.Pipeline.FrameBody
import Idealize.ShloMosaic.Lib.Pipeline.Frame
import Idealize.ShloMosaic.Lib.Pipeline.Value
import Idealize.ShloMosaic.Lib.Tactic

/-! A diffusion step like region 2: the same body on other buffers (`bodyAt7_eq`), so region 2's payloads, its three body
  theorems and its value lemma serve, and only the bookkeeping over this region's own buffers is written again. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (V : (c : Dev nD) → (b : Ref sig .tc) → Buf (Elt F) ((c : Thread nD τ).loc b))

def blk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

def acc7 (c : Dev nD) : ℕ → Vec F S2048x64 .f32
  | 0 => if h : 0 < cfg7.N then k2_pay2 (blk7 V c 0 ⟨0, h⟩) (blk7 V c 1 ⟨0, h⟩) (k2_pay1 (F := F)) else k2_pay1 (F := F)
  | m + 1 =>
    if h : m + 1 < cfg7.N then
      k2_pay2 (blk7 V c 0 ⟨m + 1, h⟩) (blk7 V c 1 ⟨m + 1, h⟩) (if (m + 1) % 4 = 0 then k2_pay1 (F := F) else acc7 c m)
    else k2_pay1 (F := F)

theorem acc7_reset (c : Dev nD) (t : Fin cfg7.N) (h : t.val % 4 = 0) :
    acc7 V c t.val = k2_pay2 (blk7 V c 0 t) (blk7 V c 1 t) (k2_pay1 (F := F)) := by
  obtain ⟨n, hn⟩ := t
  cases n with
  | zero => show acc7 V c 0 = _; rw [acc7, dif_pos hn]
  | succ m => show acc7 V c (m + 1) = _; rw [acc7, dif_pos hn, if_pos h]

theorem acc7_step (c : Dev nD) (t : Fin cfg7.N) (h : t.val % 4 ≠ 0) :
    acc7 V c t.val = k2_pay2 (blk7 V c 0 t) (blk7 V c 1 t) (acc7 V c (t.val - 1)) := by
  obtain ⟨n, hn⟩ := t
  cases n with
  | zero => exact absurd rfl h
  | succ m => show acc7 V c (m + 1) = _; rw [acc7, dif_pos hn, if_neg h]; rfl

abbrev accM7 : Memref sig .tc .vmem S2048x64 .f32 := Memref.whole cc7_scratch0

/-- The region runs region 2's body. -/
theorem bodyAt7_eq (t : Fin cfg7.N) :
    bodyAt7 (F := F) t = cc2__diffuse_kernel (grid7.coords t) (st7_0 t) (Facts₀.hstage7_0 ((cfg7.slots t 0).cast Facts₀.nbuf7_0))
      (st7_1 t) (Facts₀.hstage7_1 ((cfg7.slots t 1).cast Facts₀.nbuf7_1)) (st7_2 t) (Facts₀.hstage7_2 ((cfg7.slots t 2).cast Facts₀.nbuf7_2))
      accM7 (Memref.isWhole_whole _) := rfl

def carried7 (c : Dev nD) : ℕ → sProp 𝕄
  | 0 => iprop((∃ s, owns (c : Thread nD τ) accM7 fullShare s) ∗ Pipeline.scopedRestBut (Ix := Unit) (Name := ℕ) (U := UR sig nD τ) (Lvl := ℕ) (Val := Elt F) spec7 c [cc7_scratch0])
  | m + 1 => iprop(owns (c : Thread nD τ) accM7 fullShare (acc7 V c m) ∗ Pipeline.scopedRestBut (Ix := Unit) (Name := ℕ) (U := UR sig nD τ) (Lvl := ℕ) (Val := Elt F) spec7 c [cc7_scratch0])

theorem carried_any7 (c : Dev nD) (n : ℕ) :
    carried7 V c n ⊢ iprop((∃ s, owns (c : Thread nD τ) accM7 fullShare s) ∗ Pipeline.scopedRestBut (Ix := Unit) (Name := ℕ) (U := UR sig nD τ) (Lvl := ℕ) (Val := Elt F) spec7 c [cc7_scratch0]) := by
  cases n with
  | zero => exact .rfl
  | succ m =>
    show iprop(owns (c : Thread nD τ) accM7 fullShare (acc7 V c m) ∗ Pipeline.scopedRestBut (Ix := Unit) (Name := ℕ) (U := UR sig nD τ) (Lvl := ℕ) (Val := Elt F) spec7 c [cc7_scratch0]) ⊢ _
    iintro ⟨H, HR⟩
    isplitl [H]
    · iexists _; iexact H
    iexact HR

theorem carried_pos7 (c : Dev nD) (n : ℕ) (h : n ≠ 0) :
    carried7 V c n = iprop(owns (c : Thread nD τ) accM7 fullShare (acc7 V c (n - 1)) ∗ Pipeline.scopedRestBut (Ix := Unit) (Name := ℕ) (U := UR sig nD τ) (Lvl := ℕ) (Val := Elt F) spec7 c [cc7_scratch0]) := by
  cases n with
  | zero => exact absurd rfl h
  | succ m => rfl

def dat7 (c : Dev nD) : Dat τ (Elt F) Unit ℕ (UR sig nD τ) ℕ cfg7 c where
  A w := V c (Pipeline.arrRef spec7 w)
  after w t := match w with
    | ⟨0, _⟩ => blk7 V c 0 t
    | ⟨1, _⟩ => blk7 V c 1 t
    | ⟨2, _⟩ => k2_pay3 (acc7 V c t.val)
  Φ n := carried7 V c n.val
  q _ := fullShare
  owed _ := 0

theorem dat7_A (c : Dev nD) (w : Fin cfg7.W) : (dat7 V c).A w = V c (Pipeline.arrRef spec7 w) := by dsimp only [dat7]
theorem dat7_after0 (c : Dev nD) (t : Fin cfg7.N) : (dat7 V c).after 0 t = blk7 V c 0 t := by dsimp only [dat7]
theorem dat7_after1 (c : Dev nD) (t : Fin cfg7.N) : (dat7 V c).after 1 t = blk7 V c 1 t := by dsimp only [dat7]
theorem dat7_after2 (c : Dev nD) (t : Fin cfg7.N) : (dat7 V c).after 2 t = k2_pay3 (acc7 V c t.val) := by dsimp only [dat7]
theorem dat7_Φ (c : Dev nD) (n : Fin (cfg7.N + 1)) : (dat7 V c).Φ n = carried7 V c n.val := by dsimp only [dat7]

theorem dat7_before0 (c : Dev nD) (t : Fin cfg7.N) (d) : (dat7 V c).before 0 t d = blk7 V c 0 t :=
  ((dat7 V c).before_in_eq_fetched 0 rfl (fun _ => rfl) (fun _ _ _ => rfl)
      (fun t => by rw [dat7_after0]; unfold Dat.blockOf blk7; rw [dat7_A]; try rfl) t d).trans
    (by unfold Dat.fetched Dat.blockOf blk7; rw [dat7_A]; try rfl)
theorem dat7_before1 (c : Dev nD) (t : Fin cfg7.N) (d) : (dat7 V c).before 1 t d = blk7 V c 1 t :=
  ((dat7 V c).before_in_eq_fetched 1 rfl (fun _ => rfl) (fun _ _ _ => rfl)
      (fun t => by rw [dat7_after1]; unfold Dat.blockOf blk7; rw [dat7_A]; try rfl) t d).trans
    (by unfold Dat.fetched Dat.blockOf blk7; rw [dat7_A]; try rfl)

theorem Φ7_first (c : Dev nD) : (Pipeline.scopedRest (Ix := Unit) (Name := ℕ) (U := UR sig nD τ) (Lvl := ℕ) (Val := Elt F) spec7 c : sProp 𝕄) ⊢ (dat7 V c).Φ 0 := by
  rw [scopedRest7_split, dat7_Φ]
  show _ ⊢ carried7 V c 0
  unfold carried7
  iintro ⟨⟨%f, H⟩, HR⟩
  isplitl [H]
  · iexists f; rw [owns_whole]; iexact H
  iexact HR

theorem Φ7_last (c : Dev nD) : (dat7 V c).Φ (Fin.last cfg7.N) ⊢ (Pipeline.scopedRest (Ix := Unit) (Name := ℕ) (U := UR sig nD τ) (Lvl := ℕ) (Val := Elt F) spec7 c : sProp 𝕄) := by
  rw [scopedRest7_split, dat7_Φ]
  refine (carried_any7 V c _).trans ?_
  simp only [owns_whole]
  exact .rfl

theorem bodyIdle7 (c : Dev nD) (t : Fin cfg7.N) (hC : ¬ t.val % 4 = 3) :
    iprop((dat7 V c).Φ t.castSucc ∗ (dat7 V c).owesAt () t.castSucc
        ∗ (∃ d, owns (c : Thread nD τ) (st7_0 t) fullShare ((dat7 V c).before 0 t d))
        ∗ (∃ d, owns (c : Thread nD τ) (st7_1 t) fullShare ((dat7 V c).before 1 t d))
        ∗ (∃ d, owns (c : Thread nD τ) (st7_2 t) fullShare ((dat7 V c).before 2 t d)))
      ⊢ wp frame (wpE (defs₀ (F := F)) Variants.none c none) Set.univ (bodyAt7 t) (fun _ =>
        iprop((dat7 V c).Φ t.succ ∗ (dat7 V c).owesAt () t.succ
          ∗ owns (c : Thread nD τ) (st7_0 t) fullShare ((dat7 V c).after 0 t)
          ∗ owns (c : Thread nD τ) (st7_1 t) fullShare ((dat7 V c).after 1 t)
          ∗ (∃ d, owns (c : Thread nD τ) (st7_2 t) fullShare ((dat7 V c).before 2 t d)))) := by
  have hf : ¬ k2_cond2 (grid7.coords t) = 1#1 := fun h => hC ((cond_flush_iff2 t).mp h)
  simp only [dat7_before0, dat7_before1]
  rw [show (dat7 V c).owesAt () t.succ = (dat7 V c).owesAt () t.castSucc from rfl, dat7_after0, dat7_after1, dat7_Φ, dat7_Φ,
    show (t.succ : Fin (cfg7.N + 1)).val = t.val + 1 from rfl, show (t.castSucc : Fin (cfg7.N + 1)).val = t.val from rfl]
  show _ ⊢ wp frame (wpE (defs₀ (F := F)) Variants.none c none) Set.univ (bodyAt7 t) (fun _ =>
        iprop(iprop(owns (c : Thread nD τ) accM7 fullShare (acc7 V c t.val) ∗ Pipeline.scopedRestBut (Ix := Unit) (Name := ℕ) (U := UR sig nD τ) (Lvl := ℕ) (Val := Elt F) spec7 c [cc7_scratch0]) ∗ (dat7 V c).owesAt () t.castSucc
          ∗ owns (c : Thread nD τ) (st7_0 t) fullShare (blk7 V c 0 t)
          ∗ owns (c : Thread nD τ) (st7_1 t) fullShare (blk7 V c 1 t)
          ∗ (∃ d, owns (c : Thread nD τ) (st7_2 t) fullShare ((dat7 V c).before 2 t d))))
  rw [bodyAt7_eq]
  by_cases hA : t.val % 4 = 0
  · have hr : cond_reset2 (grid7.coords t) = 1#1 := (cond_reset_iff2 t).mpr hA
    rw [acc7_reset V c t hA]
    iintro ⟨HΦ, Ho, ⟨%d0, H0⟩, ⟨%d1, H1⟩, ⟨%d2, H2⟩⟩
    ihave HΦ' := (carried_any7 V c t.val) $$ HΦ
    icases HΦ' with ⟨Hs, HR⟩
    iapply (runA2 c Set.univ _ _ _ _ _ _ _ _ _ hr hf (blk7 V c 0 t) (blk7 V c 1 t) ((dat7 V c).before 2 t d2) _)
    isplitl [H0]; · iexact H0
    isplitl [H1]; · iexact H1
    isplitl [H2]; · iexact H2
    isplitl [Hs]; · iexact Hs
    iintro ⟨H0, H1, H2, Hs⟩
    isplitl [Hs HR]
    · isplitl [Hs]; · iexact Hs
      iexact HR
    isplitl [Ho]; · iexact Ho
    isplitl [H0]; · iexact H0
    isplitl [H1]; · iexact H1
    iexists d2; iexact H2
  · have hr : ¬ cond_reset2 (grid7.coords t) = 1#1 := fun h => hA ((cond_reset_iff2 t).mp h)
    rw [acc7_step V c t hA, carried_pos7 V c t.val (fun h => hA (by rw [h]))]
    iintro ⟨⟨Hs, HR⟩, Ho, ⟨%d0, H0⟩, ⟨%d1, H1⟩, ⟨%d2, H2⟩⟩
    iapply (runB2 c Set.univ _ _ _ _ _ _ _ _ _ hr hf (blk7 V c 0 t) (blk7 V c 1 t) ((dat7 V c).before 2 t d2) (acc7 V c (t.val - 1)) _)
    isplitl [H0]; · iexact H0
    isplitl [H1]; · iexact H1
    isplitl [H2]; · iexact H2
    isplitl [Hs]; · iexact Hs
    iintro ⟨H0, H1, H2, Hs⟩
    isplitl [Hs HR]
    · isplitl [Hs]; · iexact Hs
      iexact HR
    isplitl [Ho]; · iexact Ho
    isplitl [H0]; · iexact H0
    isplitl [H1]; · iexact H1
    iexists d2; iexact H2

theorem bodyFlush7 (c : Dev nD) (t : Fin cfg7.N) (hC : t.val % 4 = 3) :
    iprop((dat7 V c).Φ t.castSucc ∗ (dat7 V c).owesAt () t.castSucc
        ∗ (∃ d, owns (c : Thread nD τ) (st7_0 t) fullShare ((dat7 V c).before 0 t d))
        ∗ (∃ d, owns (c : Thread nD τ) (st7_1 t) fullShare ((dat7 V c).before 1 t d))
        ∗ (∃ d, owns (c : Thread nD τ) (st7_2 t) fullShare ((dat7 V c).before 2 t d)))
      ⊢ wp frame (wpE (defs₀ (F := F)) Variants.none c none) Set.univ (bodyAt7 t) (fun _ =>
        iprop((dat7 V c).Φ t.succ ∗ (dat7 V c).owesAt () t.succ
          ∗ owns (c : Thread nD τ) (st7_0 t) fullShare ((dat7 V c).after 0 t)
          ∗ owns (c : Thread nD τ) (st7_1 t) fullShare ((dat7 V c).after 1 t)
          ∗ owns (c : Thread nD τ) (st7_2 t) fullShare ((dat7 V c).after 2 t))) := by
  have hA : ¬ t.val % 4 = 0 := by omega
  have hf : k2_cond2 (grid7.coords t) = 1#1 := (cond_flush_iff2 t).mpr hC
  have hr : ¬ cond_reset2 (grid7.coords t) = 1#1 := fun h => hA ((cond_reset_iff2 t).mp h)
  simp only [dat7_before0, dat7_before1]
  rw [show (dat7 V c).owesAt () t.succ = (dat7 V c).owesAt () t.castSucc from rfl, dat7_after0, dat7_after1, dat7_after2, dat7_Φ, dat7_Φ,
    show (t.succ : Fin (cfg7.N + 1)).val = t.val + 1 from rfl, show (t.castSucc : Fin (cfg7.N + 1)).val = t.val from rfl]
  show _ ⊢ wp frame (wpE (defs₀ (F := F)) Variants.none c none) Set.univ (bodyAt7 t) (fun _ =>
        iprop(iprop(owns (c : Thread nD τ) accM7 fullShare (acc7 V c t.val) ∗ Pipeline.scopedRestBut (Ix := Unit) (Name := ℕ) (U := UR sig nD τ) (Lvl := ℕ) (Val := Elt F) spec7 c [cc7_scratch0]) ∗ (dat7 V c).owesAt () t.castSucc
          ∗ owns (c : Thread nD τ) (st7_0 t) fullShare (blk7 V c 0 t)
          ∗ owns (c : Thread nD τ) (st7_1 t) fullShare (blk7 V c 1 t)
          ∗ owns (c : Thread nD τ) (st7_2 t) fullShare (k2_pay3 (acc7 V c t.val))))
  rw [bodyAt7_eq]
  rw [acc7_step V c t hA, carried_pos7 V c t.val (fun h => hA (by rw [h]))]
  iintro ⟨⟨Hs, HR⟩, Ho, ⟨%d0, H0⟩, ⟨%d1, H1⟩, ⟨%d2, H2⟩⟩
  iapply (runC2 c Set.univ _ _ _ _ _ _ _ _ _ hr hf (blk7 V c 0 t) (blk7 V c 1 t) (acc7 V c (t.val - 1)) _)
  isplitl [H0]; · iexact H0
  isplitl [H1]; · iexact H1
  isplitl [H2]; · iexists _; iexact H2
  isplitl [Hs]; · iexact Hs
  iintro ⟨H0, H1, H2, Hs⟩
  isplitl [Hs HR]
  · isplitl [Hs]; · iexact Hs
    iexact HR
  isplitl [Ho]; · iexact Ho
  isplitl [H0]; · iexact H0
  isplitl [H1]; · iexact H1
  iexact H2

theorem body7 (c : Dev nD) : BodyObligation (dat7 (F := F) V c) (defs₀ (F := F)) Variants.none () Set.univ := fun t => by
  rw [bigSep_W7, bigSep_W7]
  by_cases hC : t.val % 4 = 3
  · have hidle : cfg7.idle 2 (cfg7.grid.coords t) = false := by
      show (!(k2_cond2 (cfg7.grid.coords t) == 1#1)) = false
      rw [beq_iff_eq.mpr ((cond_flush_iff2 t).mpr hC)]; rfl
    rw [hidle]
    exact bodyFlush7 V c t hC
  · have hidle : cfg7.idle 2 (cfg7.grid.coords t) = true := by
      show (!(k2_cond2 (cfg7.grid.coords t) == 1#1)) = true
      rw [beq_false_of_ne (fun h => hC ((cond_flush_iff2 t).mp h))]; rfl
    have hfl : (cfg7.win 2).flush t = false := Bool.eq_false_iff.mpr (fun h => hC ((flush7_2 t).mp h))
    rw [hidle, hfl]
    exact bodyIdle7 V c t hC

/-- After the last write-back the output array holds one diffusion step of the two arrays the region reads. -/
theorem val7 (V' : (c : Dev nD) → (b : Ref sig .tc) → Buf (Elt Ideal) ((c : Thread nD τ).loc b)) (c : Dev nD) :
    (dat7 (F := Ideal) V' c).arrAt 2 cfg7.N
      = Cert.Spec.diffuse (V' c (Pipeline.arrRef spec7 0)) (V' c (Pipeline.arrRef spec7 1)) :=
  (dat7 (F := Ideal) V' c).arrAt_eq_of_cover 2 _
    (fun t hf => by
      show (cfg7.win 2).cut (grid7.coords t) ((dat7 V' c).after 2 t) = _
      rw [dat7_after2]
      exact flushed_eq _ _ (acc7 V' c) (fun t h => acc7_reset V' c t h) (fun t h => acc7_step V' c t h) t ((flush7_2 t).mp hf))
    cover2

end Cert.KernelIdeal.Hand

end
-- ==== Proof.KI.R8.lean ====
import proofs.«137169_j48112223650339_1_alg».proof.Proof.Gen.KernelIdeal.Launch
import proofs.«137169_j48112223650339_1_alg».proof.Proof.Gen.KernelIdeal.Skeleton
import proofs.«137169_j48112223650339_1_alg».proof.Proof.Gen.KernelIdeal.Points
import proofs.«137169_j48112223650339_1_alg».proof.Proof.KI.R2
import proofs.«137169_j48112223650339_1_alg».proof.Proof.KI.R2Val
import Idealize.ShloMosaic.Lib.Pipeline.FrameBody
import Idealize.ShloMosaic.Lib.Pipeline.Frame
import Idealize.ShloMosaic.Lib.Pipeline.Value
import Idealize.ShloMosaic.Lib.Tactic

/-! A diffusion step like region 2: the same body on other buffers (`bodyAt8_eq`), so region 2's payloads, its three body
  theorems and its value lemma serve, and only the bookkeeping over this region's own buffers is written again. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (V : (c : Dev nD) → (b : Ref sig .tc) → Buf (Elt F) ((c : Thread nD τ).loc b))

def blk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

def acc8 (c : Dev nD) : ℕ → Vec F S2048x64 .f32
  | 0 => if h : 0 < cfg8.N then k2_pay2 (blk8 V c 0 ⟨0, h⟩) (blk8 V c 1 ⟨0, h⟩) (k2_pay1 (F := F)) else k2_pay1 (F := F)
  | m + 1 =>
    if h : m + 1 < cfg8.N then
      k2_pay2 (blk8 V c 0 ⟨m + 1, h⟩) (blk8 V c 1 ⟨m + 1, h⟩) (if (m + 1) % 4 = 0 then k2_pay1 (F := F) else acc8 c m)
    else k2_pay1 (F := F)

theorem acc8_reset (c : Dev nD) (t : Fin cfg8.N) (h : t.val % 4 = 0) :
    acc8 V c t.val = k2_pay2 (blk8 V c 0 t) (blk8 V c 1 t) (k2_pay1 (F := F)) := by
  obtain ⟨n, hn⟩ := t
  cases n with
  | zero => show acc8 V c 0 = _; rw [acc8, dif_pos hn]
  | succ m => show acc8 V c (m + 1) = _; rw [acc8, dif_pos hn, if_pos h]

theorem acc8_step (c : Dev nD) (t : Fin cfg8.N) (h : t.val % 4 ≠ 0) :
    acc8 V c t.val = k2_pay2 (blk8 V c 0 t) (blk8 V c 1 t) (acc8 V c (t.val - 1)) := by
  obtain ⟨n, hn⟩ := t
  cases n with
  | zero => exact absurd rfl h
  | succ m => show acc8 V c (m + 1) = _; rw [acc8, dif_pos hn, if_neg h]; rfl

abbrev accM8 : Memref sig .tc .vmem S2048x64 .f32 := Memref.whole cc8_scratch0

/-- The region runs region 2's body. -/
theorem bodyAt8_eq (t : Fin cfg8.N) :
    bodyAt8 (F := F) t = cc2__diffuse_kernel (grid8.coords t) (st8_0 t) (Facts₀.hstage8_0 ((cfg8.slots t 0).cast Facts₀.nbuf8_0))
      (st8_1 t) (Facts₀.hstage8_1 ((cfg8.slots t 1).cast Facts₀.nbuf8_1)) (st8_2 t) (Facts₀.hstage8_2 ((cfg8.slots t 2).cast Facts₀.nbuf8_2))
      accM8 (Memref.isWhole_whole _) := rfl

def carried8 (c : Dev nD) : ℕ → sProp 𝕄
  | 0 => iprop((∃ s, owns (c : Thread nD τ) accM8 fullShare s) ∗ Pipeline.scopedRestBut (Ix := Unit) (Name := ℕ) (U := UR sig nD τ) (Lvl := ℕ) (Val := Elt F) spec8 c [cc8_scratch0])
  | m + 1 => iprop(owns (c : Thread nD τ) accM8 fullShare (acc8 V c m) ∗ Pipeline.scopedRestBut (Ix := Unit) (Name := ℕ) (U := UR sig nD τ) (Lvl := ℕ) (Val := Elt F) spec8 c [cc8_scratch0])

theorem carried_any8 (c : Dev nD) (n : ℕ) :
    carried8 V c n ⊢ iprop((∃ s, owns (c : Thread nD τ) accM8 fullShare s) ∗ Pipeline.scopedRestBut (Ix := Unit) (Name := ℕ) (U := UR sig nD τ) (Lvl := ℕ) (Val := Elt F) spec8 c [cc8_scratch0]) := by
  cases n with
  | zero => exact .rfl
  | succ m =>
    show iprop(owns (c : Thread nD τ) accM8 fullShare (acc8 V c m) ∗ Pipeline.scopedRestBut (Ix := Unit) (Name := ℕ) (U := UR sig nD τ) (Lvl := ℕ) (Val := Elt F) spec8 c [cc8_scratch0]) ⊢ _
    iintro ⟨H, HR⟩
    isplitl [H]
    · iexists _; iexact H
    iexact HR

theorem carried_pos8 (c : Dev nD) (n : ℕ) (h : n ≠ 0) :
    carried8 V c n = iprop(owns (c : Thread nD τ) accM8 fullShare (acc8 V c (n - 1)) ∗ Pipeline.scopedRestBut (Ix := Unit) (Name := ℕ) (U := UR sig nD τ) (Lvl := ℕ) (Val := Elt F) spec8 c [cc8_scratch0]) := by
  cases n with
  | zero => exact absurd rfl h
  | succ m => rfl

def dat8 (c : Dev nD) : Dat τ (Elt F) Unit ℕ (UR sig nD τ) ℕ cfg8 c where
  A w := V c (Pipeline.arrRef spec8 w)
  after w t := match w with
    | ⟨0, _⟩ => blk8 V c 0 t
    | ⟨1, _⟩ => blk8 V c 1 t
    | ⟨2, _⟩ => k2_pay3 (acc8 V c t.val)
  Φ n := carried8 V c n.val
  q _ := fullShare
  owed _ := 0

theorem dat8_A (c : Dev nD) (w : Fin cfg8.W) : (dat8 V c).A w = V c (Pipeline.arrRef spec8 w) := by dsimp only [dat8]
theorem dat8_after0 (c : Dev nD) (t : Fin cfg8.N) : (dat8 V c).after 0 t = blk8 V c 0 t := by dsimp only [dat8]
theorem dat8_after1 (c : Dev nD) (t : Fin cfg8.N) : (dat8 V c).after 1 t = blk8 V c 1 t := by dsimp only [dat8]
theorem dat8_after2 (c : Dev nD) (t : Fin cfg8.N) : (dat8 V c).after 2 t = k2_pay3 (acc8 V c t.val) := by dsimp only [dat8]
theorem dat8_Φ (c : Dev nD) (n : Fin (cfg8.N + 1)) : (dat8 V c).Φ n = carried8 V c n.val := by dsimp only [dat8]

theorem dat8_before0 (c : Dev nD) (t : Fin cfg8.N) (d) : (dat8 V c).before 0 t d = blk8 V c 0 t :=
  ((dat8 V c).before_in_eq_fetched 0 rfl (fun _ => rfl) (fun _ _ _ => rfl)
      (fun t => by rw [dat8_after0]; unfold Dat.blockOf blk8; rw [dat8_A]; try rfl) t d).trans
    (by unfold Dat.fetched Dat.blockOf blk8; rw [dat8_A]; try rfl)
theorem dat8_before1 (c : Dev nD) (t : Fin cfg8.N) (d) : (dat8 V c).before 1 t d = blk8 V c 1 t :=
  ((dat8 V c).before_in_eq_fetched 1 rfl (fun _ => rfl) (fun _ _ _ => rfl)
      (fun t => by rw [dat8_after1]; unfold Dat.blockOf blk8; rw [dat8_A]; try rfl) t d).trans
    (by unfold Dat.fetched Dat.blockOf blk8; rw [dat8_A]; try rfl)

theorem Φ8_first (c : Dev nD) : (Pipeline.scopedRest (Ix := Unit) (Name := ℕ) (U := UR sig nD τ) (Lvl := ℕ) (Val := Elt F) spec8 c : sProp 𝕄) ⊢ (dat8 V c).Φ 0 := by
  rw [scopedRest8_split, dat8_Φ]
  show _ ⊢ carried8 V c 0
  unfold carried8
  iintro ⟨⟨%f, H⟩, HR⟩
  isplitl [H]
  · iexists f; rw [owns_whole]; iexact H
  iexact HR

theorem Φ8_last (c : Dev nD) : (dat8 V c).Φ (Fin.last cfg8.N) ⊢ (Pipeline.scopedRest (Ix := Unit) (Name := ℕ) (U := UR sig nD τ) (Lvl := ℕ) (Val := Elt F) spec8 c : sProp 𝕄) := by
  rw [scopedRest8_split, dat8_Φ]
  refine (carried_any8 V c _).trans ?_
  simp only [owns_whole]
  exact .rfl

theorem bodyIdle8 (c : Dev nD) (t : Fin cfg8.N) (hC : ¬ t.val % 4 = 3) :
    iprop((dat8 V c).Φ t.castSucc ∗ (dat8 V c).owesAt () t.castSucc
        ∗ (∃ d, owns (c : Thread nD τ) (st8_0 t) fullShare ((dat8 V c).before 0 t d))
        ∗ (∃ d, owns (c : Thread nD τ) (st8_1 t) fullShare ((dat8 V c).before 1 t d))
        ∗ (∃ d, owns (c : Thread nD τ) (st8_2 t) fullShare ((dat8 V c).before 2 t d)))
      ⊢ wp frame (wpE (defs₀ (F := F)) Variants.none c none) Set.univ (bodyAt8 t) (fun _ =>
        iprop((dat8 V c).Φ t.succ ∗ (dat8 V c).owesAt () t.succ
          ∗ owns (c : Thread nD τ) (st8_0 t) fullShare ((dat8 V c).after 0 t)
          ∗ owns (c : Thread nD τ) (st8_1 t) fullShare ((dat8 V c).after 1 t)
          ∗ (∃ d, owns (c : Thread nD τ) (st8_2 t) fullShare ((dat8 V c).before 2 t d)))) := by
  have hf : ¬ k2_cond2 (grid8.coords t) = 1#1 := fun h => hC ((cond_flush_iff2 t).mp h)
  simp only [dat8_before0, dat8_before1]
  rw [show (dat8 V c).owesAt () t.succ = (dat8 V c).owesAt () t.castSucc from rfl, dat8_after0, dat8_after1, dat8_Φ, dat8_Φ,
    show (t.succ : Fin (cfg8.N + 1)).val = t.val + 1 from rfl, show (t.castSucc : Fin (cfg8.N + 1)).val = t.val from rfl]
  show _ ⊢ wp frame (wpE (defs₀ (F := F)) Variants.none c none) Set.univ (bodyAt8 t) (fun _ =>
        iprop(iprop(owns (c : Thread nD τ) accM8 fullShare (acc8 V c t.val) ∗ Pipeline.scopedRestBut (Ix := Unit) (Name := ℕ) (U := UR sig nD τ) (Lvl := ℕ) (Val := Elt F) spec8 c [cc8_scratch0]) ∗ (dat8 V c).owesAt () t.castSucc
          ∗ owns (c : Thread nD τ) (st8_0 t) fullShare (blk8 V c 0 t)
          ∗ owns (c : Thread nD τ) (st8_1 t) fullShare (blk8 V c 1 t)
          ∗ (∃ d, owns (c : Thread nD τ) (st8_2 t) fullShare ((dat8 V c).before 2 t d))))
  rw [bodyAt8_eq]
  by_cases hA : t.val % 4 = 0
  · have hr : cond_reset2 (grid8.coords t) = 1#1 := (cond_reset_iff2 t).mpr hA
    rw [acc8_reset V c t hA]
    iintro ⟨HΦ, Ho, ⟨%d0, H0⟩, ⟨%d1, H1⟩, ⟨%d2, H2⟩⟩
    ihave HΦ' := (carried_any8 V c t.val) $$ HΦ
    icases HΦ' with ⟨Hs, HR⟩
    iapply (runA2 c Set.univ _ _ _ _ _ _ _ _ _ hr hf (blk8 V c 0 t) (blk8 V c 1 t) ((dat8 V c).before 2 t d2) _)
    isplitl [H0]; · iexact H0
    isplitl [H1]; · iexact H1
    isplitl [H2]; · iexact H2
    isplitl [Hs]; · iexact Hs
    iintro ⟨H0, H1, H2, Hs⟩
    isplitl [Hs HR]
    · isplitl [Hs]; · iexact Hs
      iexact HR
    isplitl [Ho]; · iexact Ho
    isplitl [H0]; · iexact H0
    isplitl [H1]; · iexact H1
    iexists d2; iexact H2
  · have hr : ¬ cond_reset2 (grid8.coords t) = 1#1 := fun h => hA ((cond_reset_iff2 t).mp h)
    rw [acc8_step V c t hA, carried_pos8 V c t.val (fun h => hA (by rw [h]))]
    iintro ⟨⟨Hs, HR⟩, Ho, ⟨%d0, H0⟩, ⟨%d1, H1⟩, ⟨%d2, H2⟩⟩
    iapply (runB2 c Set.univ _ _ _ _ _ _ _ _ _ hr hf (blk8 V c 0 t) (blk8 V c 1 t) ((dat8 V c).before 2 t d2) (acc8 V c (t.val - 1)) _)
    isplitl [H0]; · iexact H0
    isplitl [H1]; · iexact H1
    isplitl [H2]; · iexact H2
    isplitl [Hs]; · iexact Hs
    iintro ⟨H0, H1, H2, Hs⟩
    isplitl [Hs HR]
    · isplitl [Hs]; · iexact Hs
      iexact HR
    isplitl [Ho]; · iexact Ho
    isplitl [H0]; · iexact H0
    isplitl [H1]; · iexact H1
    iexists d2; iexact H2

theorem bodyFlush8 (c : Dev nD) (t : Fin cfg8.N) (hC : t.val % 4 = 3) :
    iprop((dat8 V c).Φ t.castSucc ∗ (dat8 V c).owesAt () t.castSucc
        ∗ (∃ d, owns (c : Thread nD τ) (st8_0 t) fullShare ((dat8 V c).before 0 t d))
        ∗ (∃ d, owns (c : Thread nD τ) (st8_1 t) fullShare ((dat8 V c).before 1 t d))
        ∗ (∃ d, owns (c : Thread nD τ) (st8_2 t) fullShare ((dat8 V c).before 2 t d)))
      ⊢ wp frame (wpE (defs₀ (F := F)) Variants.none c none) Set.univ (bodyAt8 t) (fun _ =>
        iprop((dat8 V c).Φ t.succ ∗ (dat8 V c).owesAt () t.succ
          ∗ owns (c : Thread nD τ) (st8_0 t) fullShare ((dat8 V c).after 0 t)
          ∗ owns (c : Thread nD τ) (st8_1 t) fullShare ((dat8 V c).after 1 t)
          ∗ owns (c : Thread nD τ) (st8_2 t) fullShare ((dat8 V c).after 2 t))) := by
  have hA : ¬ t.val % 4 = 0 := by omega
  have hf : k2_cond2 (grid8.coords t) = 1#1 := (cond_flush_iff2 t).mpr hC
  have hr : ¬ cond_reset2 (grid8.coords t) = 1#1 := fun h => hA ((cond_reset_iff2 t).mp h)
  simp only [dat8_before0, dat8_before1]
  rw [show (dat8 V c).owesAt () t.succ = (dat8 V c).owesAt () t.castSucc from rfl, dat8_after0, dat8_after1, dat8_after2, dat8_Φ, dat8_Φ,
    show (t.succ : Fin (cfg8.N + 1)).val = t.val + 1 from rfl, show (t.castSucc : Fin (cfg8.N + 1)).val = t.val from rfl]
  show _ ⊢ wp frame (wpE (defs₀ (F := F)) Variants.none c none) Set.univ (bodyAt8 t) (fun _ =>
        iprop(iprop(owns (c : Thread nD τ) accM8 fullShare (acc8 V c t.val) ∗ Pipeline.scopedRestBut (Ix := Unit) (Name := ℕ) (U := UR sig nD τ) (Lvl := ℕ) (Val := Elt F) spec8 c [cc8_scratch0]) ∗ (dat8 V c).owesAt () t.castSucc
          ∗ owns (c : Thread nD τ) (st8_0 t) fullShare (blk8 V c 0 t)
          ∗ owns (c : Thread nD τ) (st8_1 t) fullShare (blk8 V c 1 t)
          ∗ owns (c : Thread nD τ) (st8_2 t) fullShare (k2_pay3 (acc8 V c t.val))))
  rw [bodyAt8_eq]
  rw [acc8_step V c t hA, carried_pos8 V c t.val (fun h => hA (by rw [h]))]
  iintro ⟨⟨Hs, HR⟩, Ho, ⟨%d0, H0⟩, ⟨%d1, H1⟩, ⟨%d2, H2⟩⟩
  iapply (runC2 c Set.univ _ _ _ _ _ _ _ _ _ hr hf (blk8 V c 0 t) (blk8 V c 1 t) (acc8 V c (t.val - 1)) _)
  isplitl [H0]; · iexact H0
  isplitl [H1]; · iexact H1
  isplitl [H2]; · iexists _; iexact H2
  isplitl [Hs]; · iexact Hs
  iintro ⟨H0, H1, H2, Hs⟩
  isplitl [Hs HR]
  · isplitl [Hs]; · iexact Hs
    iexact HR
  isplitl [Ho]; · iexact Ho
  isplitl [H0]; · iexact H0
  isplitl [H1]; · iexact H1
  iexact H2

theorem body8 (c : Dev nD) : BodyObligation (dat8 (F := F) V c) (defs₀ (F := F)) Variants.none () Set.univ := fun t => by
  rw [bigSep_W8, bigSep_W8]
  by_cases hC : t.val % 4 = 3
  · have hidle : cfg8.idle 2 (cfg8.grid.coords t) = false := by
      show (!(k2_cond2 (cfg8.grid.coords t) == 1#1)) = false
      rw [beq_iff_eq.mpr ((cond_flush_iff2 t).mpr hC)]; rfl
    rw [hidle]
    exact bodyFlush8 V c t hC
  · have hidle : cfg8.idle 2 (cfg8.grid.coords t) = true := by
      show (!(k2_cond2 (cfg8.grid.coords t) == 1#1)) = true
      rw [beq_false_of_ne (fun h => hC ((cond_flush_iff2 t).mp h))]; rfl
    have hfl : (cfg8.win 2).flush t = false := Bool.eq_false_iff.mpr (fun h => hC ((flush8_2 t).mp h))
    rw [hidle, hfl]
    exact bodyIdle8 V c t hC

/-- After the last write-back the output array holds one diffusion step of the two arrays the region reads. -/
theorem val8 (V' : (c : Dev nD) → (b : Ref sig .tc) → Buf (Elt Ideal) ((c : Thread nD τ).loc b)) (c : Dev nD) :
    (dat8 (F := Ideal) V' c).arrAt 2 cfg8.N
      = Cert.Spec.diffuse (V' c (Pipeline.arrRef spec8 0)) (V' c (Pipeline.arrRef spec8 1)) :=
  (dat8 (F := Ideal) V' c).arrAt_eq_of_cover 2 _
    (fun t hf => by
      show (cfg8.win 2).cut (grid8.coords t) ((dat8 V' c).after 2 t) = _
      rw [dat8_after2]
      exact flushed_eq _ _ (acc8 V' c) (fun t h => acc8_reset V' c t h) (fun t h => acc8_step V' c t h) t ((flush8_2 t).mp hf))
    cover2

end Cert.KernelIdeal.Hand

end
-- ==== Proof.KI.R9.lean ====
import proofs.«137169_j48112223650339_1_alg».proof.Proof.Gen.KernelIdeal.Launch
import proofs.«137169_j48112223650339_1_alg».proof.Proof.Gen.KernelIdeal.Skeleton
import proofs.«137169_j48112223650339_1_alg».proof.Proof.Gen.KernelIdeal.Points
import proofs.«137169_j48112223650339_1_alg».proof.Proof.KI.R2
import proofs.«137169_j48112223650339_1_alg».proof.Proof.KI.R2Val
import Idealize.ShloMosaic.Lib.Pipeline.FrameBody
import Idealize.ShloMosaic.Lib.Pipeline.Frame
import Idealize.ShloMosaic.Lib.Pipeline.Value
import Idealize.ShloMosaic.Lib.Tactic

/-! A diffusion step like region 2: the same body on other buffers (`bodyAt9_eq`), so region 2's payloads, its three body
  theorems and its value lemma serve, and only the bookkeeping over this region's own buffers is written again. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (V : (c : Dev nD) → (b : Ref sig .tc) → Buf (Elt F) ((c : Thread nD τ).loc b))

def blk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

def acc9 (c : Dev nD) : ℕ → Vec F S2048x64 .f32
  | 0 => if h : 0 < cfg9.N then k2_pay2 (blk9 V c 0 ⟨0, h⟩) (blk9 V c 1 ⟨0, h⟩) (k2_pay1 (F := F)) else k2_pay1 (F := F)
  | m + 1 =>
    if h : m + 1 < cfg9.N then
      k2_pay2 (blk9 V c 0 ⟨m + 1, h⟩) (blk9 V c 1 ⟨m + 1, h⟩) (if (m + 1) % 4 = 0 then k2_pay1 (F := F) else acc9 c m)
    else k2_pay1 (F := F)

theorem acc9_reset (c : Dev nD) (t : Fin cfg9.N) (h : t.val % 4 = 0) :
    acc9 V c t.val = k2_pay2 (blk9 V c 0 t) (blk9 V c 1 t) (k2_pay1 (F := F)) := by
  obtain ⟨n, hn⟩ := t
  cases n with
  | zero => show acc9 V c 0 = _; rw [acc9, dif_pos hn]
  | succ m => show acc9 V c (m + 1) = _; rw [acc9, dif_pos hn, if_pos h]

theorem acc9_step (c : Dev nD) (t : Fin cfg9.N) (h : t.val % 4 ≠ 0) :
    acc9 V c t.val = k2_pay2 (blk9 V c 0 t) (blk9 V c 1 t) (acc9 V c (t.val - 1)) := by
  obtain ⟨n, hn⟩ := t
  cases n with
  | zero => exact absurd rfl h
  | succ m => show acc9 V c (m + 1) = _; rw [acc9, dif_pos hn, if_neg h]; rfl

abbrev accM9 : Memref sig .tc .vmem S2048x64 .f32 := Memref.whole cc9_scratch0

/-- The region runs region 2's body. -/
theorem bodyAt9_eq (t : Fin cfg9.N) :
    bodyAt9 (F := F) t = cc2__diffuse_kernel (grid9.coords t) (st9_0 t) (Facts₀.hstage9_0 ((cfg9.slots t 0).cast Facts₀.nbuf9_0))
      (st9_1 t) (Facts₀.hstage9_1 ((cfg9.slots t 1).cast Facts₀.nbuf9_1)) (st9_2 t) (Facts₀.hstage9_2 ((cfg9.slots t 2).cast Facts₀.nbuf9_2))
      accM9 (Memref.isWhole_whole _) := rfl

def carried9 (c : Dev nD) : ℕ → sProp 𝕄
  | 0 => iprop((∃ s, owns (c : Thread nD τ) accM9 fullShare s) ∗ Pipeline.scopedRestBut (Ix := Unit) (Name := ℕ) (U := UR sig nD τ) (Lvl := ℕ) (Val := Elt F) spec9 c [cc9_scratch0])
  | m + 1 => iprop(owns (c : Thread nD τ) accM9 fullShare (acc9 V c m) ∗ Pipeline.scopedRestBut (Ix := Unit) (Name := ℕ) (U := UR sig nD τ) (Lvl := ℕ) (Val := Elt F) spec9 c [cc9_scratch0])

theorem carried_any9 (c : Dev nD) (n : ℕ) :
    carried9 V c n ⊢ iprop((∃ s, owns (c : Thread nD τ) accM9 fullShare s) ∗ Pipeline.scopedRestBut (Ix := Unit) (Name := ℕ) (U := UR sig nD τ) (Lvl := ℕ) (Val := Elt F) spec9 c [cc9_scratch0]) := by
  cases n with
  | zero => exact .rfl
  | succ m =>
    show iprop(owns (c : Thread nD τ) accM9 fullShare (acc9 V c m) ∗ Pipeline.scopedRestBut (Ix := Unit) (Name := ℕ) (U := UR sig nD τ) (Lvl := ℕ) (Val := Elt F) spec9 c [cc9_scratch0]) ⊢ _
    iintro ⟨H, HR⟩
    isplitl [H]
    · iexists _; iexact H
    iexact HR

theorem carried_pos9 (c : Dev nD) (n : ℕ) (h : n ≠ 0) :
    carried9 V c n = iprop(owns (c : Thread nD τ) accM9 fullShare (acc9 V c (n - 1)) ∗ Pipeline.scopedRestBut (Ix := Unit) (Name := ℕ) (U := UR sig nD τ) (Lvl := ℕ) (Val := Elt F) spec9 c [cc9_scratch0]) := by
  cases n with
  | zero => exact absurd rfl h
  | succ m => rfl

def dat9 (c : Dev nD) : Dat τ (Elt F) Unit ℕ (UR sig nD τ) ℕ cfg9 c where
  A w := V c (Pipeline.arrRef spec9 w)
  after w t := match w with
    | ⟨0, _⟩ => blk9 V c 0 t
    | ⟨1, _⟩ => blk9 V c 1 t
    | ⟨2, _⟩ => k2_pay3 (acc9 V c t.val)
  Φ n := carried9 V c n.val
  q _ := fullShare
  owed _ := 0

theorem dat9_A (c : Dev nD) (w : Fin cfg9.W) : (dat9 V c).A w = V c (Pipeline.arrRef spec9 w) := by dsimp only [dat9]
theorem dat9_after0 (c : Dev nD) (t : Fin cfg9.N) : (dat9 V c).after 0 t = blk9 V c 0 t := by dsimp only [dat9]
theorem dat9_after1 (c : Dev nD) (t : Fin cfg9.N) : (dat9 V c).after 1 t = blk9 V c 1 t := by dsimp only [dat9]
theorem dat9_after2 (c : Dev nD) (t : Fin cfg9.N) : (dat9 V c).after 2 t = k2_pay3 (acc9 V c t.val) := by dsimp only [dat9]
theorem dat9_Φ (c : Dev nD) (n : Fin (cfg9.N + 1)) : (dat9 V c).Φ n = carried9 V c n.val := by dsimp only [dat9]

theorem dat9_before0 (c : Dev nD) (t : Fin cfg9.N) (d) : (dat9 V c).before 0 t d = blk9 V c 0 t :=
  ((dat9 V c).before_in_eq_fetched 0 rfl (fun _ => rfl) (fun _ _ _ => rfl)
      (fun t => by rw [dat9_after0]; unfold Dat.blockOf blk9; rw [dat9_A]; try rfl) t d).trans
    (by unfold Dat.fetched Dat.blockOf blk9; rw [dat9_A]; try rfl)
theorem dat9_before1 (c : Dev nD) (t : Fin cfg9.N) (d) : (dat9 V c).before 1 t d = blk9 V c 1 t :=
  ((dat9 V c).before_in_eq_fetched 1 rfl (fun _ => rfl) (fun _ _ _ => rfl)
      (fun t => by rw [dat9_after1]; unfold Dat.blockOf blk9; rw [dat9_A]; try rfl) t d).trans
    (by unfold Dat.fetched Dat.blockOf blk9; rw [dat9_A]; try rfl)

theorem Φ9_first (c : Dev nD) : (Pipeline.scopedRest (Ix := Unit) (Name := ℕ) (U := UR sig nD τ) (Lvl := ℕ) (Val := Elt F) spec9 c : sProp 𝕄) ⊢ (dat9 V c).Φ 0 := by
  rw [scopedRest9_split, dat9_Φ]
  show _ ⊢ carried9 V c 0
  unfold carried9
  iintro ⟨⟨%f, H⟩, HR⟩
  isplitl [H]
  · iexists f; rw [owns_whole]; iexact H
  iexact HR

theorem Φ9_last (c : Dev nD) : (dat9 V c).Φ (Fin.last cfg9.N) ⊢ (Pipeline.scopedRest (Ix := Unit) (Name := ℕ) (U := UR sig nD τ) (Lvl := ℕ) (Val := Elt F) spec9 c : sProp 𝕄) := by
  rw [scopedRest9_split, dat9_Φ]
  refine (carried_any9 V c _).trans ?_
  simp only [owns_whole]
  exact .rfl

theorem bodyIdle9 (c : Dev nD) (t : Fin cfg9.N) (hC : ¬ t.val % 4 = 3) :
    iprop((dat9 V c).Φ t.castSucc ∗ (dat9 V c).owesAt () t.castSucc
        ∗ (∃ d, owns (c : Thread nD τ) (st9_0 t) fullShare ((dat9 V c).before 0 t d))
        ∗ (∃ d, owns (c : Thread nD τ) (st9_1 t) fullShare ((dat9 V c).before 1 t d))
        ∗ (∃ d, owns (c : Thread nD τ) (st9_2 t) fullShare ((dat9 V c).before 2 t d)))
      ⊢ wp frame (wpE (defs₀ (F := F)) Variants.none c none) Set.univ (bodyAt9 t) (fun _ =>
        iprop((dat9 V c).Φ t.succ ∗ (dat9 V c).owesAt () t.succ
          ∗ owns (c : Thread nD τ) (st9_0 t) fullShare ((dat9 V c).after 0 t)
          ∗ owns (c : Thread nD τ) (st9_1 t) fullShare ((dat9 V c).after 1 t)
          ∗ (∃ d, owns (c : Thread nD τ) (st9_2 t) fullShare ((dat9 V c).before 2 t d)))) := by
  have hf : ¬ k2_cond2 (grid9.coords t) = 1#1 := fun h => hC ((cond_flush_iff2 t).mp h)
  simp only [dat9_before0, dat9_before1]
  rw [show (dat9 V c).owesAt () t.succ = (dat9 V c).owesAt () t.castSucc from rfl, dat9_after0, dat9_after1, dat9_Φ, dat9_Φ,
    show (t.succ : Fin (cfg9.N + 1)).val = t.val + 1 from rfl, show (t.castSucc : Fin (cfg9.N + 1)).val = t.val from rfl]
  show _ ⊢ wp frame (wpE (defs₀ (F := F)) Variants.none c none) Set.univ (bodyAt9 t) (fun _ =>
        iprop(iprop(owns (c : Thread nD τ) accM9 fullShare (acc9 V c t.val) ∗ Pipeline.scopedRestBut (Ix := Unit) (Name := ℕ) (U := UR sig nD τ) (Lvl := ℕ) (Val := Elt F) spec9 c [cc9_scratch0]) ∗ (dat9 V c).owesAt () t.castSucc
          ∗ owns (c : Thread nD τ) (st9_0 t) fullShare (blk9 V c 0 t)
          ∗ owns (c : Thread nD τ) (st9_1 t) fullShare (blk9 V c 1 t)
          ∗ (∃ d, owns (c : Thread nD τ) (st9_2 t) fullShare ((dat9 V c).before 2 t d))))
  rw [bodyAt9_eq]
  by_cases hA : t.val % 4 = 0
  · have hr : cond_reset2 (grid9.coords t) = 1#1 := (cond_reset_iff2 t).mpr hA
    rw [acc9_reset V c t hA]
    iintro ⟨HΦ, Ho, ⟨%d0, H0⟩, ⟨%d1, H1⟩, ⟨%d2, H2⟩⟩
    ihave HΦ' := (carried_any9 V c t.val) $$ HΦ
    icases HΦ' with ⟨Hs, HR⟩
    iapply (runA2 c Set.univ _ _ _ _ _ _ _ _ _ hr hf (blk9 V c 0 t) (blk9 V c 1 t) ((dat9 V c).before 2 t d2) _)
    isplitl [H0]; · iexact H0
    isplitl [H1]; · iexact H1
    isplitl [H2]; · iexact H2
    isplitl [Hs]; · iexact Hs
    iintro ⟨H0, H1, H2, Hs⟩
    isplitl [Hs HR]
    · isplitl [Hs]; · iexact Hs
      iexact HR
    isplitl [Ho]; · iexact Ho
    isplitl [H0]; · iexact H0
    isplitl [H1]; · iexact H1
    iexists d2; iexact H2
  · have hr : ¬ cond_reset2 (grid9.coords t) = 1#1 := fun h => hA ((cond_reset_iff2 t).mp h)
    rw [acc9_step V c t hA, carried_pos9 V c t.val (fun h => hA (by rw [h]))]
    iintro ⟨⟨Hs, HR⟩, Ho, ⟨%d0, H0⟩, ⟨%d1, H1⟩, ⟨%d2, H2⟩⟩
    iapply (runB2 c Set.univ _ _ _ _ _ _ _ _ _ hr hf (blk9 V c 0 t) (blk9 V c 1 t) ((dat9 V c).before 2 t d2) (acc9 V c (t.val - 1)) _)
    isplitl [H0]; · iexact H0
    isplitl [H1]; · iexact H1
    isplitl [H2]; · iexact H2
    isplitl [Hs]; · iexact Hs
    iintro ⟨H0, H1, H2, Hs⟩
    isplitl [Hs HR]
    · isplitl [Hs]; · iexact Hs
      iexact HR
    isplitl [Ho]; · iexact Ho
    isplitl [H0]; · iexact H0
    isplitl [H1]; · iexact H1
    iexists d2; iexact H2

theorem bodyFlush9 (c : Dev nD) (t : Fin cfg9.N) (hC : t.val % 4 = 3) :
    iprop((dat9 V c).Φ t.castSucc ∗ (dat9 V c).owesAt () t.castSucc
        ∗ (∃ d, owns (c : Thread nD τ) (st9_0 t) fullShare ((dat9 V c).before 0 t d))
        ∗ (∃ d, owns (c : Thread nD τ) (st9_1 t) fullShare ((dat9 V c).before 1 t d))
        ∗ (∃ d, owns (c : Thread nD τ) (st9_2 t) fullShare ((dat9 V c).before 2 t d)))
      ⊢ wp frame (wpE (defs₀ (F := F)) Variants.none c none) Set.univ (bodyAt9 t) (fun _ =>
        iprop((dat9 V c).Φ t.succ ∗ (dat9 V c).owesAt () t.succ
          ∗ owns (c : Thread nD τ) (st9_0 t) fullShare ((dat9 V c).after 0 t)
          ∗ owns (c : Thread nD τ) (st9_1 t) fullShare ((dat9 V c).after 1 t)
          ∗ owns (c : Thread nD τ) (st9_2 t) fullShare ((dat9 V c).after 2 t))) := by
  have hA : ¬ t.val % 4 = 0 := by omega
  have hf : k2_cond2 (grid9.coords t) = 1#1 := (cond_flush_iff2 t).mpr hC
  have hr : ¬ cond_reset2 (grid9.coords t) = 1#1 := fun h => hA ((cond_reset_iff2 t).mp h)
  simp only [dat9_before0, dat9_before1]
  rw [show (dat9 V c).owesAt () t.succ = (dat9 V c).owesAt () t.castSucc from rfl, dat9_after0, dat9_after1, dat9_after2, dat9_Φ, dat9_Φ,
    show (t.succ : Fin (cfg9.N + 1)).val = t.val + 1 from rfl, show (t.castSucc : Fin (cfg9.N + 1)).val = t.val from rfl]
  show _ ⊢ wp frame (wpE (defs₀ (F := F)) Variants.none c none) Set.univ (bodyAt9 t) (fun _ =>
        iprop(iprop(owns (c : Thread nD τ) accM9 fullShare (acc9 V c t.val) ∗ Pipeline.scopedRestBut (Ix := Unit) (Name := ℕ) (U := UR sig nD τ) (Lvl := ℕ) (Val := Elt F) spec9 c [cc9_scratch0]) ∗ (dat9 V c).owesAt () t.castSucc
          ∗ owns (c : Thread nD τ) (st9_0 t) fullShare (blk9 V c 0 t)
          ∗ owns (c : Thread nD τ) (st9_1 t) fullShare (blk9 V c 1 t)
          ∗ owns (c : Thread nD τ) (st9_2 t) fullShare (k2_pay3 (acc9 V c t.val))))
  rw [bodyAt9_eq]
  rw [acc9_step V c t hA, carried_pos9 V c t.val (fun h => hA (by rw [h]))]
  iintro ⟨⟨Hs, HR⟩, Ho, ⟨%d0, H0⟩, ⟨%d1, H1⟩, ⟨%d2, H2⟩⟩
  iapply (runC2 c Set.univ _ _ _ _ _ _ _ _ _ hr hf (blk9 V c 0 t) (blk9 V c 1 t) (acc9 V c (t.val - 1)) _)
  isplitl [H0]; · iexact H0
  isplitl [H1]; · iexact H1
  isplitl [H2]; · iexists _; iexact H2
  isplitl [Hs]; · iexact Hs
  iintro ⟨H0, H1, H2, Hs⟩
  isplitl [Hs HR]
  · isplitl [Hs]; · iexact Hs
    iexact HR
  isplitl [Ho]; · iexact Ho
  isplitl [H0]; · iexact H0
  isplitl [H1]; · iexact H1
  iexact H2

theorem body9 (c : Dev nD) : BodyObligation (dat9 (F := F) V c) (defs₀ (F := F)) Variants.none () Set.univ := fun t => by
  rw [bigSep_W9, bigSep_W9]
  by_cases hC : t.val % 4 = 3
  · have hidle : cfg9.idle 2 (cfg9.grid.coords t) = false := by
      show (!(k2_cond2 (cfg9.grid.coords t) == 1#1)) = false
      rw [beq_iff_eq.mpr ((cond_flush_iff2 t).mpr hC)]; rfl
    rw [hidle]
    exact bodyFlush9 V c t hC
  · have hidle : cfg9.idle 2 (cfg9.grid.coords t) = true := by
      show (!(k2_cond2 (cfg9.grid.coords t) == 1#1)) = true
      rw [beq_false_of_ne (fun h => hC ((cond_flush_iff2 t).mp h))]; rfl
    have hfl : (cfg9.win 2).flush t = false := Bool.eq_false_iff.mpr (fun h => hC ((flush9_2 t).mp h))
    rw [hidle, hfl]
    exact bodyIdle9 V c t hC

/-- After the last write-back the output array holds one diffusion step of the two arrays the region reads. -/
theorem val9 (V' : (c : Dev nD) → (b : Ref sig .tc) → Buf (Elt Ideal) ((c : Thread nD τ).loc b)) (c : Dev nD) :
    (dat9 (F := Ideal) V' c).arrAt 2 cfg9.N
      = Cert.Spec.diffuse (V' c (Pipeline.arrRef spec9 0)) (V' c (Pipeline.arrRef spec9 1)) :=
  (dat9 (F := Ideal) V' c).arrAt_eq_of_cover 2 _
    (fun t hf => by
      show (cfg9.win 2).cut (grid9.coords t) ((dat9 V' c).after 2 t) = _
      rw [dat9_after2]
      exact flushed_eq _ _ (acc9 V' c) (fun t h => acc9_reset V' c t h) (fun t h => acc9_step V' c t h) t ((flush9_2 t).mp hf))
    cover2

end Cert.KernelIdeal.Hand

end
-- ==== Proof.KI.R10.lean ====
import proofs.«137169_j48112223650339_1_alg».proof.Proof.Gen.KernelIdeal.Launch
import proofs.«137169_j48112223650339_1_alg».proof.Proof.Gen.KernelIdeal.Skeleton
import proofs.«137169_j48112223650339_1_alg».proof.Proof.Gen.KernelIdeal.Points
import proofs.«137169_j48112223650339_1_alg».proof.Proof.KI.R2
import proofs.«137169_j48112223650339_1_alg».proof.Proof.KI.R2Val
import Idealize.ShloMosaic.Lib.Pipeline.FrameBody
import Idealize.ShloMosaic.Lib.Pipeline.Frame
import Idealize.ShloMosaic.Lib.Pipeline.Value
import Idealize.ShloMosaic.Lib.Tactic

/-! A diffusion step like region 2: the same body on other buffers (`bodyAt10_eq`), so region 2's payloads, its three body
  theorems and its value lemma serve, and only the bookkeeping over this region's own buffers is written again. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (V : (c : Dev nD) → (b : Ref sig .tc) → Buf (Elt F) ((c : Thread nD τ).loc b))

def blk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

def acc10 (c : Dev nD) : ℕ → Vec F S2048x64 .f32
  | 0 => if h : 0 < cfg10.N then k2_pay2 (blk10 V c 0 ⟨0, h⟩) (blk10 V c 1 ⟨0, h⟩) (k2_pay1 (F := F)) else k2_pay1 (F := F)
  | m + 1 =>
    if h : m + 1 < cfg10.N then
      k2_pay2 (blk10 V c 0 ⟨m + 1, h⟩) (blk10 V c 1 ⟨m + 1, h⟩) (if (m + 1) % 4 = 0 then k2_pay1 (F := F) else acc10 c m)
    else k2_pay1 (F := F)

theorem acc10_reset (c : Dev nD) (t : Fin cfg10.N) (h : t.val % 4 = 0) :
    acc10 V c t.val = k2_pay2 (blk10 V c 0 t) (blk10 V c 1 t) (k2_pay1 (F := F)) := by
  obtain ⟨n, hn⟩ := t
  cases n with
  | zero => show acc10 V c 0 = _; rw [acc10, dif_pos hn]
  | succ m => show acc10 V c (m + 1) = _; rw [acc10, dif_pos hn, if_pos h]

theorem acc10_step (c : Dev nD) (t : Fin cfg10.N) (h : t.val % 4 ≠ 0) :
    acc10 V c t.val = k2_pay2 (blk10 V c 0 t) (blk10 V c 1 t) (acc10 V c (t.val - 1)) := by
  obtain ⟨n, hn⟩ := t
  cases n with
  | zero => exact absurd rfl h
  | succ m => show acc10 V c (m + 1) = _; rw [acc10, dif_pos hn, if_neg h]; rfl

abbrev accM10 : Memref sig .tc .vmem S2048x64 .f32 := Memref.whole cc10_scratch0

/-- The region runs region 2's body. -/
theorem bodyAt10_eq (t : Fin cfg10.N) :
    bodyAt10 (F := F) t = cc2__diffuse_kernel (grid10.coords t) (st10_0 t) (Facts₀.hstage10_0 ((cfg10.slots t 0).cast Facts₀.nbuf10_0))
      (st10_1 t) (Facts₀.hstage10_1 ((cfg10.slots t 1).cast Facts₀.nbuf10_1)) (st10_2 t) (Facts₀.hstage10_2 ((cfg10.slots t 2).cast Facts₀.nbuf10_2))
      accM10 (Memref.isWhole_whole _) := rfl

def carried10 (c : Dev nD) : ℕ → sProp 𝕄
  | 0 => iprop((∃ s, owns (c : Thread nD τ) accM10 fullShare s) ∗ Pipeline.scopedRestBut (Ix := Unit) (Name := ℕ) (U := UR sig nD τ) (Lvl := ℕ) (Val := Elt F) spec10 c [cc10_scratch0])
  | m + 1 => iprop(owns (c : Thread nD τ) accM10 fullShare (acc10 V c m) ∗ Pipeline.scopedRestBut (Ix := Unit) (Name := ℕ) (U := UR sig nD τ) (Lvl := ℕ) (Val := Elt F) spec10 c [cc10_scratch0])

theorem carried_any10 (c : Dev nD) (n : ℕ) :
    carried10 V c n ⊢ iprop((∃ s, owns (c : Thread nD τ) accM10 fullShare s) ∗ Pipeline.scopedRestBut (Ix := Unit) (Name := ℕ) (U := UR sig nD τ) (Lvl := ℕ) (Val := Elt F) spec10 c [cc10_scratch0]) := by
  cases n with
  | zero => exact .rfl
  | succ m =>
    show iprop(owns (c : Thread nD τ) accM10 fullShare (acc10 V c m) ∗ Pipeline.scopedRestBut (Ix := Unit) (Name := ℕ) (U := UR sig nD τ) (Lvl := ℕ) (Val := Elt F) spec10 c [cc10_scratch0]) ⊢ _
    iintro ⟨H, HR⟩
    isplitl [H]
    · iexists _; iexact H
    iexact HR

theorem carried_pos10 (c : Dev nD) (n : ℕ) (h : n ≠ 0) :
    carried10 V c n = iprop(owns (c : Thread nD τ) accM10 fullShare (acc10 V c (n - 1)) ∗ Pipeline.scopedRestBut (Ix := Unit) (Name := ℕ) (U := UR sig nD τ) (Lvl := ℕ) (Val := Elt F) spec10 c [cc10_scratch0]) := by
  cases n with
  | zero => exact absurd rfl h
  | succ m => rfl

def dat10 (c : Dev nD) : Dat τ (Elt F) Unit ℕ (UR sig nD τ) ℕ cfg10 c where
  A w := V c (Pipeline.arrRef spec10 w)
  after w t := match w with
    | ⟨0, _⟩ => blk10 V c 0 t
    | ⟨1, _⟩ => blk10 V c 1 t
    | ⟨2, _⟩ => k2_pay3 (acc10 V c t.val)
  Φ n := carried10 V c n.val
  q _ := fullShare
  owed _ := 0

theorem dat10_A (c : Dev nD) (w : Fin cfg10.W) : (dat10 V c).A w = V c (Pipeline.arrRef spec10 w) := by dsimp only [dat10]
theorem dat10_after0 (c : Dev nD) (t : Fin cfg10.N) : (dat10 V c).after 0 t = blk10 V c 0 t := by dsimp only [dat10]
theorem dat10_after1 (c : Dev nD) (t : Fin cfg10.N) : (dat10 V c).after 1 t = blk10 V c 1 t := by dsimp only [dat10]
theorem dat10_after2 (c : Dev nD) (t : Fin cfg10.N) : (dat10 V c).after 2 t = k2_pay3 (acc10 V c t.val) := by dsimp only [dat10]
theorem dat10_Φ (c : Dev nD) (n : Fin (cfg10.N + 1)) : (dat10 V c).Φ n = carried10 V c n.val := by dsimp only [dat10]

theorem dat10_before0 (c : Dev nD) (t : Fin cfg10.N) (d) : (dat10 V c).before 0 t d = blk10 V c 0 t :=
  ((dat10 V c).before_in_eq_fetched 0 rfl (fun _ => rfl) (fun _ _ _ => rfl)
      (fun t => by rw [dat10_after0]; unfold Dat.blockOf blk10; rw [dat10_A]; try rfl) t d).trans
    (by unfold Dat.fetched Dat.blockOf blk10; rw [dat10_A]; try rfl)
theorem dat10_before1 (c : Dev nD) (t : Fin cfg10.N) (d) : (dat10 V c).before 1 t d = blk10 V c 1 t :=
  ((dat10 V c).before_in_eq_fetched 1 rfl (fun _ => rfl) (fun _ _ _ => rfl)
      (fun t => by rw [dat10_after1]; unfold Dat.blockOf blk10; rw [dat10_A]; try rfl) t d).trans
    (by unfold Dat.fetched Dat.blockOf blk10; rw [dat10_A]; try rfl)

theorem Φ10_first (c : Dev nD) : (Pipeline.scopedRest (Ix := Unit) (Name := ℕ) (U := UR sig nD τ) (Lvl := ℕ) (Val := Elt F) spec10 c : sProp 𝕄) ⊢ (dat10 V c).Φ 0 := by
  rw [scopedRest10_split, dat10_Φ]
  show _ ⊢ carried10 V c 0
  unfold carried10
  iintro ⟨⟨%f, H⟩, HR⟩
  isplitl [H]
  · iexists f; rw [owns_whole]; iexact H
  iexact HR

theorem Φ10_last (c : Dev nD) : (dat10 V c).Φ (Fin.last cfg10.N) ⊢ (Pipeline.scopedRest (Ix := Unit) (Name := ℕ) (U := UR sig nD τ) (Lvl := ℕ) (Val := Elt F) spec10 c : sProp 𝕄) := by
  rw [scopedRest10_split, dat10_Φ]
  refine (carried_any10 V c _).trans ?_
  simp only [owns_whole]
  exact .rfl

theorem bodyIdle10 (c : Dev nD) (t : Fin cfg10.N) (hC : ¬ t.val % 4 = 3) :
    iprop((dat10 V c).Φ t.castSucc ∗ (dat10 V c).owesAt () t.castSucc
        ∗ (∃ d, owns (c : Thread nD τ) (st10_0 t) fullShare ((dat10 V c).before 0 t d))
        ∗ (∃ d, owns (c : Thread nD τ) (st10_1 t) fullShare ((dat10 V c).before 1 t d))
        ∗ (∃ d, owns (c : Thread nD τ) (st10_2 t) fullShare ((dat10 V c).before 2 t d)))
      ⊢ wp frame (wpE (defs₀ (F := F)) Variants.none c none) Set.univ (bodyAt10 t) (fun _ =>
        iprop((dat10 V c).Φ t.succ ∗ (dat10 V c).owesAt () t.succ
          ∗ owns (c : Thread nD τ) (st10_0 t) fullShare ((dat10 V c).after 0 t)
          ∗ owns (c : Thread nD τ) (st10_1 t) fullShare ((dat10 V c).after 1 t)
          ∗ (∃ d, owns (c : Thread nD τ) (st10_2 t) fullShare ((dat10 V c).before 2 t d)))) := by
  have hf : ¬ k2_cond2 (grid10.coords t) = 1#1 := fun h => hC ((cond_flush_iff2 t).mp h)
  simp only [dat10_before0, dat10_before1]
  rw [show (dat10 V c).owesAt () t.succ = (dat10 V c).owesAt () t.castSucc from rfl, dat10_after0, dat10_after1, dat10_Φ, dat10_Φ,
    show (t.succ : Fin (cfg10.N + 1)).val = t.val + 1 from rfl, show (t.castSucc : Fin (cfg10.N + 1)).val = t.val from rfl]
  show _ ⊢ wp frame (wpE (defs₀ (F := F)) Variants.none c none) Set.univ (bodyAt10 t) (fun _ =>
        iprop(iprop(owns (c : Thread nD τ) accM10 fullShare (acc10 V c t.val) ∗ Pipeline.scopedRestBut (Ix := Unit) (Name := ℕ) (U := UR sig nD τ) (Lvl := ℕ) (Val := Elt F) spec10 c [cc10_scratch0]) ∗ (dat10 V c).owesAt () t.castSucc
          ∗ owns (c : Thread nD τ) (st10_0 t) fullShare (blk10 V c 0 t)
          ∗ owns (c : Thread nD τ) (st10_1 t) fullShare (blk10 V c 1 t)
          ∗ (∃ d, owns (c : Thread nD τ) (st10_2 t) fullShare ((dat10 V c).before 2 t d))))
  rw [bodyAt10_eq]
  by_cases hA : t.val % 4 = 0
  · have hr : cond_reset2 (grid10.coords t) = 1#1 := (cond_reset_iff2 t).mpr hA
    rw [acc10_reset V c t hA]
    iintro ⟨HΦ, Ho, ⟨%d0, H0⟩, ⟨%d1, H1⟩, ⟨%d2, H2⟩⟩
    ihave HΦ' := (carried_any10 V c t.val) $$ HΦ
    icases HΦ' with ⟨Hs, HR⟩
    iapply (runA2 c Set.univ _ _ _ _ _ _ _ _ _ hr hf (blk10 V c 0 t) (blk10 V c 1 t) ((dat10 V c).before 2 t d2) _)
    isplitl [H0]; · iexact H0
    isplitl [H1]; · iexact H1
    isplitl [H2]; · iexact H2
    isplitl [Hs]; · iexact Hs
    iintro ⟨H0, H1, H2, Hs⟩
    isplitl [Hs HR]
    · isplitl [Hs]; · iexact Hs
      iexact HR
    isplitl [Ho]; · iexact Ho
    isplitl [H0]; · iexact H0
    isplitl [H1]; · iexact H1
    iexists d2; iexact H2
  · have hr : ¬ cond_reset2 (grid10.coords t) = 1#1 := fun h => hA ((cond_reset_iff2 t).mp h)
    rw [acc10_step V c t hA, carried_pos10 V c t.val (fun h => hA (by rw [h]))]
    iintro ⟨⟨Hs, HR⟩, Ho, ⟨%d0, H0⟩, ⟨%d1, H1⟩, ⟨%d2, H2⟩⟩
    iapply (runB2 c Set.univ _ _ _ _ _ _ _ _ _ hr hf (blk10 V c 0 t) (blk10 V c 1 t) ((dat10 V c).before 2 t d2) (acc10 V c (t.val - 1)) _)
    isplitl [H0]; · iexact H0
    isplitl [H1]; · iexact H1
    isplitl [H2]; · iexact H2
    isplitl [Hs]; · iexact Hs
    iintro ⟨H0, H1, H2, Hs⟩
    isplitl [Hs HR]
    · isplitl [Hs]; · iexact Hs
      iexact HR
    isplitl [Ho]; · iexact Ho
    isplitl [H0]; · iexact H0
    isplitl [H1]; · iexact H1
    iexists d2; iexact H2

theorem bodyFlush10 (c : Dev nD) (t : Fin cfg10.N) (hC : t.val % 4 = 3) :
    iprop((dat10 V c).Φ t.castSucc ∗ (dat10 V c).owesAt () t.castSucc
        ∗ (∃ d, owns (c : Thread nD τ) (st10_0 t) fullShare ((dat10 V c).before 0 t d))
        ∗ (∃ d, owns (c : Thread nD τ) (st10_1 t) fullShare ((dat10 V c).before 1 t d))
        ∗ (∃ d, owns (c : Thread nD τ) (st10_2 t) fullShare ((dat10 V c).before 2 t d)))
      ⊢ wp frame (wpE (defs₀ (F := F)) Variants.none c none) Set.univ (bodyAt10 t) (fun _ =>
        iprop((dat10 V c).Φ t.succ ∗ (dat10 V c).owesAt () t.succ
          ∗ owns (c : Thread nD τ) (st10_0 t) fullShare ((dat10 V c).after 0 t)
          ∗ owns (c : Thread nD τ) (st10_1 t) fullShare ((dat10 V c).after 1 t)
          ∗ owns (c : Thread nD τ) (st10_2 t) fullShare ((dat10 V c).after 2 t))) := by
  have hA : ¬ t.val % 4 = 0 := by omega
  have hf : k2_cond2 (grid10.coords t) = 1#1 := (cond_flush_iff2 t).mpr hC
  have hr : ¬ cond_reset2 (grid10.coords t) = 1#1 := fun h => hA ((cond_reset_iff2 t).mp h)
  simp only [dat10_before0, dat10_before1]
  rw [show (dat10 V c).owesAt () t.succ = (dat10 V c).owesAt () t.castSucc from rfl, dat10_after0, dat10_after1, dat10_after2, dat10_Φ, dat10_Φ,
    show (t.succ : Fin (cfg10.N + 1)).val = t.val + 1 from rfl, show (t.castSucc : Fin (cfg10.N + 1)).val = t.val from rfl]
  show _ ⊢ wp frame (wpE (defs₀ (F := F)) Variants.none c none) Set.univ (bodyAt10 t) (fun _ =>
        iprop(iprop(owns (c : Thread nD τ) accM10 fullShare (acc10 V c t.val) ∗ Pipeline.scopedRestBut (Ix := Unit) (Name := ℕ) (U := UR sig nD τ) (Lvl := ℕ) (Val := Elt F) spec10 c [cc10_scratch0]) ∗ (dat10 V c).owesAt () t.castSucc
          ∗ owns (c : Thread nD τ) (st10_0 t) fullShare (blk10 V c 0 t)
          ∗ owns (c : Thread nD τ) (st10_1 t) fullShare (blk10 V c 1 t)
          ∗ owns (c : Thread nD τ) (st10_2 t) fullShare (k2_pay3 (acc10 V c t.val))))
  rw [bodyAt10_eq]
  rw [acc10_step V c t hA, carried_pos10 V c t.val (fun h => hA (by rw [h]))]
  iintro ⟨⟨Hs, HR⟩, Ho, ⟨%d0, H0⟩, ⟨%d1, H1⟩, ⟨%d2, H2⟩⟩
  iapply (runC2 c Set.univ _ _ _ _ _ _ _ _ _ hr hf (blk10 V c 0 t) (blk10 V c 1 t) (acc10 V c (t.val - 1)) _)
  isplitl [H0]; · iexact H0
  isplitl [H1]; · iexact H1
  isplitl [H2]; · iexists _; iexact H2
  isplitl [Hs]; · iexact Hs
  iintro ⟨H0, H1, H2, Hs⟩
  isplitl [Hs HR]
  · isplitl [Hs]; · iexact Hs
    iexact HR
  isplitl [Ho]; · iexact Ho
  isplitl [H0]; · iexact H0
  isplitl [H1]; · iexact H1
  iexact H2

theorem body10 (c : Dev nD) : BodyObligation (dat10 (F := F) V c) (defs₀ (F := F)) Variants.none () Set.univ := fun t => by
  rw [bigSep_W10, bigSep_W10]
  by_cases hC : t.val % 4 = 3
  · have hidle : cfg10.idle 2 (cfg10.grid.coords t) = false := by
      show (!(k2_cond2 (cfg10.grid.coords t) == 1#1)) = false
      rw [beq_iff_eq.mpr ((cond_flush_iff2 t).mpr hC)]; rfl
    rw [hidle]
    exact bodyFlush10 V c t hC
  · have hidle : cfg10.idle 2 (cfg10.grid.coords t) = true := by
      show (!(k2_cond2 (cfg10.grid.coords t) == 1#1)) = true
      rw [beq_false_of_ne (fun h => hC ((cond_flush_iff2 t).mp h))]; rfl
    have hfl : (cfg10.win 2).flush t = false := Bool.eq_false_iff.mpr (fun h => hC ((flush10_2 t).mp h))
    rw [hidle, hfl]
    exact bodyIdle10 V c t hC

/-- After the last write-back the output array holds one diffusion step of the two arrays the region reads. -/
theorem val10 (V' : (c : Dev nD) → (b : Ref sig .tc) → Buf (Elt Ideal) ((c : Thread nD τ).loc b)) (c : Dev nD) :
    (dat10 (F := Ideal) V' c).arrAt 2 cfg10.N
      = Cert.Spec.diffuse (V' c (Pipeline.arrRef spec10 0)) (V' c (Pipeline.arrRef spec10 1)) :=
  (dat10 (F := Ideal) V' c).arrAt_eq_of_cover 2 _
    (fun t hf => by
      show (cfg10.win 2).cut (grid10.coords t) ((dat10 V' c).after 2 t) = _
      rw [dat10_after2]
      exact flushed_eq _ _ (acc10 V' c) (fun t h => acc10_reset V' c t h) (fun t h => acc10_step V' c t h) t ((flush10_2 t).mp hf))
    cover2

end Cert.KernelIdeal.Hand

end
-- ==== Proof.KI.R11.lean ====
import proofs.«137169_j48112223650339_1_alg».proof.Proof.Gen.KernelIdeal.Launch
import proofs.«137169_j48112223650339_1_alg».proof.Proof.Gen.KernelIdeal.Skeleton
import proofs.«137169_j48112223650339_1_alg».proof.Proof.Gen.KernelIdeal.Points
import Idealize.ShloMosaic.Lib.Pipeline.FrameBody
import Idealize.ShloMosaic.Lib.Pipeline.Frame
import Idealize.ShloMosaic.Lib.Tactic

/-! Region 11: the readout with a residual, a block of rows against the rows of the layer's weight matrix, plus the bias row, plus the block itself. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def blk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

abbrev whole11_0 : Rect S1x1024x64 := Rect.unit (s := S1x1024x64) ![0, 0, 0] S1x1024x64.size inb_S1x1024x64_S1x1024x64_0_0_0

abbrev whole11_1 : Rect S64x64 := Rect.unit (s := S64x64) ![0, 0] S64x64.size inb_S64x64_S64x64_0_0

abbrev whole11_2 : Rect S1x64 := Rect.unit (s := S1x64) ![0, 0] S1x64.size inb_S1x64_S1x64_0_0

def out11 (d : Vec F S1x1024x64 .f32) (w : Vec F S64x64 .f32) (b : Vec F S1x64 .f32) : Vec F S1x1024x64 .f32 :=
  View.canon [⟨whole11_0, k11_pay1 (View.ld d whole11_0) (View.ld w whole11_1) (View.ld b whole11_2)⟩]

theorem out11_cover (p : Vec F S1x1024x64 .f32) (y : S1x1024x64.Idx) :
    ∃ pc ∈ ([⟨whole11_0, p⟩] : List (View.Piece (Elt F) S1x1024x64 .f32)), y ∈ pc.1.set :=
  View.cover_of_tiled [⟨whole11_0, p⟩] S1x1024x64.size (by rfl) y

set_option maxHeartbeats 1000000 in
theorem run11 (c : Dev nD) (E : Set ℕ) (i : grid11.Coords)
    (a0 : Memref sig .tc .vmem S1x1024x64 .f32) (h0 : a0.IsWhole) (a1 : Memref sig .tc .vmem S64x64 .f32) (h1 : a1.IsWhole)
    (a2 : Memref sig .tc .vmem S1x64 .f32) (h2 : a2.IsWhole) (a3 : Memref sig .tc .vmem S1x1024x64 .f32) (h3 : a3.IsWhole)
    (d : Vec F S1x1024x64 .f32) (w : Vec F S64x64 .f32) (b : Vec F S1x64 .f32) (K : PUnit → sProp 𝕄) :
    iprop(owns (c : Thread nD τ) a0 fullShare d ∗ owns (c : Thread nD τ) a1 fullShare w ∗ owns (c : Thread nD τ) a2 fullShare b
        ∗ (∃ o, owns (c : Thread nD τ) a3 fullShare o)
        ∗ (iprop(owns (c : Thread nD τ) a0 fullShare d ∗ owns (c : Thread nD τ) a1 fullShare w ∗ owns (c : Thread nD τ) a2 fullShare b
            ∗ owns (c : Thread nD τ) a3 fullShare (out11 d w b)) -∗ K ⟨⟩))
      ⊢ wp frame (wpE (defs₀ (F := F)) Variants.none c none) E (cc11__post_diffusion_kernel i a0 h0 a1 h1 a2 h2 a3 h3) K := by
  simp only [cc11__post_diffusion_kernel_eq_skeleton]; unfold cc11__post_diffusion_kernel_skel
  unfold owns
  iintro ⟨⟨%f0, %hf0, H0⟩, ⟨%f1, %hf1, H1⟩, ⟨%f2, %hf2, H2⟩, ⟨%o, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (out11_cover _)

def dat11 (c : Dev nD) : Dat τ (Elt F) Unit ℕ (UR sig nD τ) ℕ cfg11 c where
  A w := V c (Pipeline.arrRef spec11 w)
  after w t := match w with
    | ⟨0, _⟩ => blk11 V c 0 t
    | ⟨1, _⟩ => blk11 V c 1 t
    | ⟨2, _⟩ => blk11 V c 2 t
    | ⟨3, _⟩ => out11 (blk11 V c 0 t) (blk11 V c 1 t) (blk11 V c 2 t)
  Φ _ := Pipeline.scopedRest (Ix := Unit) (Name := ℕ) (U := UR sig nD τ) (Lvl := ℕ) (Val := Elt F) spec11 c
  q _ := fullShare
  owed _ := 0

theorem dat11_A (c : Dev nD) (w : Fin cfg11.W) : (dat11 V c).A w = V c (Pipeline.arrRef spec11 w) := by dsimp only [dat11]
theorem dat11_after0 (c : Dev nD) (t : Fin cfg11.N) : (dat11 V c).after 0 t = blk11 V c 0 t := by dsimp only [dat11]
theorem dat11_after1 (c : Dev nD) (t : Fin cfg11.N) : (dat11 V c).after 1 t = blk11 V c 1 t := by dsimp only [dat11]
theorem dat11_after2 (c : Dev nD) (t : Fin cfg11.N) : (dat11 V c).after 2 t = blk11 V c 2 t := by dsimp only [dat11]
theorem dat11_after3 (c : Dev nD) (t : Fin cfg11.N) :
    (dat11 V c).after 3 t = out11 (blk11 V c 0 t) (blk11 V c 1 t) (blk11 V c 2 t) := by dsimp only [dat11]

theorem dat11_before0 (c : Dev nD) (t : Fin cfg11.N) (d) : (dat11 V c).before 0 t d = blk11 V c 0 t :=
  ((dat11 V c).before_in_eq_fetched 0 rfl (fun _ => rfl) (fun _ _ _ => rfl)
      (fun t => by rw [dat11_after0]; unfold Dat.blockOf blk11; rw [dat11_A]; try rfl) t d).trans
    (by unfold Dat.fetched Dat.blockOf blk11; rw [dat11_A]; try rfl)

theorem dat11_before1 (c : Dev nD) (t : Fin cfg11.N) (d) : (dat11 V c).before 1 t d = blk11 V c 1 t :=
  ((dat11 V c).before_in_eq_fetched 1 rfl (fun _ => rfl) (fun _ _ _ => rfl)
      (fun t => by rw [dat11_after1]; unfold Dat.blockOf blk11; rw [dat11_A]; try rfl) t d).trans
    (by unfold Dat.fetched Dat.blockOf blk11; rw [dat11_A]; try rfl)

theorem dat11_before2 (c : Dev nD) (t : Fin cfg11.N) (d) : (dat11 V c).before 2 t d = blk11 V c 2 t :=
  ((dat11 V c).before_in_eq_fetched 2 rfl (fun _ => rfl) (fun _ _ _ => rfl)
      (fun t => by rw [dat11_after2]; unfold Dat.blockOf blk11; rw [dat11_A]; try rfl) t d).trans
    (by unfold Dat.fetched Dat.blockOf blk11; rw [dat11_A]; try rfl)

theorem body11 (c : Dev nD) : BodyObligation (dat11 (F := F) V c) (defs₀ (F := F)) Variants.none () Set.univ := fun t => by
  rw [bigSep_W11, bigSep_W11]
  show iprop((dat11 V c).Φ t.castSucc ∗ (dat11 V c).owesAt () t.castSucc
      ∗ (∃ d, owns (c : Thread nD τ) (st11_0 t) fullShare ((dat11 V c).before 0 t d))
      ∗ (∃ d, owns (c : Thread nD τ) (st11_1 t) fullShare ((dat11 V c).before 1 t d))
      ∗ (∃ d, owns (c : Thread nD τ) (st11_2 t) fullShare ((dat11 V c).before 2 t d))
      ∗ (∃ d, owns (c : Thread nD τ) (st11_3 t) fullShare ((dat11 V c).before 3 t d)))
    ⊢ wp frame (wpE (defs₀ (F := F)) Variants.none c none) Set.univ (bodyAt11 t) (fun _ =>
      iprop((dat11 V c).Φ t.succ ∗ (dat11 V c).owesAt () t.succ
        ∗ owns (c : Thread nD τ) (st11_0 t) fullShare ((dat11 V c).after 0 t)
        ∗ owns (c : Thread nD τ) (st11_1 t) fullShare ((dat11 V c).after 1 t)
        ∗ owns (c : Thread nD τ) (st11_2 t) fullShare ((dat11 V c).after 2 t)
        ∗ owns (c : Thread nD τ) (st11_3 t) fullShare ((dat11 V c).after 3 t)))
  simp only [dat11_before0, dat11_before1, dat11_before2]
  rw [show (dat11 V c).Φ t.succ = (dat11 V c).Φ t.castSucc from rfl,
    show (dat11 V c).owesAt () t.succ = (dat11 V c).owesAt () t.castSucc from rfl,
    dat11_after0, dat11_after1, dat11_after2, dat11_after3]
  iintro ⟨HΦ, Ho, ⟨%d0, H0⟩, ⟨%d1, H1⟩, ⟨%d2, H2⟩, ⟨%d3, H3⟩⟩
  iapply (run11 c Set.univ _ _ _ _ _ _ _ _ _ (blk11 V c 0 t) (blk11 V c 1 t) (blk11 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

end Cert.KernelIdeal.Hand

end
-- ==== Proof.KI.Chain.lean ====
import proofs.«137169_j48112223650339_1_alg».proof.Proof.Gen.KernelIdeal.Regions
import proofs.«137169_j48112223650339_1_alg».proof.Proof.KI.RunCond
import proofs.«137169_j48112223650339_1_alg».proof.Proof.KI.R0
import proofs.«137169_j48112223650339_1_alg».proof.Proof.KI.R1
import proofs.«137169_j48112223650339_1_alg».proof.Proof.KI.R2
import proofs.«137169_j48112223650339_1_alg».proof.Proof.KI.R3
import proofs.«137169_j48112223650339_1_alg».proof.Proof.KI.R4
import proofs.«137169_j48112223650339_1_alg».proof.Proof.KI.R5
import proofs.«137169_j48112223650339_1_alg».proof.Proof.KI.R6
import proofs.«137169_j48112223650339_1_alg».proof.Proof.KI.R7
import proofs.«137169_j48112223650339_1_alg».proof.Proof.KI.R8
import proofs.«137169_j48112223650339_1_alg».proof.Proof.KI.R9
import proofs.«137169_j48112223650339_1_alg».proof.Proof.KI.R10
import proofs.«137169_j48112223650339_1_alg».proof.Proof.KI.R11
import Idealize.ShloMosaic.Lib.Pipeline.RegionsLoop
import Idealize.ShloMosaic.Lib.Pipeline.Kit
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

abbrev rd (W : Dev nD → Valuation τ sig (Elt F)) : (c : Dev nD) → (b : Ref sig .tc) → Buf (Elt F) ((c : Thread nD τ).loc b) := fun c b => W c b

abbrev W0 : Dev nD → Valuation τ sig (Elt F) := fun c => Gen.V0 m c
def o1 (c : Dev nD) : Buf (Elt F) ((c : Thread nD τ).loc main_v0) := (dat0 (rd (W0 m)) c).arrAt 1 cfg0.N
abbrev W1 : Dev nD → Valuation τ sig (Elt F) := fun c => Function.update (W0 m c) main_v0 (o1 m c)
abbrev W2 : Dev nD → Valuation τ sig (Elt F) := fun c => StableHlo.after hostOps1 (W1 m c)
def o3 (c : Dev nD) : Buf (Elt F) ((c : Thread nD τ).loc main_v2) := (dat1 (rd (W2 m)) c).arrAt 3 cfg1.N
abbrev W3 : Dev nD → Valuation τ sig (Elt F) := fun c => Function.update (W2 m c) main_v2 (o3 m c)
def o4 (c : Dev nD) : Buf (Elt F) ((c : Thread nD τ).loc main_v3) := (dat2 (rd (W3 m)) c).arrAt 2 cfg2.N
abbrev W4 : Dev nD → Valuation τ sig (Elt F) := fun c => Function.update (W3 m c) main_v3 (o4 m c)
def o5 (c : Dev nD) : Buf (Elt F) ((c : Thread nD τ).loc main_v4) := (dat3 (rd (W4 m)) c).arrAt 2 cfg3.N
abbrev W5 : Dev nD → Valuation τ sig (Elt F) := fun c => Function.update (W4 m c) main_v4 (o5 m c)
def o6 (c : Dev nD) : Buf (Elt F) ((c : Thread nD τ).loc main_v5) := (dat4 (rd (W5 m)) c).arrAt 2 cfg4.N
abbrev W6 : Dev nD → Valuation τ sig (Elt F) := fun c => Function.update (W5 m c) main_v5 (o6 m c)
def o7 (c : Dev nD) : Buf (Elt F) ((c : Thread nD τ).loc main_v6) := (dat5 (rd (W6 m)) c).arrAt 2 cfg5.N
abbrev W7 : Dev nD → Valuation τ sig (Elt F) := fun c => Function.update (W6 m c) main_v6 (o7 m c)
abbrev W8 : Dev nD → Valuation τ sig (Elt F) := fun c => StableHlo.after hostOps6 (W7 m c)
def o9 (c : Dev nD) : Buf (Elt F) ((c : Thread nD τ).loc main_v12) := (dat6 (rd (W8 m)) c).arrAt 3 cfg6.N
abbrev W9 : Dev nD → Valuation τ sig (Elt F) := fun c => Function.update (W8 m c) main_v12 (o9 m c)
def o10 (c : Dev nD) : Buf (Elt F) ((c : Thread nD τ).loc main_v13) := (dat7 (rd (W9 m)) c).arrAt 2 cfg7.N
abbrev W10 : Dev nD → Valuation τ sig (Elt F) := fun c => Function.update (W9 m c) main_v13 (o10 m c)
def o11 (c : Dev nD) : Buf (Elt F) ((c : Thread nD τ).loc main_v14) := (dat8 (rd (W10 m)) c).arrAt 2 cfg8.N
abbrev W11 : Dev nD → Valuation τ sig (Elt F) := fun c => Function.update (W10 m c) main_v14 (o11 m c)
def o12 (c : Dev nD) : Buf (Elt F) ((c : Thread nD τ).loc main_v15) := (dat9 (rd (W11 m)) c).arrAt 2 cfg9.N
abbrev W12 : Dev nD → Valuation τ sig (Elt F) := fun c => Function.update (W11 m c) main_v15 (o12 m c)
def o13 (c : Dev nD) : Buf (Elt F) ((c : Thread nD τ).loc main_v16) := (dat10 (rd (W12 m)) c).arrAt 2 cfg10.N
abbrev W13 : Dev nD → Valuation τ sig (Elt F) := fun c => Function.update (W12 m c) main_v16 (o13 m c)
abbrev W14 : Dev nD → Valuation τ sig (Elt F) := fun c => StableHlo.after hostOps11 (W13 m c)
def o15 (c : Dev nD) : Buf (Elt F) ((c : Thread nD τ).loc main_v22) := (dat11 (rd (W14 m)) c).arrAt 3 cfg11.N
abbrev W15 : Dev nD → Valuation τ sig (Elt F) := fun c => Function.update (W14 m c) main_v22 (o15 m c)

def junkBuf (c : Dev nD) (r : Ref sig .tc) : Buf (Elt F) ((c : Thread nD τ).loc r) := fun _ => Classical.arbitrary _

def outs : Gen.Outs (F := F) := fun J r c =>
  match J with
  | 1 => if h : r = main_v0 then h ▸ o1 m c else junkBuf c r
  | 3 => if h : r = main_v2 then h ▸ o3 m c else junkBuf c r
  | 4 => if h : r = main_v3 then h ▸ o4 m c else junkBuf c r
  | 5 => if h : r = main_v4 then h ▸ o5 m c else junkBuf c r
  | 6 => if h : r = main_v5 then h ▸ o6 m c else junkBuf c r
  | 7 => if h : r = main_v6 then h ▸ o7 m c else junkBuf c r
  | 9 => if h : r = main_v12 then h ▸ o9 m c else junkBuf c r
  | 10 => if h : r = main_v13 then h ▸ o10 m c else junkBuf c r
  | 11 => if h : r = main_v14 then h ▸ o11 m c else junkBuf c r
  | 12 => if h : r = main_v15 then h ▸ o12 m c else junkBuf c r
  | 13 => if h : r = main_v16 then h ▸ o13 m c else junkBuf c r
  | 15 => if h : r = main_v22 then h ▸ o15 m c else junkBuf c r
  | _ => junkBuf c r

theorem outs_1 (c : Dev nD) : outs m 1 main_v0 c = o1 m c := by unfold outs; simp only [dite_true]
theorem outs_3 (c : Dev nD) : outs m 3 main_v2 c = o3 m c := by unfold outs; simp only [dite_true]
theorem outs_4 (c : Dev nD) : outs m 4 main_v3 c = o4 m c := by unfold outs; simp only [dite_true]
theorem outs_5 (c : Dev nD) : outs m 5 main_v4 c = o5 m c := by unfold outs; simp only [dite_true]
theorem outs_6 (c : Dev nD) : outs m 6 main_v5 c = o6 m c := by unfold outs; simp only [dite_true]
theorem outs_7 (c : Dev nD) : outs m 7 main_v6 c = o7 m c := by unfold outs; simp only [dite_true]
theorem outs_9 (c : Dev nD) : outs m 9 main_v12 c = o9 m c := by unfold outs; simp only [dite_true]
theorem outs_10 (c : Dev nD) : outs m 10 main_v13 c = o10 m c := by unfold outs; simp only [dite_true]
theorem outs_11 (c : Dev nD) : outs m 11 main_v14 c = o11 m c := by unfold outs; simp only [dite_true]
theorem outs_12 (c : Dev nD) : outs m 12 main_v15 c = o12 m c := by unfold outs; simp only [dite_true]
theorem outs_13 (c : Dev nD) : outs m 13 main_v16 c = o13 m c := by unfold outs; simp only [dite_true]
theorem outs_15 (c : Dev nD) : outs m 15 main_v22 c = o15 m c := by unfold outs; simp only [dite_true]

theorem V0_eq (c : Dev nD) : Gen.V0 m c = W0 m c := rfl
theorem V1_eq (c : Dev nD) : Gen.V1 m (outs m) c = W1 m c := by
  show Function.update (Gen.V0 m c) main_v0 (outs m 1 main_v0 c) = Function.update (W0 m c) main_v0 (o1 m c)
  rw [outs_1, V0_eq]
theorem V2_eq (c : Dev nD) : Gen.V2 m (outs m) c = W2 m c := by
  show StableHlo.after hostOps1 (Gen.V1 m (outs m) c) = StableHlo.after hostOps1 (W1 m c)
  rw [V1_eq]
theorem V3_eq (c : Dev nD) : Gen.V3 m (outs m) c = W3 m c := by
  show Function.update (Gen.V2 m (outs m) c) main_v2 (outs m 3 main_v2 c) = Function.update (W2 m c) main_v2 (o3 m c)
  rw [outs_3, V2_eq]
theorem V4_eq (c : Dev nD) : Gen.V4 m (outs m) c = W4 m c := by
  show Function.update (Gen.V3 m (outs m) c) main_v3 (outs m 4 main_v3 c) = Function.update (W3 m c) main_v3 (o4 m c)
  rw [outs_4, V3_eq]
theorem V5_eq (c : Dev nD) : Gen.V5 m (outs m) c = W5 m c := by
  show Function.update (Gen.V4 m (outs m) c) main_v4 (outs m 5 main_v4 c) = Function.update (W4 m c) main_v4 (o5 m c)
  rw [outs_5, V4_eq]
theorem V6_eq (c : Dev nD) : Gen.V6 m (outs m) c = W6 m c := by
  show Function.update (Gen.V5 m (outs m) c) main_v5 (outs m 6 main_v5 c) = Function.update (W5 m c) main_v5 (o6 m c)
  rw [outs_6, V5_eq]
theorem V7_eq (c : Dev nD) : Gen.V7 m (outs m) c = W7 m c := by
  show Function.update (Gen.V6 m (outs m) c) main_v6 (outs m 7 main_v6 c) = Function.update (W6 m c) main_v6 (o7 m c)
  rw [outs_7, V6_eq]
theorem V8_eq (c : Dev nD) : Gen.V8 m (outs m) c = W8 m c := by
  show StableHlo.after hostOps6 (Gen.V7 m (outs m) c) = StableHlo.after hostOps6 (W7 m c)
  rw [V7_eq]
theorem V9_eq (c : Dev nD) : Gen.V9 m (outs m) c = W9 m c := by
  show Function.update (Gen.V8 m (outs m) c) main_v12 (outs m 9 main_v12 c) = Function.update (W8 m c) main_v12 (o9 m c)
  rw [outs_9, V8_eq]
theorem V10_eq (c : Dev nD) : Gen.V10 m (outs m) c = W10 m c := by
  show Function.update (Gen.V9 m (outs m) c) main_v13 (outs m 10 main_v13 c) = Function.update (W9 m c) main_v13 (o10 m c)
  rw [outs_10, V9_eq]
theorem V11_eq (c : Dev nD) : Gen.V11 m (outs m) c = W11 m c := by
  show Function.update (Gen.V10 m (outs m) c) main_v14 (outs m 11 main_v14 c) = Function.update (W10 m c) main_v14 (o11 m c)
  rw [outs_11, V10_eq]
theorem V12_eq (c : Dev nD) : Gen.V12 m (outs m) c = W12 m c := by
  show Function.update (Gen.V11 m (outs m) c) main_v15 (outs m 12 main_v15 c) = Function.update (W11 m c) main_v15 (o12 m c)
  rw [outs_12, V11_eq]
theorem V13_eq (c : Dev nD) : Gen.V13 m (outs m) c = W13 m c := by
  show Function.update (Gen.V12 m (outs m) c) main_v16 (outs m 13 main_v16 c) = Function.update (W12 m c) main_v16 (o13 m c)
  rw [outs_13, V12_eq]
theorem V14_eq (c : Dev nD) : Gen.V14 m (outs m) c = W14 m c := by
  show StableHlo.after hostOps11 (Gen.V13 m (outs m) c) = StableHlo.after hostOps11 (W13 m c)
  rw [V13_eq]
theorem V15_eq (c : Dev nD) : Gen.V15 m (outs m) c = W15 m c := by
  show Function.update (Gen.V14 m (outs m) c) main_v22 (outs m 15 main_v22 c) = Function.update (W14 m c) main_v22 (o15 m c)
  rw [outs_15, V14_eq]

def pdats : (p : Fin 12) → (c : Dev nD) → Dat τ (Elt F) Unit ℕ (UR sig nD τ) ℕ (cfgs p) c
  | ⟨0, _⟩ => fun c => dat0 (rd (W0 m)) c
  | ⟨1, _⟩ => fun c => dat1 (rd (W2 m)) c
  | ⟨2, _⟩ => fun c => dat2 (rd (W3 m)) c
  | ⟨3, _⟩ => fun c => dat3 (rd (W4 m)) c
  | ⟨4, _⟩ => fun c => dat4 (rd (W5 m)) c
  | ⟨5, _⟩ => fun c => dat5 (rd (W6 m)) c
  | ⟨6, _⟩ => fun c => dat6 (rd (W8 m)) c
  | ⟨7, _⟩ => fun c => dat7 (rd (W9 m)) c
  | ⟨8, _⟩ => fun c => dat8 (rd (W10 m)) c
  | ⟨9, _⟩ => fun c => dat9 (rd (W11 m)) c
  | ⟨10, _⟩ => fun c => dat10 (rd (W12 m)) c
  | ⟨11, _⟩ => fun c => dat11 (rd (W14 m)) c

abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

set_option backward.isDefEq.respectTransparency.types false in
/-- A region of @main between two valuations of the buffers, the same for every pipeline `p`: it is entered with every buffer at
    `Wi` and left with every buffer at `Wo`, which agrees with `Wi` off the region's arrays (`hrest`) and holds at them what the
    region's write-backs leave (`hF`). -/
def regOf (p : Fin 12) (lf : Pipeline.LaunchFacts (nD := nD) (τ := τ) cfgs p)
    {Vi Vo Wi Wo : Dev nD → Valuation τ sig (Elt F)} (hVi : ∀ c, Vi c = Wi c) (hVo : ∀ c, Vo c = Wo c)
    (hb : ∀ c, BodyObligation (pdats m p c) (defs₀ (F := F)) Variants.none () Set.univ)
    (hq : ∀ c w, (pdats m p c).q w = fullShare) (h0 : ∀ c t, (pdats m p c).owed t = 0)
    (hr : ∀ c t, (pdats m p c).recorded t = Set.univ)
    (hA : ∀ c w, (pdats m p c).A w = rd Wi c (Pipeline.arrRef (cfgs p).spec w))
    (hΦ0 : ∀ c, (Pipeline.scopedRest (Ix := Unit) (Name := ℕ) (U := UR sig nD τ) (Lvl := ℕ) (Val := Elt F) (cfgs p).spec c : sProp 𝕄) ⊢ (pdats m p c).Φ 0)
    (hΦN : ∀ c, (pdats m p c).Φ (Fin.last (cfgs p).N) ⊢ (Pipeline.scopedRest (Ix := Unit) (Name := ℕ) (U := UR sig nD τ) (Lvl := ℕ) (Val := Elt F) (cfgs p).spec c : sProp 𝕄))
    (hF : ∀ c w, (pdats m p c).arrAt w (cfgs p).N = rd Wo c (Pipeline.arrRef (cfgs p).spec w))
    (hrest : ∀ c b, b ∉ Finset.univ.image (Pipeline.arrRef (cfgs p).spec) → rd Wo c b = rd Wi c b) :
    Pipeline.RegionSeg (pcfgs (F := F)) Gen.adm (pdats m) () defs₀ Variants.none L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p h0
  pre c := iprop(StableHlo.held (c : Thread nD τ) (Pipeline.ucRefs τ sig) (Vi c) ∗ R c)
  post c := iprop(StableHlo.held (c : Thread nD τ) (Pipeline.ucRefs τ sig) (Vo c) ∗ R c)
  X _ := BI.emp
  Y _ := BI.emp
  Z c := iprop(Pipeline.unscopedRest (Ix := Unit) (Name := ℕ) (U := UR sig nD τ) (Lvl := ℕ) (cfgs p).spec c (rd Wi c) ∗ ∃ r, prngReg c r)
  hentry c := by
    rw [hVi, Pipeline.ownSems0_none]
    simp only [Pipeline.Dat.owesAt, Pipeline.owesWithin, h0 c]
    have hsplit := Pipeline.arrays_of_unscopedBufs (p := p) (pcfgs (F := F)) Gen.adm (pdats m) lf.win lf.arr_whole c
      ((pdats m p c).share_full (hq c)) (rd Wi c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩; iexists W; isplitr; · ipureintro; exact fun _ _ => Or.inl (hr c 0 ▸ trivial)
      iexact HO
    isplitr; · iempintro
    isplitl [Hrest]; · iexact Hrest
    iexact Hp
  hin c := by
    iintro ⟨-, -, Hr⟩; iapply (hΦ0 c); iexact Hr
  hout c := by
    rw [Pipeline.ownSems0_none]
    iintro Hr
    isplitr; · iempintro
    isplitr; · iempintro
    iapply (hΦN c); iexact Hr
  hexit c := by
    rw [hVo]
    simp only [Pipeline.Dat.owesAt, Pipeline.owesWithin, h0 c]
    have hjoin := Pipeline.unscopedBufs_of_arrays (p := p) (pcfgs (F := F)) Gen.adm (Ix := Unit) (Name := ℕ) (U := UR sig nD τ) (Lvl := ℕ)
      lf.win lf.arr_whole c (pdats m) ((pdats m p c).share_full (hq c))
      (rd Wi c) (rd Wo c) ((pdats m p c).arrAt · (cfgs p).N) (hF c) (hrest c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    icases HO with ⟨%W, -, HO⟩; iexists W; iexact HO

theorem hF0 (c : Dev nD) (w : Fin cfg0.W) : (pdats m 0 c).arrAt w cfg0.N = rd (W1 m) c (Pipeline.arrRef spec0 w) := by
  match w with
  | ⟨0, _⟩ => exact ((dat0 (rd (W0 m)) c).arrAt_in ⟨0, by decide⟩ rfl _).trans ((dat0_A (rd (W0 m)) c ⟨0, by decide⟩).trans (Function.update_of_ne (StableHlo.devRef_ne_of_ne (by decide)) _ _).symm)
  | ⟨1, _⟩ => exact (Function.update_self (Proc.devRef .tc main_v0 : DevRef τ sig) (o1 m c) (W0 m c)).symm
theorem hrest0 (c : Dev nD) : ∀ b, b ∉ Finset.univ.image (Pipeline.arrRef spec0) → rd (W1 m) c b = rd (W0 m) c b :=
  fun b hb => Function.update_of_ne (StableHlo.devRef_ne_of_ne fun e => hb (Finset.mem_image.mpr ⟨⟨1, by decide⟩, Finset.mem_univ _, e.symm⟩)) _ _

set_option backward.isDefEq.respectTransparency.types false in
def reg0 : Pipeline.RegionSeg (pcfgs (F := F)) Gen.adm (pdats m) () defs₀ Variants.none L lv 0 :=
  regOf m 0 launch0 (V0_eq m) (V1_eq m) (body0 (rd (W0 m))) (fun _ _ => rfl) (fun _ _ => rfl) (fun _ _ => rfl) (fun _ _ => rfl)
    (fun _ => .rfl) (fun _ => .rfl) (hF0 m) (hrest0 m)

theorem hF1 (c : Dev nD) (w : Fin cfg1.W) : (pdats m 1 c).arrAt w cfg1.N = rd (W3 m) c (Pipeline.arrRef spec1 w) := by
  match w with
  | ⟨0, _⟩ => exact ((dat1 (rd (W2 m)) c).arrAt_in ⟨0, by decide⟩ rfl _).trans ((dat1_A (rd (W2 m)) c ⟨0, by decide⟩).trans (Function.update_of_ne (StableHlo.devRef_ne_of_ne (by decide)) _ _).symm)
  | ⟨1, _⟩ => exact ((dat1 (rd (W2 m)) c).arrAt_in ⟨1, by decide⟩ rfl _).trans ((dat1_A (rd (W2 m)) c ⟨1, by decide⟩).trans (Function.update_of_ne (StableHlo.devRef_ne_of_ne (by decide)) _ _).symm)
  | ⟨2, _⟩ => exact ((dat1 (rd (W2 m)) c).arrAt_in ⟨2, by decide⟩ rfl _).trans ((dat1_A (rd (W2 m)) c ⟨2, by decide⟩).trans (Function.update_of_ne (StableHlo.devRef_ne_of_ne (by decide)) _ _).symm)
  | ⟨3, _⟩ => exact (Function.update_self (Proc.devRef .tc main_v2 : DevRef τ sig) (o3 m c) (W2 m c)).symm
theorem hrest1 (c : Dev nD) : ∀ b, b ∉ Finset.univ.image (Pipeline.arrRef spec1) → rd (W3 m) c b = rd (W2 m) c b :=
  fun b hb => Function.update_of_ne (StableHlo.devRef_ne_of_ne fun e => hb (Finset.mem_image.mpr ⟨⟨3, by decide⟩, Finset.mem_univ _, e.symm⟩)) _ _

set_option backward.isDefEq.respectTransparency.types false in
def reg1 : Pipeline.RegionSeg (pcfgs (F := F)) Gen.adm (pdats m) () defs₀ Variants.none L lv 1 :=
  regOf m 1 launch1 (V2_eq m) (V3_eq m) (body1 (rd (W2 m))) (fun _ _ => rfl) (fun _ _ => rfl) (fun _ _ => rfl) (fun _ _ => rfl)
    (fun _ => .rfl) (fun _ => .rfl) (hF1 m) (hrest1 m)

theorem hF2 (c : Dev nD) (w : Fin cfg2.W) : (pdats m 2 c).arrAt w cfg2.N = rd (W4 m) c (Pipeline.arrRef spec2 w) := by
  match w with
  | ⟨0, _⟩ => exact ((dat2 (rd (W3 m)) c).arrAt_in ⟨0, by decide⟩ rfl _).trans ((dat2_A (rd (W3 m)) c ⟨0, by decide⟩).trans (Function.update_of_ne (StableHlo.devRef_ne_of_ne (by decide)) _ _).symm)
  | ⟨1, _⟩ => exact ((dat2 (rd (W3 m)) c).arrAt_in ⟨1, by decide⟩ rfl _).trans ((dat2_A (rd (W3 m)) c ⟨1, by decide⟩).trans (Function.update_of_ne (StableHlo.devRef_ne_of_ne (by decide)) _ _).symm)
  | ⟨2, _⟩ => exact (Function.update_self (Proc.devRef .tc main_v3 : DevRef τ sig) (o4 m c) (W3 m c)).symm
theorem hrest2 (c : Dev nD) : ∀ b, b ∉ Finset.univ.image (Pipeline.arrRef spec2) → rd (W4 m) c b = rd (W3 m) c b :=
  fun b hb => Function.update_of_ne (StableHlo.devRef_ne_of_ne fun e => hb (Finset.mem_image.mpr ⟨⟨2, by decide⟩, Finset.mem_univ _, e.symm⟩)) _ _

set_option backward.isDefEq.respectTransparency.types false in
def reg2 : Pipeline.RegionSeg (pcfgs (F := F)) Gen.adm (pdats m) () defs₀ Variants.none L lv 2 :=
  regOf m 2 launch2 (V3_eq m) (V4_eq m) (body2 (rd (W3 m))) (fun _ _ => rfl) (fun _ _ => rfl) (fun _ _ => rfl) (fun _ _ => rfl)
    (Φ2_first (rd (W3 m))) (Φ2_last (rd (W3 m))) (hF2 m) (hrest2 m)

theorem hF3 (c : Dev nD) (w : Fin cfg3.W) : (pdats m 3 c).arrAt w cfg3.N = rd (W5 m) c (Pipeline.arrRef spec3 w) := by
  match w with
  | ⟨0, _⟩ => exact ((dat3 (rd (W4 m)) c).arrAt_in ⟨0, by decide⟩ rfl _).trans ((dat3_A (rd (W4 m)) c ⟨0, by decide⟩).trans (Function.update_of_ne (StableHlo.devRef_ne_of_ne (by decide)) _ _).symm)
  | ⟨1, _⟩ => exact ((dat3 (rd (W4 m)) c).arrAt_in ⟨1, by decide⟩ rfl _).trans ((dat3_A (rd (W4 m)) c ⟨1, by decide⟩).trans (Function.update_of_ne (StableHlo.devRef_ne_of_ne (by decide)) _ _).symm)
  | ⟨2, _⟩ => exact (Function.update_self (Proc.devRef .tc main_v4 : DevRef τ sig) (o5 m c) (W4 m c)).symm
theorem hrest3 (c : Dev nD) : ∀ b, b ∉ Finset.univ.image (Pipeline.arrRef spec3) → rd (W5 m) c b = rd (W4 m) c b :=
  fun b hb => Function.update_of_ne (StableHlo.devRef_ne_of_ne fun e => hb (Finset.mem_image.mpr ⟨⟨2, by decide⟩, Finset.mem_univ _, e.symm⟩)) _ _

set_option backward.isDefEq.respectTransparency.types false in
def reg3 : Pipeline.RegionSeg (pcfgs (F := F)) Gen.adm (pdats m) () defs₀ Variants.none L lv 3 :=
  regOf m 3 launch3 (V4_eq m) (V5_eq m) (body3 (rd (W4 m))) (fun _ _ => rfl) (fun _ _ => rfl) (fun _ _ => rfl) (fun _ _ => rfl)
    (Φ3_first (rd (W4 m))) (Φ3_last (rd (W4 m))) (hF3 m) (hrest3 m)

theorem hF4 (c : Dev nD) (w : Fin cfg4.W) : (pdats m 4 c).arrAt w cfg4.N = rd (W6 m) c (Pipeline.arrRef spec4 w) := by
  match w with
  | ⟨0, _⟩ => exact ((dat4 (rd (W5 m)) c).arrAt_in ⟨0, by decide⟩ rfl _).trans ((dat4_A (rd (W5 m)) c ⟨0, by decide⟩).trans (Function.update_of_ne (StableHlo.devRef_ne_of_ne (by decide)) _ _).symm)
  | ⟨1, _⟩ => exact ((dat4 (rd (W5 m)) c).arrAt_in ⟨1, by decide⟩ rfl _).trans ((dat4_A (rd (W5 m)) c ⟨1, by decide⟩).trans (Function.update_of_ne (StableHlo.devRef_ne_of_ne (by decide)) _ _).symm)
  | ⟨2, _⟩ => exact (Function.update_self (Proc.devRef .tc main_v5 : DevRef τ sig) (o6 m c) (W5 m c)).symm
theorem hrest4 (c : Dev nD) : ∀ b, b ∉ Finset.univ.image (Pipeline.arrRef spec4) → rd (W6 m) c b = rd (W5 m) c b :=
  fun b hb => Function.update_of_ne (StableHlo.devRef_ne_of_ne fun e => hb (Finset.mem_image.mpr ⟨⟨2, by decide⟩, Finset.mem_univ _, e.symm⟩)) _ _

set_option backward.isDefEq.respectTransparency.types false in
def reg4 : Pipeline.RegionSeg (pcfgs (F := F)) Gen.adm (pdats m) () defs₀ Variants.none L lv 4 :=
  regOf m 4 launch4 (V5_eq m) (V6_eq m) (body4 (rd (W5 m))) (fun _ _ => rfl) (fun _ _ => rfl) (fun _ _ => rfl) (fun _ _ => rfl)
    (Φ4_first (rd (W5 m))) (Φ4_last (rd (W5 m))) (hF4 m) (hrest4 m)

theorem hF5 (c : Dev nD) (w : Fin cfg5.W) : (pdats m 5 c).arrAt w cfg5.N = rd (W7 m) c (Pipeline.arrRef spec5 w) := by
  match w with
  | ⟨0, _⟩ => exact ((dat5 (rd (W6 m)) c).arrAt_in ⟨0, by decide⟩ rfl _).trans ((dat5_A (rd (W6 m)) c ⟨0, by decide⟩).trans (Function.update_of_ne (StableHlo.devRef_ne_of_ne (by decide)) _ _).symm)
  | ⟨1, _⟩ => exact ((dat5 (rd (W6 m)) c).arrAt_in ⟨1, by decide⟩ rfl _).trans ((dat5_A (rd (W6 m)) c ⟨1, by decide⟩).trans (Function.update_of_ne (StableHlo.devRef_ne_of_ne (by decide)) _ _).symm)
  | ⟨2, _⟩ => exact (Function.update_self (Proc.devRef .tc main_v6 : DevRef τ sig) (o7 m c) (W6 m c)).symm
theorem hrest5 (c : Dev nD) : ∀ b, b ∉ Finset.univ.image (Pipeline.arrRef spec5) → rd (W7 m) c b = rd (W6 m) c b :=
  fun b hb => Function.update_of_ne (StableHlo.devRef_ne_of_ne fun e => hb (Finset.mem_image.mpr ⟨⟨2, by decide⟩, Finset.mem_univ _, e.symm⟩)) _ _

set_option backward.isDefEq.respectTransparency.types false in
def reg5 : Pipeline.RegionSeg (pcfgs (F := F)) Gen.adm (pdats m) () defs₀ Variants.none L lv 5 :=
  regOf m 5 launch5 (V6_eq m) (V7_eq m) (body5 (rd (W6 m))) (fun _ _ => rfl) (fun _ _ => rfl) (fun _ _ => rfl) (fun _ _ => rfl)
    (Φ5_first (rd (W6 m))) (Φ5_last (rd (W6 m))) (hF5 m) (hrest5 m)

theorem hF6 (c : Dev nD) (w : Fin cfg6.W) : (pdats m 6 c).arrAt w cfg6.N = rd (W9 m) c (Pipeline.arrRef spec6 w) := by
  match w with
  | ⟨0, _⟩ => exact ((dat6 (rd (W8 m)) c).arrAt_in ⟨0, by decide⟩ rfl _).trans ((dat6_A (rd (W8 m)) c ⟨0, by decide⟩).trans (Function.update_of_ne (StableHlo.devRef_ne_of_ne (by decide)) _ _).symm)
  | ⟨1, _⟩ => exact ((dat6 (rd (W8 m)) c).arrAt_in ⟨1, by decide⟩ rfl _).trans ((dat6_A (rd (W8 m)) c ⟨1, by decide⟩).trans (Function.update_of_ne (StableHlo.devRef_ne_of_ne (by decide)) _ _).symm)
  | ⟨2, _⟩ => exact ((dat6 (rd (W8 m)) c).arrAt_in ⟨2, by decide⟩ rfl _).trans ((dat6_A (rd (W8 m)) c ⟨2, by decide⟩).trans (Function.update_of_ne (StableHlo.devRef_ne_of_ne (by decide)) _ _).symm)
  | ⟨3, _⟩ => exact (Function.update_self (Proc.devRef .tc main_v12 : DevRef τ sig) (o9 m c) (W8 m c)).symm
theorem hrest6 (c : Dev nD) : ∀ b, b ∉ Finset.univ.image (Pipeline.arrRef spec6) → rd (W9 m) c b = rd (W8 m) c b :=
  fun b hb => Function.update_of_ne (StableHlo.devRef_ne_of_ne fun e => hb (Finset.mem_image.mpr ⟨⟨3, by decide⟩, Finset.mem_univ _, e.symm⟩)) _ _

set_option backward.isDefEq.respectTransparency.types false in
def reg6 : Pipeline.RegionSeg (pcfgs (F := F)) Gen.adm (pdats m) () defs₀ Variants.none L lv 6 :=
  regOf m 6 launch6 (V8_eq m) (V9_eq m) (body6 (rd (W8 m))) (fun _ _ => rfl) (fun _ _ => rfl) (fun _ _ => rfl) (fun _ _ => rfl)
    (fun _ => .rfl) (fun _ => .rfl) (hF6 m) (hrest6 m)

theorem hF7 (c : Dev nD) (w : Fin cfg7.W) : (pdats m 7 c).arrAt w cfg7.N = rd (W10 m) c (Pipeline.arrRef spec7 w) := by
  match w with
  | ⟨0, _⟩ => exact ((dat7 (rd (W9 m)) c).arrAt_in ⟨0, by decide⟩ rfl _).trans ((dat7_A (rd (W9 m)) c ⟨0, by decide⟩).trans (Function.update_of_ne (StableHlo.devRef_ne_of_ne (by decide)) _ _).symm)
  | ⟨1, _⟩ => exact ((dat7 (rd (W9 m)) c).arrAt_in ⟨1, by decide⟩ rfl _).trans ((dat7_A (rd (W9 m)) c ⟨1, by decide⟩).trans (Function.update_of_ne (StableHlo.devRef_ne_of_ne (by decide)) _ _).symm)
  | ⟨2, _⟩ => exact (Function.update_self (Proc.devRef .tc main_v13 : DevRef τ sig) (o10 m c) (W9 m c)).symm
theorem hrest7 (c : Dev nD) : ∀ b, b ∉ Finset.univ.image (Pipeline.arrRef spec7) → rd (W10 m) c b = rd (W9 m) c b :=
  fun b hb => Function.update_of_ne (StableHlo.devRef_ne_of_ne fun e => hb (Finset.mem_image.mpr ⟨⟨2, by decide⟩, Finset.mem_univ _, e.symm⟩)) _ _

set_option backward.isDefEq.respectTransparency.types false in
def reg7 : Pipeline.RegionSeg (pcfgs (F := F)) Gen.adm (pdats m) () defs₀ Variants.none L lv 7 :=
  regOf m 7 launch7 (V9_eq m) (V10_eq m) (body7 (rd (W9 m))) (fun _ _ => rfl) (fun _ _ => rfl) (fun _ _ => rfl) (fun _ _ => rfl)
    (Φ7_first (rd (W9 m))) (Φ7_last (rd (W9 m))) (hF7 m) (hrest7 m)

theorem hF8 (c : Dev nD) (w : Fin cfg8.W) : (pdats m 8 c).arrAt w cfg8.N = rd (W11 m) c (Pipeline.arrRef spec8 w) := by
  match w with
  | ⟨0, _⟩ => exact ((dat8 (rd (W10 m)) c).arrAt_in ⟨0, by decide⟩ rfl _).trans ((dat8_A (rd (W10 m)) c ⟨0, by decide⟩).trans (Function.update_of_ne (StableHlo.devRef_ne_of_ne (by decide)) _ _).symm)
  | ⟨1, _⟩ => exact ((dat8 (rd (W10 m)) c).arrAt_in ⟨1, by decide⟩ rfl _).trans ((dat8_A (rd (W10 m)) c ⟨1, by decide⟩).trans (Function.update_of_ne (StableHlo.devRef_ne_of_ne (by decide)) _ _).symm)
  | ⟨2, _⟩ => exact (Function.update_self (Proc.devRef .tc main_v14 : DevRef τ sig) (o11 m c) (W10 m c)).symm
theorem hrest8 (c : Dev nD) : ∀ b, b ∉ Finset.univ.image (Pipeline.arrRef spec8) → rd (W11 m) c b = rd (W10 m) c b :=
  fun b hb => Function.update_of_ne (StableHlo.devRef_ne_of_ne fun e => hb (Finset.mem_image.mpr ⟨⟨2, by decide⟩, Finset.mem_univ _, e.symm⟩)) _ _

set_option backward.isDefEq.respectTransparency.types false in
def reg8 : Pipeline.RegionSeg (pcfgs (F := F)) Gen.adm (pdats m) () defs₀ Variants.none L lv 8 :=
  regOf m 8 launch8 (V10_eq m) (V11_eq m) (body8 (rd (W10 m))) (fun _ _ => rfl) (fun _ _ => rfl) (fun _ _ => rfl) (fun _ _ => rfl)
    (Φ8_first (rd (W10 m))) (Φ8_last (rd (W10 m))) (hF8 m) (hrest8 m)

theorem hF9 (c : Dev nD) (w : Fin cfg9.W) : (pdats m 9 c).arrAt w cfg9.N = rd (W12 m) c (Pipeline.arrRef spec9 w) := by
  match w with
  | ⟨0, _⟩ => exact ((dat9 (rd (W11 m)) c).arrAt_in ⟨0, by decide⟩ rfl _).trans ((dat9_A (rd (W11 m)) c ⟨0, by decide⟩).trans (Function.update_of_ne (StableHlo.devRef_ne_of_ne (by decide)) _ _).symm)
  | ⟨1, _⟩ => exact ((dat9 (rd (W11 m)) c).arrAt_in ⟨1, by decide⟩ rfl _).trans ((dat9_A (rd (W11 m)) c ⟨1, by decide⟩).trans (Function.update_of_ne (StableHlo.devRef_ne_of_ne (by decide)) _ _).symm)
  | ⟨2, _⟩ => exact (Function.update_self (Proc.devRef .tc main_v15 : DevRef τ sig) (o12 m c) (W11 m c)).symm
theorem hrest9 (c : Dev nD) : ∀ b, b ∉ Finset.univ.image (Pipeline.arrRef spec9) → rd (W12 m) c b = rd (W11 m) c b :=
  fun b hb => Function.update_of_ne (StableHlo.devRef_ne_of_ne fun e => hb (Finset.mem_image.mpr ⟨⟨2, by decide⟩, Finset.mem_univ _, e.symm⟩)) _ _

set_option backward.isDefEq.respectTransparency.types false in
def reg9 : Pipeline.RegionSeg (pcfgs (F := F)) Gen.adm (pdats m) () defs₀ Variants.none L lv 9 :=
  regOf m 9 launch9 (V11_eq m) (V12_eq m) (body9 (rd (W11 m))) (fun _ _ => rfl) (fun _ _ => rfl) (fun _ _ => rfl) (fun _ _ => rfl)
    (Φ9_first (rd (W11 m))) (Φ9_last (rd (W11 m))) (hF9 m) (hrest9 m)

theorem hF10 (c : Dev nD) (w : Fin cfg10.W) : (pdats m 10 c).arrAt w cfg10.N = rd (W13 m) c (Pipeline.arrRef spec10 w) := by
  match w with
  | ⟨0, _⟩ => exact ((dat10 (rd (W12 m)) c).arrAt_in ⟨0, by decide⟩ rfl _).trans ((dat10_A (rd (W12 m)) c ⟨0, by decide⟩).trans (Function.update_of_ne (StableHlo.devRef_ne_of_ne (by decide)) _ _).symm)
  | ⟨1, _⟩ => exact ((dat10 (rd (W12 m)) c).arrAt_in ⟨1, by decide⟩ rfl _).trans ((dat10_A (rd (W12 m)) c ⟨1, by decide⟩).trans (Function.update_of_ne (StableHlo.devRef_ne_of_ne (by decide)) _ _).symm)
  | ⟨2, _⟩ => exact (Function.update_self (Proc.devRef .tc main_v16 : DevRef τ sig) (o13 m c) (W12 m c)).symm
theorem hrest10 (c : Dev nD) : ∀ b, b ∉ Finset.univ.image (Pipeline.arrRef spec10) → rd (W13 m) c b = rd (W12 m) c b :=
  fun b hb => Function.update_of_ne (StableHlo.devRef_ne_of_ne fun e => hb (Finset.mem_image.mpr ⟨⟨2, by decide⟩, Finset.mem_univ _, e.symm⟩)) _ _

set_option backward.isDefEq.respectTransparency.types false in
def reg10 : Pipeline.RegionSeg (pcfgs (F := F)) Gen.adm (pdats m) () defs₀ Variants.none L lv 10 :=
  regOf m 10 launch10 (V12_eq m) (V13_eq m) (body10 (rd (W12 m))) (fun _ _ => rfl) (fun _ _ => rfl) (fun _ _ => rfl) (fun _ _ => rfl)
    (Φ10_first (rd (W12 m))) (Φ10_last (rd (W12 m))) (hF10 m) (hrest10 m)

theorem hF11 (c : Dev nD) (w : Fin cfg11.W) : (pdats m 11 c).arrAt w cfg11.N = rd (W15 m) c (Pipeline.arrRef spec11 w) := by
  match w with
  | ⟨0, _⟩ => exact ((dat11 (rd (W14 m)) c).arrAt_in ⟨0, by decide⟩ rfl _).trans ((dat11_A (rd (W14 m)) c ⟨0, by decide⟩).trans (Function.update_of_ne (StableHlo.devRef_ne_of_ne (by decide)) _ _).symm)
  | ⟨1, _⟩ => exact ((dat11 (rd (W14 m)) c).arrAt_in ⟨1, by decide⟩ rfl _).trans ((dat11_A (rd (W14 m)) c ⟨1, by decide⟩).trans (Function.update_of_ne (StableHlo.devRef_ne_of_ne (by decide)) _ _).symm)
  | ⟨2, _⟩ => exact ((dat11 (rd (W14 m)) c).arrAt_in ⟨2, by decide⟩ rfl _).trans ((dat11_A (rd (W14 m)) c ⟨2, by decide⟩).trans (Function.update_of_ne (StableHlo.devRef_ne_of_ne (by decide)) _ _).symm)
  | ⟨3, _⟩ => exact (Function.update_self (Proc.devRef .tc main_v22 : DevRef τ sig) (o15 m c) (W14 m c)).symm
theorem hrest11 (c : Dev nD) : ∀ b, b ∉ Finset.univ.image (Pipeline.arrRef spec11) → rd (W15 m) c b = rd (W14 m) c b :=
  fun b hb => Function.update_of_ne (StableHlo.devRef_ne_of_ne fun e => hb (Finset.mem_image.mpr ⟨⟨3, by decide⟩, Finset.mem_univ _, e.symm⟩)) _ _

set_option backward.isDefEq.respectTransparency.types false in
def reg11 : Pipeline.RegionSeg (pcfgs (F := F)) Gen.adm (pdats m) () defs₀ Variants.none L lv 11 :=
  regOf m 11 launch11 (V14_eq m) (V15_eq m) (body11 (rd (W14 m))) (fun _ _ => rfl) (fun _ _ => rfl) (fun _ _ => rfl) (fun _ _ => rfl)
    (fun _ => .rfl) (fun _ => .rfl) (hF11 m) (hrest11 m)

variable (ρ : Dev nD → PrngReg)

set_option backward.isDefEq.respectTransparency.types false in
/-- Every weakly fair execution of @main from the launch memory ends, nothing faulting, with every buffer of @main at the last
    valuation's contents. -/
theorem run_all : θ_run defs (onTc (τ := τ) (main (F := F))) ⟨m, fun _ => 0, ρ⟩ (fun r => ∀ c : Dev nD,
      ∀ b ∈ Pipeline.ucRefs τ sig, r.2.mem ((c : Thread nD τ).1, b) = Gen.V15 m (outs m) c b) :=
  Gen.run_cond m emb₁ () Variants.none L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (by
      refine Pipeline.initEach L lv fun c => ?_
      iintro ⟨⟨-, HO, -, Hp, -⟩, -⟩
      imodintro
      isplitl [Hp]; · iexists _; iexact Hp
      iexists ∅; iexact HO)
    (fun c => by iintro ⟨-, HO⟩; iexact HO)
    (reg0 m) (fun c => .rfl) (fun c => .rfl)
    (reg1 m) (fun c => .rfl) (fun c => .rfl)
    (reg2 m) (fun c => .rfl) (fun c => .rfl)
    (reg3 m) (fun c => .rfl) (fun c => .rfl)
    (reg4 m) (fun c => .rfl) (fun c => .rfl)
    (reg5 m) (fun c => .rfl) (fun c => .rfl)
    (reg6 m) (fun c => .rfl) (fun c => .rfl)
    (reg7 m) (fun c => .rfl) (fun c => .rfl)
    (reg8 m) (fun c => .rfl) (fun c => .rfl)
    (reg9 m) (fun c => .rfl) (fun c => .rfl)
    (reg10 m) (fun c => .rfl) (fun c => .rfl)
    (reg11 m) (fun c => .rfl) (fun c => .rfl)

end Cert.KernelIdeal.Hand

end
-- ==== Proof.KI.HostReads.lean ====
import proofs.«137169_j48112223650339_1_alg».proof.Proof.Gen.KernelIdeal.Launch
import proofs.«137169_j48112223650339_1_alg».proof.Proof.Gen.KernelIdeal.Skeleton
import proofs.«137169_j48112223650339_1_alg».proof.Proof.Gen.KernelIdeal.Points
import Idealize.ShloMosaic.Lib.Pipeline.FrameBody
import Idealize.ShloMosaic.Lib.Pipeline.Frame
import Idealize.ShloMosaic.Lib.Tactic
import proofs.«137169_j48112223650339_1_alg».proof.Proof.Gen.KernelIdeal.Regions
import proofs.«137169_j48112223650339_1_alg».proof.Proof.Spec
import Idealize.ShloMosaic.Lib.Pipeline.Value
import Idealize.ShloMosaic.Lib.ValueIdx
import Idealize.ShloMosaic.Lib.StableHlo.Run

/-! The reshapes and slices @main does between its regions, read at an index: a bias vector as a row, a layer's weight matrix and
  bias row cut out of the stacked arrays. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Idealize.ShloMosaic.StableHlo

theorem row_read (x : S64.Idx → EReal) : shapeCast S1x64 x shapeCasts_S64_S1x64 = Cert.Spec.rowOf x := by
  funext i
  obtain ⟨z, h, rfl⟩ : ∃ (z : Fin 1) (h : Fin 64), i = ix2 z h := ⟨i 0, i 1, eq_ix2 i⟩
  refine shapeCast_apply x shapeCasts_S64_S1x64 (ix2 z h) (ix1 h) ?_
  rw [Shape.rowMajor_val_one, Shape.rowMajor_val_two]
  have hz := z.isLt
  show h.val = z.val * 64 + h.val
  omega

theorem flat_read (x : S1x64.Idx → EReal) (h : Fin 64) :
    shapeCast S64 x shapeCasts_S1x64_S64 (ix1 h) = x (ix2 (0 : Fin 1) h) := by
  refine shapeCast_apply x shapeCasts_S1x64_S64 (ix1 h) (ix2 (0 : Fin 1) h) ?_
  rw [Shape.rowMajor_val_one, Shape.rowMajor_val_two]
  show 0 * 64 + h.val = h.val
  omega

theorem slab_read (x : S1x64x64.Idx → EReal) (p q : Fin 64) :
    shapeCast S64x64 x shapeCasts_S1x64x64_S64x64 (ix2 p q) = x (ix3 (0 : Fin 1) p q) := by
  refine shapeCast_apply x shapeCasts_S1x64x64_S64x64 (ix2 p q) (ix3 (0 : Fin 1) p q) ?_
  rw [Shape.rowMajor_val_three, Shape.rowMajor_val_two]
  show (0 * 64 + p.val) * 64 + q.val = p.val * 64 + q.val
  omega

theorem weights_read0 (x : S2x64x64.Idx → EReal) :
    shapeCast S64x64 (extractStridedSlice S1x64x64 ![0, 0, 0] x slices_S2x64x64_S1x64x64_0_0_0) shapeCasts_S1x64x64_S64x64
      = Cert.Spec.layerW x 0 := by
  funext i
  obtain ⟨p, q, rfl⟩ : ∃ (p : Fin 64) (q : Fin 64), i = ix2 p q := ⟨i 0, i 1, eq_ix2 i⟩
  refine (slab_read _ p q).trans ?_
  refine extractStridedSlice_apply ![0, 0, 0] x slices_S2x64x64_S1x64x64_0_0_0 (ix3 (0 : Fin 1) p q) (ix3 (0 : Fin 2) p q) fun a => ?_
  match a with
  | ⟨0, _⟩ => show (0 : ℕ) = 0 + 0; rfl
  | ⟨1, _⟩ => show p.val = 0 + p.val; omega
  | ⟨2, _⟩ => show q.val = 0 + q.val; omega

theorem weights_read1 (x : S2x64x64.Idx → EReal) :
    shapeCast S64x64 (extractStridedSlice S1x64x64 ![1, 0, 0] x slices_S2x64x64_S1x64x64_1_0_0) shapeCasts_S1x64x64_S64x64
      = Cert.Spec.layerW x 1 := by
  funext i
  obtain ⟨p, q, rfl⟩ : ∃ (p : Fin 64) (q : Fin 64), i = ix2 p q := ⟨i 0, i 1, eq_ix2 i⟩
  refine (slab_read _ p q).trans ?_
  refine extractStridedSlice_apply ![1, 0, 0] x slices_S2x64x64_S1x64x64_1_0_0 (ix3 (0 : Fin 1) p q) (ix3 (1 : Fin 2) p q) fun a => ?_
  match a with
  | ⟨0, _⟩ => show (1 : ℕ) = 1 + 0; rfl
  | ⟨1, _⟩ => show p.val = 0 + p.val; omega
  | ⟨2, _⟩ => show q.val = 0 + q.val; omega

theorem biases_read0 (x : S2x64.Idx → EReal) :
    shapeCast S1x64 (shapeCast S64 (extractStridedSlice S1x64 ![0, 0] x slices_S2x64_S1x64_0_0) shapeCasts_S1x64_S64) shapeCasts_S64_S1x64
      = Cert.Spec.layerB x 0 := by
  rw [row_read]
  funext i
  obtain ⟨z, h, rfl⟩ : ∃ (z : Fin 1) (h : Fin 64), i = ix2 z h := ⟨i 0, i 1, eq_ix2 i⟩
  refine (flat_read _ h).trans ?_
  refine extractStridedSlice_apply ![0, 0] x slices_S2x64_S1x64_0_0 (ix2 (0 : Fin 1) h) (ix2 (0 : Fin 2) h) fun a => ?_
  match a with
  | ⟨0, _⟩ => show (0 : ℕ) = 0 + 0; rfl
  | ⟨1, _⟩ => show h.val = 0 + h.val; omega

theorem biases_read1 (x : S2x64.Idx → EReal) :
    shapeCast S1x64 (shapeCast S64 (extractStridedSlice S1x64 ![1, 0] x slices_S2x64_S1x64_1_0) shapeCasts_S1x64_S64) shapeCasts_S64_S1x64
      = Cert.Spec.layerB x 1 := by
  rw [row_read]
  funext i
  obtain ⟨z, h, rfl⟩ : ∃ (z : Fin 1) (h : Fin 64), i = ix2 z h := ⟨i 0, i 1, eq_ix2 i⟩
  refine (flat_read _ h).trans ?_
  refine extractStridedSlice_apply ![1, 0] x slices_S2x64_S1x64_1_0 (ix2 (0 : Fin 1) h) (ix2 (1 : Fin 2) h) fun a => ?_
  match a with
  | ⟨0, _⟩ => show (1 : ℕ) = 1 + 0; rfl
  | ⟨1, _⟩ => show h.val = 0 + h.val; omega

variable (m : (ℓ : Loc nD τ sig) → Buf (Elt Ideal) ℓ) (outs : Gen.Outs (F := Ideal))

theorem V1_arg3 (c : Dev nD) : V1 m outs c main_arg3 = m ((c : Thread nD τ).loc main_arg3) :=
  (V1_of m outs c main_arg3 (by decide)).trans rfl

theorem V7_arg4 (c : Dev nD) : V7 m outs c main_arg4 = m ((c : Thread nD τ).loc main_arg4) :=
  (V7_of m outs c main_arg4 (by decide)).trans <| (V6_of m outs c main_arg4 (by decide)).trans <|
  (V5_of m outs c main_arg4 (by decide)).trans <| (V4_of m outs c main_arg4 (by decide)).trans <|
  (V3_of m outs c main_arg4 (by decide)).trans <| (V2_of m outs c main_arg4 (by decide)).trans <|
  (V1_of m outs c main_arg4 (by decide)).trans rfl

theorem V7_arg5 (c : Dev nD) : V7 m outs c main_arg5 = m ((c : Thread nD τ).loc main_arg5) :=
  (V7_of m outs c main_arg5 (by decide)).trans <| (V6_of m outs c main_arg5 (by decide)).trans <|
  (V5_of m outs c main_arg5 (by decide)).trans <| (V4_of m outs c main_arg5 (by decide)).trans <|
  (V3_of m outs c main_arg5 (by decide)).trans <| (V2_of m outs c main_arg5 (by decide)).trans <|
  (V1_of m outs c main_arg5 (by decide)).trans rfl

theorem V13_arg4 (c : Dev nD) : V13 m outs c main_arg4 = m ((c : Thread nD τ).loc main_arg4) :=
  (V13_of m outs c main_arg4 (by decide)).trans <| (V12_of m outs c main_arg4 (by decide)).trans <|
  (V11_of m outs c main_arg4 (by decide)).trans <| (V10_of m outs c main_arg4 (by decide)).trans <|
  (V9_of m outs c main_arg4 (by decide)).trans <| (V8_of m outs c main_arg4 (by decide)).trans (V7_arg4 m outs c)

theorem V13_arg5 (c : Dev nD) : V13 m outs c main_arg5 = m ((c : Thread nD τ).loc main_arg5) :=
  (V13_of m outs c main_arg5 (by decide)).trans <| (V12_of m outs c main_arg5 (by decide)).trans <|
  (V11_of m outs c main_arg5 (by decide)).trans <| (V10_of m outs c main_arg5 (by decide)).trans <|
  (V9_of m outs c main_arg5 (by decide)).trans <| (V8_of m outs c main_arg5 (by decide)).trans (V7_arg5 m outs c)

theorem host_bias0 (c : Dev nD) :
    (V2 m outs c main_v1 : S1x64.Idx → EReal) = Cert.Spec.rowOf (m ((c : Thread nD τ).loc main_arg3)) := by
  have e : (V2 m outs c main_v1 : S1x64.Idx → EReal)
      = shapeCast S1x64 (V1 m outs c main_arg3 : S64.Idx → EReal) shapeCasts_S64_S1x64 := by
    dsimp only [V2, hostOps1]; after_results; rfl
  rw [e, V1_arg3, row_read]

theorem host_W_0 (c : Dev nD) :
    (V8 m outs c main_v8 : S64x64.Idx → EReal) = Cert.Spec.layerW (m ((c : Thread nD τ).loc main_arg4)) 0 := by
  have e : (V8 m outs c main_v8 : S64x64.Idx → EReal)
      = shapeCast S64x64 (extractStridedSlice S1x64x64 ![0, 0, 0] (V7 m outs c main_arg4 : S2x64x64.Idx → EReal) slices_S2x64x64_S1x64x64_0_0_0) shapeCasts_S1x64x64_S64x64 := by
    dsimp only [V8, hostOps6]; after_results; rfl
  rw [e, V7_arg4, weights_read0]

theorem host_b_0 (c : Dev nD) :
    (V8 m outs c main_v11 : S1x64.Idx → EReal) = Cert.Spec.layerB (m ((c : Thread nD τ).loc main_arg5)) 0 := by
  have e : (V8 m outs c main_v11 : S1x64.Idx → EReal)
      = shapeCast S1x64 (shapeCast S64 (extractStridedSlice S1x64 ![0, 0] (V7 m outs c main_arg5 : S2x64.Idx → EReal) slices_S2x64_S1x64_0_0) shapeCasts_S1x64_S64) shapeCasts_S64_S1x64 := by
    dsimp only [V8, hostOps6]; after_results; rfl
  rw [e, V7_arg5, biases_read0]

theorem host_W_1 (c : Dev nD) :
    (V14 m outs c main_v18 : S64x64.Idx → EReal) = Cert.Spec.layerW (m ((c : Thread nD τ).loc main_arg4)) 1 := by
  have e : (V14 m outs c main_v18 : S64x64.Idx → EReal)
      = shapeCast S64x64 (extractStridedSlice S1x64x64 ![1, 0, 0] (V13 m outs c main_arg4 : S2x64x64.Idx → EReal) slices_S2x64x64_S1x64x64_1_0_0) shapeCasts_S1x64x64_S64x64 := by
    dsimp only [V14, hostOps11]; after_results; rfl
  rw [e, V13_arg4, weights_read1]

theorem host_b_1 (c : Dev nD) :
    (V14 m outs c main_v21 : S1x64.Idx → EReal) = Cert.Spec.layerB (m ((c : Thread nD τ).loc main_arg5)) 1 := by
  have e : (V14 m outs c main_v21 : S1x64.Idx → EReal)
      = shapeCast S1x64 (shapeCast S64 (extractStridedSlice S1x64 ![1, 0] (V13 m outs c main_arg5 : S2x64.Idx → EReal) slices_S2x64_S1x64_1_0) shapeCasts_S1x64_S64) shapeCasts_S64_S1x64 := by
    dsimp only [V14, hostOps11]; after_results; rfl
  rw [e, V13_arg5, biases_read1]

end Cert.KernelIdeal.Hand

end
-- ==== Proof.KI.R0Val.lean ====
import proofs.«137169_j48112223650339_1_alg».proof.Proof.Gen.KernelIdeal.Launch
import proofs.«137169_j48112223650339_1_alg».proof.Proof.Gen.KernelIdeal.Skeleton
import proofs.«137169_j48112223650339_1_alg».proof.Proof.Gen.KernelIdeal.Points
import Idealize.ShloMosaic.Lib.Pipeline.FrameBody
import Idealize.ShloMosaic.Lib.Pipeline.Frame
import Idealize.ShloMosaic.Lib.Tactic
import proofs.«137169_j48112223650339_1_alg».proof.Proof.KI.R0
import Idealize.ShloMosaic.Lib.Pipeline.Value
import Idealize.ShloMosaic.Lib.ValueIdx

/-! Region 0's value: over the extended reals the change of float format is the identity, so the output array is the input array. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt Ideal) ((c : Thread nD τ).loc b))

open Idealize.ShloMosaic.ValueIdx

theorem hz0 : (![0, 0, 0] : Fin 3 → Nat) = fun _ => 0 := funext fun a => by fin_cases a <;> rfl

theorem cast0_apply (x : Vec Ideal S1x256x8192 .f32) (y : S1x256x8192.Idx) : cast0 (F := Ideal) x y = x y := by
  unfold cast0
  rw [View.canon_unit_zero hz0, View.ld_unit_zero (S := S1x256x8192) hz0]
  rfl

theorem idx_facts0 : ∀ t : Fin cfg0.N,
    win0_0.index t (0 : Fin 3) = t.val / 32 ∧ win0_0.index t (1 : Fin 3) = t.val % 32 ∧ win0_0.index t (2 : Fin 3) = 0
    ∧ win0_1.index t (0 : Fin 3) = t.val / 32 ∧ win0_1.index t (1 : Fin 3) = t.val % 32 ∧ win0_1.index t (2 : Fin 3) = 0 :=
  (by decide +kernel : ∀ t : Fin grid0.N, _)

abbrev adj0 (c : Dev nD) : S2x8192x8192.Idx → EReal := V c main_arg1

theorem flushed0_eq (c : Dev nD) (t : Fin cfg0.N) :
    (dat0 (F := Ideal) V c).flushed 1 t = ((cfg0.win 1).blk t).view.read (Elt Ideal) (adj0 V c) := by
  show (cfg0.win 1).cut (grid0.coords t) ((dat0 V c).after 1 t) = _
  rw [dat0_after1]
  funext j
  refine (cast0_apply (blk0 V c 0 t) _).trans ?_
  obtain ⟨e0, e1, e2, f0, f1, f2⟩ := idx_facts0 t
  show V c main_arg1 (((cfg0.win 0).blk t).view.emb j) = V c main_arg1 (((cfg0.win 1).blk t).view.emb j)
  refine congrArg (V c main_arg1) (funext fun a => Fin.ext ?_)
  match a with
  | ⟨0, _⟩ => show win0_0.index t (0 : Fin 3) * 1 + 1 * (j 0).val = win0_1.index t (0 : Fin 3) * 1 + 1 * (j 0).val; omega
  | ⟨1, _⟩ => show win0_0.index t (1 : Fin 3) * 256 + 1 * (j 1).val = win0_1.index t (1 : Fin 3) * 256 + 1 * (j 1).val; omega
  | ⟨2, _⟩ => show win0_0.index t (2 : Fin 3) * 8192 + 1 * (j 2).val = win0_1.index t (2 : Fin 3) * 8192 + 1 * (j 2).val; omega

theorem mem_blk0 (t : Fin cfg0.N) (i : S2x8192x8192.Idx) :
    i ∈ ((cfg0.win 1).blk t).view.set ↔ ∀ a : Fin 3, win0_1.index t a * S1x256x8192.size a ≤ (i a).val
      ∧ (i a).val < win0_1.index t a * S1x256x8192.size a + S1x256x8192.size a := by
  show i ∈ ((View.whole main_v0).slice (win0_1.rect t)).set ↔ _
  rw [View.set_slice_whole, Rect.mem_set_unit]
  exact Iff.rfl

theorem cover0 (i : S2x8192x8192.Idx) : ∃ t : Fin cfg0.N, (cfg0.win 1).flush t = true ∧ i ∈ ((cfg0.win 1).blk t).view.set := by
  have h0 : (i 0).val < 2 := (i 0).isLt
  have h1 : (i 1).val < 8192 := (i 1).isLt
  have h2 : (i 2).val < 8192 := (i 2).isLt
  have hN : cfg0.N = 64 := N_0
  refine ⟨⟨32 * (i 0).val + (i 1).val / 256, by rw [hN]; omega⟩, flush0_1 _, ?_⟩
  rw [mem_blk0]
  obtain ⟨-, -, -, f0, f1, f2⟩ := idx_facts0 ⟨32 * (i 0).val + (i 1).val / 256, by rw [hN]; omega⟩
  intro a
  match a with
  | ⟨0, _⟩ =>
    show win0_1.index _ (0 : Fin 3) * 1 ≤ (i 0).val ∧ (i 0).val < win0_1.index _ (0 : Fin 3) * 1 + 1
    rw [f0]; show (32 * (i 0).val + (i 1).val / 256) / 32 * 1 ≤ (i 0).val ∧ (i 0).val < (32 * (i 0).val + (i 1).val / 256) / 32 * 1 + 1; omega
  | ⟨1, _⟩ =>
    show win0_1.index _ (1 : Fin 3) * 256 ≤ (i 1).val ∧ (i 1).val < win0_1.index _ (1 : Fin 3) * 256 + 256
    rw [f1]; show (32 * (i 0).val + (i 1).val / 256) % 32 * 256 ≤ (i 1).val ∧ (i 1).val < (32 * (i 0).val + (i 1).val / 256) % 32 * 256 + 256; omega
  | ⟨2, _⟩ =>
    show win0_1.index _ (2 : Fin 3) * 8192 ≤ (i 2).val ∧ (i 2).val < win0_1.index _ (2 : Fin 3) * 8192 + 8192
    rw [f2]; omega

/-- After the last write-back the output array is the adjacency matrix, entry by entry. -/
theorem val0 (c : Dev nD) : (dat0 (F := Ideal) V c).arrAt 1 cfg0.N = adj0 V c :=
  (dat0 (F := Ideal) V c).arrAt_eq_of_cover 1 (adj0 V c) (fun t _ => flushed0_eq V c t) (cover0)

end Cert.KernelIdeal.Hand

end
-- ==== Proof.KI.R1Val.lean ====
import proofs.«137169_j48112223650339_1_alg».proof.Proof.Gen.KernelIdeal.Launch
import proofs.«137169_j48112223650339_1_alg».proof.Proof.Gen.KernelIdeal.Skeleton
import proofs.«137169_j48112223650339_1_alg».proof.Proof.Gen.KernelIdeal.Points
import Idealize.ShloMosaic.Lib.Pipeline.FrameBody
import Idealize.ShloMosaic.Lib.Pipeline.Frame
import Idealize.ShloMosaic.Lib.Tactic
import proofs.«137169_j48112223650339_1_alg».proof.Proof.KI.R1
import proofs.«137169_j48112223650339_1_alg».proof.Proof.Spec
import proofs.«137169_j48112223650339_1_alg».proof.Proof.KI.Dots
import Idealize.ShloMosaic.Lib.Pipeline.Value
import Idealize.ShloMosaic.Lib.ValueIdx
import Idealize.ShloMosaic.Lib.ValueLayout
import Idealize.ShloMosaic.PureOps.Ideal.Laws

/-! Region 1's value: its output array is `Spec.lin` of the three arrays it reads. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

theorem zeros1_3 : (![0, 0, 0] : Fin 3 → Nat) = fun _ => 0 := funext fun a => by fin_cases a <;> rfl
theorem zeros1_2 : (![0, 0] : Fin 2 → Nat) = fun _ => 0 := funext fun a => by fin_cases a <;> rfl

theorem out1_eq_pay1 (x : Vec F S1x1024x128 .f32) (w : Vec F S64x128 .f32) (bias : Vec F S1x64 .f32) :
    out1 x w bias = k1_pay1 x w bias := by
  unfold out1
  rw [View.canon_unit_zero zeros1_3, View.ld_unit_zero (S := S1x1024x128) zeros1_3,
    View.ld_unit_zero (S := S64x128) zeros1_2, View.ld_unit_zero (S := S1x64) zeros1_2]

theorem pay1_entry (x : Vec Ideal S1x1024x128 .f32) (w : Vec Ideal S64x128 .f32) (bias : Vec Ideal S1x64 .f32)
    (u : Fin 1) (p : Fin 1024) (q : Fin 64) :
    k1_pay1 (F := Ideal) x w bias (ix3 u p q)
      = (∑ κ : Fin 128, x (ix3 (0 : Fin 1) p κ) * w (ix2 q κ)) + bias (ix2 (0 : Fin 1) q) := by
  unfold k1_pay1
  refine (shapeCast_ab_1ab_apply _ _ u p q).trans ?_
  refine (addf_apply _ _ _).trans ?_
  refine congrArg₂ (· + ·) ?_ ?_
  ·
    refine (Cert.KernelIdeal.Dots.lin_dot _ _ p q).trans ?_
    refine Finset.sum_congr rfl fun κ _ => ?_
    refine congrArg₂ (· * ·) ?_ ?_
    · exact (truncf_apply (φ := .f32) (ψ := .bf16) _ bitsLt_bf16_f32 _).trans (shapeCast_1ab_ab_apply x _ p κ)
    · exact truncf_apply (φ := .f32) (ψ := .bf16) _ bitsLt_bf16_f32 _
  ·
    refine (broadcastTo_1b_ab_apply _ _ p q).trans ?_
    exact congrFun (shapeCast_self bias _) _

theorem idx1 : ∀ t : Fin cfg1.N,
    win1_0.index t (0 : Fin 3) = win1_3.index t (0 : Fin 3) ∧ win1_0.index t (1 : Fin 3) = win1_3.index t (1 : Fin 3)
    ∧ win1_0.index t (2 : Fin 3) = 0
    ∧ win1_1.index t (0 : Fin 2) = 0 ∧ win1_1.index t (1 : Fin 2) = 0
    ∧ win1_2.index t (0 : Fin 2) = 0 ∧ win1_2.index t (1 : Fin 2) = 0
    ∧ win1_3.index t (2 : Fin 3) = 0 :=
  (by decide +kernel : ∀ t : Fin grid1.N, _)

theorem onto1 : ∀ (b : Fin 2) (i : Fin 8), ∃ t : Fin cfg1.N, win1_3.index t = ![b.val, i.val, 0] :=
  (by decide +kernel : ∀ (b : Fin 2) (i : Fin 8), ∃ t : Fin grid1.N, win1_3.index t = ![b.val, i.val, 0])

variable (V : (c : Dev nD) → (b : Ref sig .tc) → Buf (Elt Ideal) ((c : Thread nD τ).loc b))

theorem xblk1_entry (c : Dev nD) (t : Fin cfg1.N) (p : Fin 1024) (κ : Fin 128) (b : Fin 2) (n : Fin 8192)
    (hb : win1_0.index t (0 : Fin 3) = b.val) (hn : win1_0.index t (1 : Fin 3) * 1024 + p.val = n.val)
    (h2 : win1_0.index t (2 : Fin 3) = 0) :
    (blk1 (F := Ideal) V c 0 t : Vec Ideal S1x1024x128 .f32) (ix3 (0 : Fin 1) p κ)
      = (V c main_arg0 : S2x8192x128.Idx → EReal) (ix3 b n κ) := by
  unfold blk1
  rw [View.read_apply]
  show V c main_arg0 _ = V c main_arg0 _
  congr 1
  funext a; apply Fin.ext
  match a with
  | ⟨0, _⟩ => show win1_0.index t (0 : Fin 3) * 1 + 1 * 0 = b.val; omega
  | ⟨1, _⟩ => show win1_0.index t (1 : Fin 3) * 1024 + 1 * p.val = n.val; omega
  | ⟨2, _⟩ => show win1_0.index t (2 : Fin 3) * 128 + 1 * κ.val = κ.val; omega

theorem wblk1_entry (c : Dev nD) (t : Fin cfg1.N) (q : Fin 64) (κ : Fin 128)
    (h0 : win1_1.index t (0 : Fin 2) = 0) (h1 : win1_1.index t (1 : Fin 2) = 0) :
    (blk1 (F := Ideal) V c 1 t : Vec Ideal S64x128 .f32) (ix2 q κ) = (V c main_arg2 : S64x128.Idx → EReal) (ix2 q κ) := by
  unfold blk1
  rw [View.read_apply]
  show V c main_arg2 _ = V c main_arg2 _
  congr 1
  funext a; apply Fin.ext
  match a with
  | ⟨0, _⟩ => show win1_1.index t (0 : Fin 2) * 64 + 1 * q.val = q.val; omega
  | ⟨1, _⟩ => show win1_1.index t (1 : Fin 2) * 128 + 1 * κ.val = κ.val; omega

theorem bblk1_entry (c : Dev nD) (t : Fin cfg1.N) (q : Fin 64)
    (h0 : win1_2.index t (0 : Fin 2) = 0) (h1 : win1_2.index t (1 : Fin 2) = 0) :
    (blk1 (F := Ideal) V c 2 t : Vec Ideal S1x64 .f32) (ix2 (0 : Fin 1) q) = (V c main_v1 : S1x64.Idx → EReal) (ix2 (0 : Fin 1) q) := by
  unfold blk1
  rw [View.read_apply]
  show V c main_v1 _ = V c main_v1 _
  congr 1
  funext a; apply Fin.ext
  match a with
  | ⟨0, _⟩ => show win1_2.index t (0 : Fin 2) * 1 + 1 * 0 = 0; omega
  | ⟨1, _⟩ => show win1_2.index t (1 : Fin 2) * 64 + 1 * q.val = q.val; omega

theorem out1_entry (c : Dev nD) (t : Fin cfg1.N) (y : S1x1024x64.Idx) (k : S2x8192x64.Idx)
    (h0 : (k 0).val = win1_3.index t (0 : Fin 3) * 1 + 1 * (y 0).val)
    (h1 : (k 1).val = win1_3.index t (1 : Fin 3) * 1024 + 1 * (y 1).val)
    (h2 : (k 2).val = win1_3.index t (2 : Fin 3) * 64 + 1 * (y 2).val) :
    out1 (blk1 (F := Ideal) V c 0 t) (blk1 V c 1 t) (blk1 V c 2 t) y
      = Cert.Spec.lin (V c main_arg0) (V c main_arg2) (V c main_v1) k := by
  obtain ⟨e0, e1, e2, e3, e4, e5, e6, e7⟩ := idx1 t
  obtain ⟨u, p, q, rfl⟩ : ∃ (u : Fin 1) (p : Fin 1024) (q : Fin 64), y = ix3 u p q := ⟨y 0, y 1, y 2, eq_ix3 y⟩
  obtain ⟨b, n, h, rfl⟩ : ∃ (b : Fin 2) (n : Fin 8192) (h : Fin 64), k = ix3 b n h := ⟨k 0, k 1, k 2, eq_ix3 k⟩
  have hu : u.val = 0 := by omega
  have h0' : b.val = win1_3.index t (0 : Fin 3) * 1 + 1 * u.val := h0
  have h1' : n.val = win1_3.index t (1 : Fin 3) * 1024 + 1 * p.val := h1
  have h2' : h.val = win1_3.index t (2 : Fin 3) * 64 + 1 * q.val := h2
  obtain rfl : h = q := Fin.ext (by omega)
  refine (congrFun (out1_eq_pay1 (blk1 (F := Ideal) V c 0 t) (blk1 V c 1 t) (blk1 V c 2 t)) (ix3 u p h)).trans ?_
  refine (pay1_entry (blk1 (F := Ideal) V c 0 t) (blk1 V c 1 t) (blk1 V c 2 t) u p h).trans ?_
  show _ = Cert.Spec.linC (V c main_arg0) (V c main_arg2) (V c main_v1) b n h
  unfold Cert.Spec.linC
  refine congrArg₂ (· + ·) (Finset.sum_congr rfl fun κ _ => congrArg₂ (· * ·) ?_ ?_) ?_
  · exact xblk1_entry V c t p κ b n (by omega) (by omega) e2
  · exact wblk1_entry V c t h κ e3 e4
  · exact bblk1_entry V c t h e5 e6

theorem flushed1 (c : Dev nD) (t : Fin cfg1.N) :
    (dat1 (F := Ideal) V c).flushed 3 t
      = ((cfg1.win 3).blk t).view.read (Elt Ideal) (Cert.Spec.lin (V c main_arg0) (V c main_arg2) (V c main_v1)) := by
  show (cfg1.win 3).cut (grid1.coords t) ((dat1 V c).after 3 t) = _
  rw [dat1_after3]
  funext j
  rw [View.read_apply]
  exact out1_entry V c t j (((cfg1.win 3).blk t).view.emb j) rfl rfl rfl

theorem cover1 (i : S2x8192x64.Idx) :
    ∃ t : Fin cfg1.N, (cfg1.win 3).flush t = true ∧ i ∈ ((cfg1.win 3).blk t).view.set := by
  obtain ⟨b, n, h, rfl⟩ : ∃ (b : Fin 2) (n : Fin 8192) (h : Fin 64), i = ix3 b n h := ⟨i 0, i 1, i 2, eq_ix3 i⟩
  obtain ⟨t, ht⟩ := onto1 b ⟨n.val / 1024, by have := n.isLt; omega⟩
  have q0 : win1_3.index t (0 : Fin 3) = b.val := congrFun ht 0
  have q1 : win1_3.index t (1 : Fin 3) = n.val / 1024 := congrFun ht 1
  have q2 : win1_3.index t (2 : Fin 3) = 0 := congrFun ht 2
  refine ⟨t, flush1_3 t, ?_⟩
  have e : ix3 b n h = ((cfg1.win 3).blk t).view.emb
      (ix3 (0 : Fin 1) (⟨n.val % 1024, Nat.mod_lt _ (by decide)⟩ : Fin 1024) h : S1x1024x64.Idx) := by
    funext a; apply Fin.ext
    match a with
    | ⟨0, _⟩ => show b.val = win1_3.index t (0 : Fin 3) * 1 + 1 * 0; omega
    | ⟨1, _⟩ => show n.val = win1_3.index t (1 : Fin 3) * 1024 + 1 * (n.val % 1024); omega
    | ⟨2, _⟩ => show h.val = win1_3.index t (2 : Fin 3) * 64 + 1 * h.val; omega
  rw [e]
  exact View.emb_mem_set _ _

/-- The blocks written back, one per batch and block of rows, cover the output array. -/
theorem val1 (c : Dev nD) :
    (dat1 (F := Ideal) V c).arrAt 3 cfg1.N = Cert.Spec.lin (V c main_arg0) (V c main_arg2) (V c main_v1) :=
  (dat1 (F := Ideal) V c).arrAt_eq_of_cover 3 _ (fun t _ => flushed1 V c t) cover1

end Cert.KernelIdeal.Hand

end
-- ==== Proof.KI.R6Val.lean ====
import proofs.«137169_j48112223650339_1_alg».proof.Proof.Gen.KernelIdeal.Launch
import proofs.«137169_j48112223650339_1_alg».proof.Proof.Gen.KernelIdeal.Skeleton
import proofs.«137169_j48112223650339_1_alg».proof.Proof.Gen.KernelIdeal.Points
import proofs.«137169_j48112223650339_1_alg».proof.Proof.KI.R6
import proofs.«137169_j48112223650339_1_alg».proof.Proof.KI.Dots
import proofs.«137169_j48112223650339_1_alg».proof.Proof.Spec
import Idealize.ShloMosaic.Lib.Pipeline.FrameBody
import Idealize.ShloMosaic.Lib.Pipeline.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

/-! Region 6's value: its output array is `Spec.readRelu` of the three arrays it reads. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

local notation "𝕄" => MT nD τ sig Unit (Elt Ideal) ℕ (UR sig nD τ) ℕ

theorem off6_zero3 : (![0, 0, 0] : Fin 3 → Nat) = fun _ => 0 := funext fun a => by fin_cases a <;> rfl
theorem off6_zero2 : (![0, 0] : Fin 2 → Nat) = fun _ => 0 := funext fun a => by fin_cases a <;> rfl

theorem out6_apply (d : Vec Ideal S1x1024x64 .f32) (w : Vec Ideal S64x64 .f32) (b : Vec Ideal S1x64 .f32) (p : Fin 1024) (q : Fin 64) :
    out6 (F := Ideal) d w b (ix3 (0 : Fin 1) p q)
      = max ((∑ κ : Fin 64, (d (ix3 (0 : Fin 1) p κ) : EReal) * (w (ix2 q κ) : EReal)) + (b (ix2 (0 : Fin 1) q) : EReal)) 0 := by
  unfold out6
  rw [View.canon_unit_zero off6_zero3]
  simp only [View.ld_unit_zero (S := S1x1024x64) off6_zero3, View.ld_unit_zero (S := S64x64) off6_zero2,
    View.ld_unit_zero (S := S1x64) off6_zero2]
  unfold k6_pay1
  refine (shapeCast_ab_1ab_apply _ _ (0 : Fin 1) p q).trans ?_
  refine (maximumf_apply _ _ _).trans ?_
  refine congrArg₂ max ?_ ?_
  · refine (addf_apply _ _ _).trans ?_
    refine congrArg₂ (· + ·) ?_ ?_
    · refine (Dots.read_dot _ _ p q).trans ?_
      refine Finset.sum_congr rfl fun κ _ => ?_
      refine congrArg₂ (· * ·) ?_ ?_
      · exact (truncf_apply (ψ := .bf16) _ bitsLt_bf16_f32 (ix2 p κ)).trans (shapeCast_1ab_ab_apply d _ p κ)
      · exact (truncf_apply (ψ := .bf16) _ bitsLt_bf16_f32 (ix2 q κ)).trans (congrFun (shapeCast_self w _) _)
    · exact (broadcastTo_1b_ab_apply _ _ p q).trans (congrFun (shapeCast_self b _) _)
  · exact Ideal.ofBits_zero_f32

theorem idx6_facts : ∀ t : Fin cfg6.N,
    win6_0.index t (0 : Fin 3) = win6_3.index t (0 : Fin 3) ∧ win6_0.index t (1 : Fin 3) = win6_3.index t (1 : Fin 3)
    ∧ win6_0.index t (2 : Fin 3) = 0 ∧ win6_3.index t (2 : Fin 3) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 3) = t.val / 8 ∧ win6_3.index t (1 : Fin 3) = t.val % 8 :=
  (by decide +kernel : ∀ t : Fin grid6.N, _)

theorem blk6_0_apply (V : (c : Dev nD) → (b : Ref sig .tc) → Buf (Elt Ideal) ((c : Thread nD τ).loc b)) (c : Dev nD)
    (t : Fin cfg6.N) (p : Fin 1024) (κ : Fin 64) (k : S2x8192x64.Idx)
    (h0 : (k 0).val = win6_3.index t (0 : Fin 3)) (h1 : (k 1).val = win6_3.index t (1 : Fin 3) * 1024 + p.val)
    (h2 : (k 2).val = κ.val) :
    (blk6 (F := Ideal) V c 0 t : S1x1024x64.Idx → EReal) (ix3 (0 : Fin 1) p κ) = (V c main_v6 : S2x8192x64.Idx → EReal) k := by
  obtain ⟨e0, e1, e2, -⟩ := idx6_facts t
  unfold blk6
  rw [View.read_apply]
  show V c main_v6 (((cfg6.win 0).blk t).view.emb (ix3 (0 : Fin 1) p κ)) = V c main_v6 k
  refine congrArg (V c main_v6) (funext fun a => Fin.ext ?_)
  match a with
  | ⟨0, _⟩ => show win6_0.index t (0 : Fin 3) * 1 + 1 * (0 : Fin 1).val = (k 0).val; rw [h0, e0]; simp
  | ⟨1, _⟩ => show win6_0.index t (1 : Fin 3) * 1024 + 1 * p.val = (k 1).val; rw [h1, e1]; omega
  | ⟨2, _⟩ => show win6_0.index t (2 : Fin 3) * 64 + 1 * κ.val = (k 2).val; rw [h2, e2]; omega

theorem blk6_1_apply (V : (c : Dev nD) → (b : Ref sig .tc) → Buf (Elt Ideal) ((c : Thread nD τ).loc b)) (c : Dev nD)
    (t : Fin cfg6.N) (j : S64x64.Idx) :
    (blk6 (F := Ideal) V c 1 t : S64x64.Idx → EReal) j = (V c main_v8 : S64x64.Idx → EReal) j := by
  obtain ⟨-, -, -, -, e4, e5, -⟩ := idx6_facts t
  unfold blk6
  rw [View.read_apply]
  show V c main_v8 (((cfg6.win 1).blk t).view.emb j) = V c main_v8 j
  refine congrArg (V c main_v8) (funext fun a => Fin.ext ?_)
  match a with
  | ⟨0, _⟩ => show win6_1.index t (0 : Fin 2) * 64 + 1 * (j 0).val = (j 0).val; rw [e4]; omega
  | ⟨1, _⟩ => show win6_1.index t (1 : Fin 2) * 64 + 1 * (j 1).val = (j 1).val; rw [e5]; omega

theorem blk6_2_apply (V : (c : Dev nD) → (b : Ref sig .tc) → Buf (Elt Ideal) ((c : Thread nD τ).loc b)) (c : Dev nD)
    (t : Fin cfg6.N) (j : S1x64.Idx) :
    (blk6 (F := Ideal) V c 2 t : S1x64.Idx → EReal) j = (V c main_v11 : S1x64.Idx → EReal) j := by
  obtain ⟨-, -, -, -, -, -, e6, e7, -⟩ := idx6_facts t
  unfold blk6
  rw [View.read_apply]
  show V c main_v11 (((cfg6.win 2).blk t).view.emb j) = V c main_v11 j
  refine congrArg (V c main_v11) (funext fun a => Fin.ext ?_)
  match a with
  | ⟨0, _⟩ => show win6_2.index t (0 : Fin 2) * 1 + 1 * (j 0).val = (j 0).val; rw [e6]; omega
  | ⟨1, _⟩ => show win6_2.index t (1 : Fin 2) * 64 + 1 * (j 1).val = (j 1).val; rw [e7]; omega

theorem readRelu_at (D : Cert.Spec.SH.Idx → EReal) (W : Cert.Spec.SW.Idx → EReal) (B : Cert.Spec.SRow.Idx → EReal) (i : Cert.Spec.SH.Idx) :
    Cert.Spec.readRelu D W B i
      = max ((∑ κ : Fin 64, D (ix3 (i 0) (i 1) κ) * W (ix2 (i 2) κ)) + B (ix2 (0 : Fin 1) (i 2))) 0 := rfl

theorem flushed6_eq (V : (c : Dev nD) → (b : Ref sig .tc) → Buf (Elt Ideal) ((c : Thread nD τ).loc b)) (c : Dev nD)
    (t : Fin cfg6.N) :
    (dat6 (F := Ideal) V c).flushed 3 t
      = ((cfg6.win 3).blk t).view.read (Elt Ideal) (Cert.Spec.readRelu (V c main_v6) (V c main_v8) (V c main_v11)) := by
  show (cfg6.win 3).cut (grid6.coords t) ((dat6 (F := Ideal) V c).after 3 t) = _
  rw [dat6_after3]
  refine funext fun (j : S1x1024x64.Idx) => ?_
  obtain ⟨u, p, q, rfl⟩ : ∃ (u : Fin 1) (p : Fin 1024) (q : Fin 64), j = ix3 u p q := ⟨j 0, j 1, j 2, eq_ix3 j⟩
  obtain rfl : u = 0 := Subsingleton.elim _ _
  obtain ⟨-, -, -, e3, -⟩ := idx6_facts t
  rw [View.read_apply]
  show out6 (F := Ideal) (blk6 V c 0 t) (blk6 V c 1 t) (blk6 V c 2 t) (ix3 (0 : Fin 1) p q)
    = Cert.Spec.readRelu (V c main_v6) (V c main_v8) (V c main_v11) (((cfg6.win 3).blk t).view.emb (ix3 (0 : Fin 1) p q))
  refine (out6_apply _ _ _ p q).trans ?_
  have c0 : ((((cfg6.win 3).blk t).view.emb (ix3 (0 : Fin 1) p q)) 0).val = win6_3.index t (0 : Fin 3) := by
    show win6_3.index t (0 : Fin 3) * 1 + 1 * (0 : Fin 1).val = _; simp
  have c1 : ((((cfg6.win 3).blk t).view.emb (ix3 (0 : Fin 1) p q)) 1).val = win6_3.index t (1 : Fin 3) * 1024 + p.val := by
    show win6_3.index t (1 : Fin 3) * 1024 + 1 * p.val = _; omega
  have c2 : ((((cfg6.win 3).blk t).view.emb (ix3 (0 : Fin 1) p q)) 2).val = q.val := by
    show win6_3.index t (2 : Fin 3) * 64 + 1 * q.val = _; rw [e3]; omega
  refine Eq.trans ?_ (readRelu_at _ _ _ _).symm
  refine congrArg₂ max (congrArg₂ (· + ·) (Finset.sum_congr rfl fun κ _ => congrArg₂ (· * ·) ?_ ?_) ?_) rfl
  · exact blk6_0_apply V c t p κ _ c0 c1 rfl
  · refine (blk6_1_apply V c t (ix2 q κ)).trans (congrArg (V c main_v8) ?_)
    exact funext fun a => Fin.ext (by match a with | ⟨0, _⟩ => exact c2.symm | ⟨1, _⟩ => rfl)
  · refine (blk6_2_apply V c t (ix2 (0 : Fin 1) q)).trans (congrArg (V c main_v11) ?_)
    exact funext fun a => Fin.ext (by match a with | ⟨0, _⟩ => rfl | ⟨1, _⟩ => exact c2.symm)

theorem mem_blk6 (t : Fin cfg6.N) (i : S2x8192x64.Idx) :
    i ∈ ((cfg6.win 3).blk t).view.set ↔ ∀ a : Fin 3, win6_3.index t a * S1x1024x64.size a ≤ (i a).val
      ∧ (i a).val < win6_3.index t a * S1x1024x64.size a + S1x1024x64.size a := by
  show i ∈ ((View.whole main_v12).slice (win6_3.rect t)).set ↔ _
  rw [View.set_slice_whole, Rect.mem_set_unit]
  exact Iff.rfl

theorem cover6 (i : S2x8192x64.Idx) :
    ∃ t : Fin cfg6.N, (cfg6.win 3).flush t = true ∧ i ∈ ((cfg6.win 3).blk t).view.set := by
  have hi0 : (i 0).val < 2 := (i 0).isLt
  have hi1 : (i 1).val < 8192 := (i 1).isLt
  have hi2 : (i 2).val < 64 := (i 2).isLt
  obtain ⟨t, ht⟩ : ∃ t : Fin cfg6.N, t.val = (i 0).val * 8 + (i 1).val / 1024 :=
    ⟨⟨(i 0).val * 8 + (i 1).val / 1024, by rw [show cfg6.N = 16 from N_6]; omega⟩, rfl⟩
  obtain ⟨-, -, -, e3, -, -, -, -, e8, e9⟩ := idx6_facts t
  refine ⟨t, flush6_3 t, ?_⟩
  rw [mem_blk6]
  intro a
  match a with
  | ⟨0, _⟩ =>
    show win6_3.index t (0 : Fin 3) * 1 ≤ (i 0).val ∧ (i 0).val < win6_3.index t (0 : Fin 3) * 1 + 1
    rw [e8, ht]; omega
  | ⟨1, _⟩ =>
    show win6_3.index t (1 : Fin 3) * 1024 ≤ (i 1).val ∧ (i 1).val < win6_3.index t (1 : Fin 3) * 1024 + 1024
    rw [e9, ht]; omega
  | ⟨2, _⟩ =>
    show win6_3.index t (2 : Fin 3) * 64 ≤ (i 2).val ∧ (i 2).val < win6_3.index t (2 : Fin 3) * 64 + 64
    rw [e3]; omega

/-- The blocks written back cover the output array. -/
theorem val6 (V : (c : Dev nD) → (b : Ref sig .tc) → Buf (Elt Ideal) ((c : Thread nD τ).loc b)) (c : Dev nD) :
    (dat6 (F := Ideal) V c).arrAt 3 cfg6.N = Cert.Spec.readRelu (V c main_v6) (V c main_v8) (V c main_v11) :=
  (dat6 (F := Ideal) V c).arrAt_eq_of_cover 3 _ (fun t _ => flushed6_eq V c t) cover6

end Cert.KernelIdeal.Hand

end
-- ==== Proof.KI.R11Val.lean ====
import proofs.«137169_j48112223650339_1_alg».proof.Proof.Gen.KernelIdeal.Launch
import proofs.«137169_j48112223650339_1_alg».proof.Proof.Gen.KernelIdeal.Skeleton
import proofs.«137169_j48112223650339_1_alg».proof.Proof.Gen.KernelIdeal.Points
import Idealize.ShloMosaic.Lib.Pipeline.FrameBody
import Idealize.ShloMosaic.Lib.Pipeline.Frame
import Idealize.ShloMosaic.Lib.Tactic
import proofs.«137169_j48112223650339_1_alg».proof.Proof.KI.R11
import proofs.«137169_j48112223650339_1_alg».proof.Proof.Spec
import proofs.«137169_j48112223650339_1_alg».proof.Proof.KI.Dots
import Idealize.ShloMosaic.Lib.Pipeline.Value
import Idealize.ShloMosaic.Lib.ValueIdx
import Idealize.ShloMosaic.Lib.ValueLayout
import Idealize.ShloMosaic.PureOps.Ideal.Laws

/-! Region 11's value: its output array is `Spec.readRes` of the three arrays it reads. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt Ideal) ((c : Thread nD τ).loc b))

open Idealize.ShloMosaic.ValueIdx

theorem hz11_3 : (![0, 0, 0] : Fin 3 → Nat) = fun _ => 0 := funext fun a => by fin_cases a <;> rfl
theorem hz11_2 : (![0, 0] : Fin 2 → Nat) = fun _ => 0 := funext fun a => by fin_cases a <;> rfl

theorem out11_apply (d : Vec Ideal S1x1024x64 .f32) (w : Vec Ideal S64x64 .f32) (bias : Vec Ideal S1x64 .f32)
    (p : Fin 1024) (q : Fin 64) :
    out11 (F := Ideal) d w bias (ix3 (0 : Fin 1) p q)
      = ((∑ κ : Fin 64, d (ix3 (0 : Fin 1) p κ) * w (ix2 q κ)) + bias (ix2 (0 : Fin 1) q)) + d (ix3 (0 : Fin 1) p q) := by
  unfold out11
  rw [View.canon_unit_zero hz11_3, View.ld_unit_zero (S := S1x1024x64) hz11_3, View.ld_unit_zero (S := S64x64) hz11_2,
    View.ld_unit_zero (S := S1x64) hz11_2]
  unfold k11_pay1
  refine (shapeCast_ab_1ab_apply _ shapeCasts_S1024x64_S1x1024x64 (0 : Fin 1) p q).trans ?_
  refine (addf_apply _ _ (ix2 p q)).trans ?_
  refine congrArg₂ (· + ·) ?_ (shapeCast_1ab_ab_apply d shapeCasts_S1x1024x64_S1024x64 p q)
  refine (addf_apply _ _ (ix2 p q)).trans ?_
  refine congrArg₂ (· + ·) ?_ ?_
  ·
    refine (Dots.read_dot _ _ p q).trans ?_
    refine Finset.sum_congr rfl fun κ _ => ?_
    refine congrArg₂ (· * ·) ?_ ?_
    · exact (truncf_apply (φ := .f32) (ψ := .bf16) (shapeCast S1024x64 d shapeCasts_S1x1024x64_S1024x64) bitsLt_bf16_f32 (ix2 p κ)).trans
        (shapeCast_1ab_ab_apply d shapeCasts_S1x1024x64_S1024x64 p κ)
    · exact (truncf_apply (φ := .f32) (ψ := .bf16) (shapeCast S64x64 w shapeCasts_S64x64_S64x64) bitsLt_bf16_f32 (ix2 q κ)).trans
        (congrFun (shapeCast_self w shapeCasts_S64x64_S64x64) (ix2 q κ))
  ·
    refine (broadcastTo_1b_ab_apply _ broadcasts_S1x64_S1024x64 p q).trans ?_
    exact congrFun (shapeCast_self bias shapeCasts_S1x64_S1x64) (ix2 (0 : Fin 1) q)

theorem idx_facts11 : ∀ t : Fin cfg11.N,
    win11_0.index t (0 : Fin 3) = t.val / 8 ∧ win11_0.index t (1 : Fin 3) = t.val % 8 ∧ win11_0.index t (2 : Fin 3) = 0
    ∧ win11_1.index t (0 : Fin 2) = 0 ∧ win11_1.index t (1 : Fin 2) = 0
    ∧ win11_2.index t (0 : Fin 2) = 0 ∧ win11_2.index t (1 : Fin 2) = 0
    ∧ win11_3.index t (0 : Fin 3) = t.val / 8 ∧ win11_3.index t (1 : Fin 3) = t.val % 8 ∧ win11_3.index t (2 : Fin 3) = 0 :=
  (by decide +kernel : ∀ t : Fin grid11.N, _)

theorem lt11 (t : Fin cfg11.N) : t.val < 16 := lt_of_lt_of_eq t.isLt N_11

def bat11 (t : Fin cfg11.N) : Fin 2 := ⟨t.val / 8, by have := lt11 t; omega⟩
def row11 (t : Fin cfg11.N) (p : Fin 1024) : Fin 8192 := ⟨1024 * (t.val % 8) + p.val, by have := p.isLt; omega⟩

abbrev feat11 (c : Dev nD) : S2x8192x64.Idx → EReal := V c main_v16
abbrev wgt11 (c : Dev nD) : S64x64.Idx → EReal := V c main_v18
abbrev bias11 (c : Dev nD) : S1x64.Idx → EReal := V c main_v21

abbrev fblk11 (c : Dev nD) (t : Fin cfg11.N) : Vec Ideal S1x1024x64 .f32 := blk11 (F := Ideal) V c 0 t
abbrev wblk11 (c : Dev nD) (t : Fin cfg11.N) : Vec Ideal S64x64 .f32 := blk11 (F := Ideal) V c 1 t
abbrev bblk11 (c : Dev nD) (t : Fin cfg11.N) : Vec Ideal S1x64 .f32 := blk11 (F := Ideal) V c 2 t

theorem blk11_0_apply (c : Dev nD) (t : Fin cfg11.N) (p : Fin 1024) (q : Fin 64) :
    fblk11 V c t (ix3 (0 : Fin 1) p q) = feat11 V c (ix3 (bat11 t) (row11 t p) q) := by
  obtain ⟨e0, e1, e2, -⟩ := idx_facts11 t
  show V c main_v16 (((cfg11.win 0).blk t).view.emb (ix3 (0 : Fin 1) p q)) = V c main_v16 (ix3 (bat11 t) (row11 t p) q)
  refine congrArg (V c main_v16) (funext fun a => Fin.ext ?_)
  match a with
  | ⟨0, _⟩ => show win11_0.index t (0 : Fin 3) * 1 + 1 * 0 = t.val / 8; omega
  | ⟨1, _⟩ => show win11_0.index t (1 : Fin 3) * 1024 + 1 * p.val = 1024 * (t.val % 8) + p.val; omega
  | ⟨2, _⟩ => show win11_0.index t (2 : Fin 3) * 64 + 1 * q.val = q.val; omega

theorem blk11_1_apply (c : Dev nD) (t : Fin cfg11.N) (q κ : Fin 64) :
    wblk11 V c t (ix2 q κ) = wgt11 V c (ix2 q κ) := by
  obtain ⟨-, -, -, e0, e1, -⟩ := idx_facts11 t
  show V c main_v18 (((cfg11.win 1).blk t).view.emb (ix2 q κ)) = V c main_v18 (ix2 q κ)
  refine congrArg (V c main_v18) (funext fun a => Fin.ext ?_)
  match a with
  | ⟨0, _⟩ => show win11_1.index t (0 : Fin 2) * 64 + 1 * q.val = q.val; omega
  | ⟨1, _⟩ => show win11_1.index t (1 : Fin 2) * 64 + 1 * κ.val = κ.val; omega

theorem blk11_2_apply (c : Dev nD) (t : Fin cfg11.N) (q : Fin 64) :
    bblk11 V c t (ix2 (0 : Fin 1) q) = bias11 V c (ix2 (0 : Fin 1) q) := by
  obtain ⟨-, -, -, -, -, e0, e1, -⟩ := idx_facts11 t
  show V c main_v21 (((cfg11.win 2).blk t).view.emb (ix2 (0 : Fin 1) q)) = V c main_v21 (ix2 (0 : Fin 1) q)
  refine congrArg (V c main_v21) (funext fun a => Fin.ext ?_)
  match a with
  | ⟨0, _⟩ => show win11_2.index t (0 : Fin 2) * 1 + 1 * 0 = 0; omega
  | ⟨1, _⟩ => show win11_2.index t (1 : Fin 2) * 64 + 1 * q.val = q.val; omega

theorem emb11_3 (t : Fin cfg11.N) (p : Fin 1024) (q : Fin 64) :
    ((cfg11.win 3).blk t).view.emb (ix3 (0 : Fin 1) p q) = ix3 (bat11 t) (row11 t p) q := by
  obtain ⟨-, -, -, -, -, -, -, e0, e1, e2⟩ := idx_facts11 t
  refine funext fun a => Fin.ext ?_
  match a with
  | ⟨0, _⟩ => show win11_3.index t (0 : Fin 3) * 1 + 1 * 0 = t.val / 8; omega
  | ⟨1, _⟩ => show win11_3.index t (1 : Fin 3) * 1024 + 1 * p.val = 1024 * (t.val % 8) + p.val; omega
  | ⟨2, _⟩ => show win11_3.index t (2 : Fin 3) * 64 + 1 * q.val = q.val; omega

abbrev res11 (c : Dev nD) : S2x8192x64.Idx → EReal := Cert.Spec.readRes (feat11 V c) (wgt11 V c) (bias11 V c)

theorem flushed11_eq (c : Dev nD) (t : Fin cfg11.N) :
    (dat11 (F := Ideal) V c).flushed 3 t = ((cfg11.win 3).blk t).view.read (Elt Ideal) (res11 V c) := by
  show (cfg11.win 3).cut (grid11.coords t) ((dat11 V c).after 3 t) = _
  rw [dat11_after3]
  funext j
  obtain ⟨u, p, q, rfl⟩ : ∃ (u : Fin 1) (p : Fin 1024) (q : Fin 64), j = ix3 u p q := ⟨j 0, j 1, j 2, eq_ix3 j⟩
  obtain rfl : u = 0 := Subsingleton.elim _ _
  refine (out11_apply (fblk11 V c t) (wblk11 V c t) (bblk11 V c t) p q).trans ?_
  refine (congrArg₂ (· + ·) (congrArg₂ (· + ·)
    (Finset.sum_congr rfl fun κ _ => congrArg₂ (· * ·) (blk11_0_apply V c t p κ) (blk11_1_apply V c t q κ))
    (blk11_2_apply V c t q)) (blk11_0_apply V c t p q)).trans ?_
  show _ = res11 V c (((cfg11.win 3).blk t).view.emb (ix3 (0 : Fin 1) p q))
  rw [emb11_3]
  rfl

theorem mem_blk11 (t : Fin cfg11.N) (i : S2x8192x64.Idx) :
    i ∈ ((cfg11.win 3).blk t).view.set ↔ ∀ a : Fin 3, win11_3.index t a * S1x1024x64.size a ≤ (i a).val
      ∧ (i a).val < win11_3.index t a * S1x1024x64.size a + S1x1024x64.size a := by
  show i ∈ ((View.whole main_v22).slice (win11_3.rect t)).set ↔ _
  rw [View.set_slice_whole, Rect.mem_set_unit]
  exact Iff.rfl

theorem cover11 (i : S2x8192x64.Idx) : ∃ t : Fin cfg11.N, (cfg11.win 3).flush t = true ∧ i ∈ ((cfg11.win 3).blk t).view.set := by
  have h0 : (i 0).val < 2 := (i 0).isLt
  have h1 : (i 1).val < 8192 := (i 1).isLt
  have h2 : (i 2).val < 64 := (i 2).isLt
  have hN : cfg11.N = 16 := N_11
  refine ⟨⟨8 * (i 0).val + (i 1).val / 1024, by rw [hN]; omega⟩, flush11_3 _, ?_⟩
  rw [mem_blk11]
  obtain ⟨-, -, -, -, -, -, -, f0, f1, f2⟩ := idx_facts11 ⟨8 * (i 0).val + (i 1).val / 1024, by rw [hN]; omega⟩
  intro a
  match a with
  | ⟨0, _⟩ =>
    show win11_3.index _ (0 : Fin 3) * 1 ≤ (i 0).val ∧ (i 0).val < win11_3.index _ (0 : Fin 3) * 1 + 1
    rw [f0]; show (8 * (i 0).val + (i 1).val / 1024) / 8 * 1 ≤ (i 0).val ∧ (i 0).val < (8 * (i 0).val + (i 1).val / 1024) / 8 * 1 + 1; omega
  | ⟨1, _⟩ =>
    show win11_3.index _ (1 : Fin 3) * 1024 ≤ (i 1).val ∧ (i 1).val < win11_3.index _ (1 : Fin 3) * 1024 + 1024
    rw [f1]; show (8 * (i 0).val + (i 1).val / 1024) % 8 * 1024 ≤ (i 1).val ∧ (i 1).val < (8 * (i 0).val + (i 1).val / 1024) % 8 * 1024 + 1024; omega
  | ⟨2, _⟩ =>
    show win11_3.index _ (2 : Fin 3) * 64 ≤ (i 2).val ∧ (i 2).val < win11_3.index _ (2 : Fin 3) * 64 + 64
    rw [f2]; omega

/-- The blocks written back cover the output array. -/
theorem val11 (c : Dev nD) : (dat11 (F := Ideal) V c).arrAt 3 cfg11.N = res11 V c :=
  (dat11 (F := Ideal) V c).arrAt_eq_of_cover 3 (res11 V c) (fun t _ => flushed11_eq V c t) cover11

end Cert.KernelIdeal.Hand

end
-- ==== Proof.KI.Value.lean ====
import proofs.«137169_j48112223650339_1_alg».proof.Proof.KI.Chain
import proofs.«137169_j48112223650339_1_alg».proof.Proof.KI.HostReads
import proofs.«137169_j48112223650339_1_alg».proof.Proof.Spec
import proofs.«137169_j48112223650339_1_alg».proof.Proof.KI.R0Val
import proofs.«137169_j48112223650339_1_alg».proof.Proof.KI.R1Val
import proofs.«137169_j48112223650339_1_alg».proof.Proof.KI.R2Val
import proofs.«137169_j48112223650339_1_alg».proof.Proof.KI.R6Val
import proofs.«137169_j48112223650339_1_alg».proof.Proof.KI.R11Val

/-! The stages compose along @main: each region reads what the items before it left, so the result array is `Spec.net` of the six
  argument arrays. -/

set_option maxRecDepth 16384

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ)

abbrev aX (c : Dev nD) : Cert.Spec.SX.Idx → EReal := m ((c : Thread nD τ).loc main_arg0)
abbrev aAdj (c : Dev nD) : Cert.Spec.SA.Idx → EReal := m ((c : Thread nD τ).loc main_arg1)
abbrev aW0 (c : Dev nD) : Cert.Spec.SW0.Idx → EReal := m ((c : Thread nD τ).loc main_arg2)
abbrev aB0 (c : Dev nD) : Cert.Spec.SB0.Idx → EReal := m ((c : Thread nD τ).loc main_arg3)
abbrev aWs (c : Dev nD) : Cert.Spec.SWs.Idx → EReal := m ((c : Thread nD τ).loc main_arg4)
abbrev aBs (c : Dev nD) : Cert.Spec.SBs.Idx → EReal := m ((c : Thread nD τ).loc main_arg5)

def s0 (c : Dev nD) : Cert.Spec.SH.Idx → EReal := Cert.Spec.lin (aX m c) (aW0 m c) (Cert.Spec.rowOf (aB0 m c))
def s1 (c : Dev nD) := Cert.Spec.diffuse (aAdj m c) (s0 m c)
def s2 (c : Dev nD) := Cert.Spec.diffuse (aAdj m c) (s1 m c)
def s3 (c : Dev nD) := Cert.Spec.diffuse (aAdj m c) (s2 m c)
def s4 (c : Dev nD) := Cert.Spec.diffuse (aAdj m c) (s3 m c)
def s5 (c : Dev nD) := Cert.Spec.readRelu (s4 m c) (Cert.Spec.layerW (aWs m c) 0) (Cert.Spec.layerB (aBs m c) 0)
def s6 (c : Dev nD) := Cert.Spec.diffuse (aAdj m c) (s5 m c)
def s7 (c : Dev nD) := Cert.Spec.diffuse (aAdj m c) (s6 m c)
def s8 (c : Dev nD) := Cert.Spec.diffuse (aAdj m c) (s7 m c)
def s9 (c : Dev nD) := Cert.Spec.diffuse (aAdj m c) (s8 m c)

def netOf (c : Dev nD) : Buf (Elt Ideal) ((c : Thread nD τ).loc main_v22) :=
  Cert.Spec.net (aX m c) (aAdj m c) (aW0 m c) (aB0 m c) (aWs m c) (aBs m c)

theorem netOf_eq (c : Dev nD) :
    netOf m c = Cert.Spec.readRes (s9 m c) (Cert.Spec.layerW (aWs m c) 1) (Cert.Spec.layerB (aBs m c) 1) := rfl

theorem W1_of (c : Dev nD) (r : Ref sig .tc) (h : r ∉ ([main_v0] : List (Ref sig .tc))) : W1 m c r = W0 m c r := by
  have e := Gen.V1_of m (outs m) c r h
  rwa [V1_eq] at e
theorem W2_of (c : Dev nD) (r : Ref sig .tc) (h : r ∉ hostOps1_W) : W2 m c r = W1 m c r := by
  have e := Gen.V2_of m (outs m) c r h
  rwa [V2_eq, V1_eq] at e
theorem W3_of (c : Dev nD) (r : Ref sig .tc) (h : r ∉ ([main_v2] : List (Ref sig .tc))) : W3 m c r = W2 m c r := by
  have e := Gen.V3_of m (outs m) c r h
  rwa [V3_eq, V2_eq] at e
theorem W4_of (c : Dev nD) (r : Ref sig .tc) (h : r ∉ ([main_v3] : List (Ref sig .tc))) : W4 m c r = W3 m c r := by
  have e := Gen.V4_of m (outs m) c r h
  rwa [V4_eq, V3_eq] at e
theorem W5_of (c : Dev nD) (r : Ref sig .tc) (h : r ∉ ([main_v4] : List (Ref sig .tc))) : W5 m c r = W4 m c r := by
  have e := Gen.V5_of m (outs m) c r h
  rwa [V5_eq, V4_eq] at e
theorem W6_of (c : Dev nD) (r : Ref sig .tc) (h : r ∉ ([main_v5] : List (Ref sig .tc))) : W6 m c r = W5 m c r := by
  have e := Gen.V6_of m (outs m) c r h
  rwa [V6_eq, V5_eq] at e
theorem W7_of (c : Dev nD) (r : Ref sig .tc) (h : r ∉ ([main_v6] : List (Ref sig .tc))) : W7 m c r = W6 m c r := by
  have e := Gen.V7_of m (outs m) c r h
  rwa [V7_eq, V6_eq] at e
theorem W8_of (c : Dev nD) (r : Ref sig .tc) (h : r ∉ hostOps6_W) : W8 m c r = W7 m c r := by
  have e := Gen.V8_of m (outs m) c r h
  rwa [V8_eq, V7_eq] at e
theorem W9_of (c : Dev nD) (r : Ref sig .tc) (h : r ∉ ([main_v12] : List (Ref sig .tc))) : W9 m c r = W8 m c r := by
  have e := Gen.V9_of m (outs m) c r h
  rwa [V9_eq, V8_eq] at e
theorem W10_of (c : Dev nD) (r : Ref sig .tc) (h : r ∉ ([main_v13] : List (Ref sig .tc))) : W10 m c r = W9 m c r := by
  have e := Gen.V10_of m (outs m) c r h
  rwa [V10_eq, V9_eq] at e
theorem W11_of (c : Dev nD) (r : Ref sig .tc) (h : r ∉ ([main_v14] : List (Ref sig .tc))) : W11 m c r = W10 m c r := by
  have e := Gen.V11_of m (outs m) c r h
  rwa [V11_eq, V10_eq] at e
theorem W12_of (c : Dev nD) (r : Ref sig .tc) (h : r ∉ ([main_v15] : List (Ref sig .tc))) : W12 m c r = W11 m c r := by
  have e := Gen.V12_of m (outs m) c r h
  rwa [V12_eq, V11_eq] at e
theorem W13_of (c : Dev nD) (r : Ref sig .tc) (h : r ∉ ([main_v16] : List (Ref sig .tc))) : W13 m c r = W12 m c r := by
  have e := Gen.V13_of m (outs m) c r h
  rwa [V13_eq, V12_eq] at e
theorem W14_of (c : Dev nD) (r : Ref sig .tc) (h : r ∉ hostOps11_W) : W14 m c r = W13 m c r := by
  have e := Gen.V14_of m (outs m) c r h
  rwa [V14_eq, V13_eq] at e
theorem W15_of (c : Dev nD) (r : Ref sig .tc) (h : r ∉ ([main_v22] : List (Ref sig .tc))) : W15 m c r = W14 m c r := by
  have e := Gen.V15_of m (outs m) c r h
  rwa [V15_eq, V14_eq] at e

theorem W0_arg (c : Dev nD) (r : Ref sig .tc) : W0 m c r = m ((c : Thread nD τ).loc r) := rfl
theorem W2_main_arg0 (c : Dev nD) : W2 m c main_arg0 = m ((c : Thread nD τ).loc main_arg0) :=
  (W2_of m c main_arg0 (by decide)).trans <| (W1_of m c main_arg0 (by decide))
theorem W2_main_arg2 (c : Dev nD) : W2 m c main_arg2 = m ((c : Thread nD τ).loc main_arg2) :=
  (W2_of m c main_arg2 (by decide)).trans <| (W1_of m c main_arg2 (by decide))

theorem W1_adj (c : Dev nD) : (W1 m c main_v0 : Cert.Spec.SA.Idx → EReal) = aAdj m c :=
  (Function.update_self (Proc.devRef .tc main_v0 : DevRef τ sig) (o1 m c) (W0 m c)).trans (val0 (rd (W0 m)) c)
theorem W3_adj (c : Dev nD) : (W3 m c main_v0 : Cert.Spec.SA.Idx → EReal) = aAdj m c :=
  ((W3_of m c main_v0 (by decide)).trans <| (W2_of m c main_v0 (by decide))).trans (W1_adj m c)
theorem W4_adj (c : Dev nD) : (W4 m c main_v0 : Cert.Spec.SA.Idx → EReal) = aAdj m c :=
  ((W4_of m c main_v0 (by decide)).trans <| (W3_of m c main_v0 (by decide)).trans <| (W2_of m c main_v0 (by decide))).trans (W1_adj m c)
theorem W5_adj (c : Dev nD) : (W5 m c main_v0 : Cert.Spec.SA.Idx → EReal) = aAdj m c :=
  ((W5_of m c main_v0 (by decide)).trans <| (W4_of m c main_v0 (by decide)).trans <| (W3_of m c main_v0 (by decide)).trans <| (W2_of m c main_v0 (by decide))).trans (W1_adj m c)
theorem W6_adj (c : Dev nD) : (W6 m c main_v0 : Cert.Spec.SA.Idx → EReal) = aAdj m c :=
  ((W6_of m c main_v0 (by decide)).trans <| (W5_of m c main_v0 (by decide)).trans <| (W4_of m c main_v0 (by decide)).trans <| (W3_of m c main_v0 (by decide)).trans <| (W2_of m c main_v0 (by decide))).trans (W1_adj m c)
theorem W9_adj (c : Dev nD) : (W9 m c main_v0 : Cert.Spec.SA.Idx → EReal) = aAdj m c :=
  ((W9_of m c main_v0 (by decide)).trans <| (W8_of m c main_v0 (by decide)).trans <| (W7_of m c main_v0 (by decide)).trans <| (W6_of m c main_v0 (by decide)).trans <| (W5_of m c main_v0 (by decide)).trans <| (W4_of m c main_v0 (by decide)).trans <| (W3_of m c main_v0 (by decide)).trans <| (W2_of m c main_v0 (by decide))).trans (W1_adj m c)
theorem W10_adj (c : Dev nD) : (W10 m c main_v0 : Cert.Spec.SA.Idx → EReal) = aAdj m c :=
  ((W10_of m c main_v0 (by decide)).trans <| (W9_of m c main_v0 (by decide)).trans <| (W8_of m c main_v0 (by decide)).trans <| (W7_of m c main_v0 (by decide)).trans <| (W6_of m c main_v0 (by decide)).trans <| (W5_of m c main_v0 (by decide)).trans <| (W4_of m c main_v0 (by decide)).trans <| (W3_of m c main_v0 (by decide)).trans <| (W2_of m c main_v0 (by decide))).trans (W1_adj m c)
theorem W11_adj (c : Dev nD) : (W11 m c main_v0 : Cert.Spec.SA.Idx → EReal) = aAdj m c :=
  ((W11_of m c main_v0 (by decide)).trans <| (W10_of m c main_v0 (by decide)).trans <| (W9_of m c main_v0 (by decide)).trans <| (W8_of m c main_v0 (by decide)).trans <| (W7_of m c main_v0 (by decide)).trans <| (W6_of m c main_v0 (by decide)).trans <| (W5_of m c main_v0 (by decide)).trans <| (W4_of m c main_v0 (by decide)).trans <| (W3_of m c main_v0 (by decide)).trans <| (W2_of m c main_v0 (by decide))).trans (W1_adj m c)
theorem W12_adj (c : Dev nD) : (W12 m c main_v0 : Cert.Spec.SA.Idx → EReal) = aAdj m c :=
  ((W12_of m c main_v0 (by decide)).trans <| (W11_of m c main_v0 (by decide)).trans <| (W10_of m c main_v0 (by decide)).trans <| (W9_of m c main_v0 (by decide)).trans <| (W8_of m c main_v0 (by decide)).trans <| (W7_of m c main_v0 (by decide)).trans <| (W6_of m c main_v0 (by decide)).trans <| (W5_of m c main_v0 (by decide)).trans <| (W4_of m c main_v0 (by decide)).trans <| (W3_of m c main_v0 (by decide)).trans <| (W2_of m c main_v0 (by decide))).trans (W1_adj m c)

theorem W3_feat (c : Dev nD) : (W3 m c main_v2 : Cert.Spec.SH.Idx → EReal) = s0 m c := by
  refine (Function.update_self (Proc.devRef .tc main_v2 : DevRef τ sig) (o3 m c) (W2 m c)).trans ((val1 (rd (W2 m)) c).trans ?_)
  show Cert.Spec.lin (W2 m c main_arg0) (W2 m c main_arg2) (W2 m c main_v1) = _
  rw [W2_main_arg0, W2_main_arg2, ← V2_eq, host_bias0]; rfl
theorem W4_feat (c : Dev nD) : (W4 m c main_v3 : Cert.Spec.SH.Idx → EReal) = s1 m c := by
  refine (Function.update_self (Proc.devRef .tc main_v3 : DevRef τ sig) (o4 m c) (W3 m c)).trans ((val2 (rd (W3 m)) c).trans ?_)
  show Cert.Spec.diffuse (W3 m c main_v0) (W3 m c main_v2) = _
  rw [W3_adj, W3_feat]; rfl
theorem W5_feat (c : Dev nD) : (W5 m c main_v4 : Cert.Spec.SH.Idx → EReal) = s2 m c := by
  refine (Function.update_self (Proc.devRef .tc main_v4 : DevRef τ sig) (o5 m c) (W4 m c)).trans ((val3 (rd (W4 m)) c).trans ?_)
  show Cert.Spec.diffuse (W4 m c main_v0) (W4 m c main_v3) = _
  rw [W4_adj, W4_feat]; rfl
theorem W6_feat (c : Dev nD) : (W6 m c main_v5 : Cert.Spec.SH.Idx → EReal) = s3 m c := by
  refine (Function.update_self (Proc.devRef .tc main_v5 : DevRef τ sig) (o6 m c) (W5 m c)).trans ((val4 (rd (W5 m)) c).trans ?_)
  show Cert.Spec.diffuse (W5 m c main_v0) (W5 m c main_v4) = _
  rw [W5_adj, W5_feat]; rfl
theorem W7_feat (c : Dev nD) : (W7 m c main_v6 : Cert.Spec.SH.Idx → EReal) = s4 m c := by
  refine (Function.update_self (Proc.devRef .tc main_v6 : DevRef τ sig) (o7 m c) (W6 m c)).trans ((val5 (rd (W6 m)) c).trans ?_)
  show Cert.Spec.diffuse (W6 m c main_v0) (W6 m c main_v5) = _
  rw [W6_adj, W6_feat]; rfl
theorem W9_feat (c : Dev nD) : (W9 m c main_v12 : Cert.Spec.SH.Idx → EReal) = s5 m c := by
  refine (Function.update_self (Proc.devRef .tc main_v12 : DevRef τ sig) (o9 m c) (W8 m c)).trans ((val6 (rd (W8 m)) c).trans ?_)
  show Cert.Spec.readRelu (W8 m c main_v6) (W8 m c main_v8) (W8 m c main_v11) = _
  rw [W8_of m c main_v6 (by decide), W7_feat, ← V8_eq, host_W_0, host_b_0]; rfl
theorem W10_feat (c : Dev nD) : (W10 m c main_v13 : Cert.Spec.SH.Idx → EReal) = s6 m c := by
  refine (Function.update_self (Proc.devRef .tc main_v13 : DevRef τ sig) (o10 m c) (W9 m c)).trans ((val7 (rd (W9 m)) c).trans ?_)
  show Cert.Spec.diffuse (W9 m c main_v0) (W9 m c main_v12) = _
  rw [W9_adj, W9_feat]; rfl
theorem W11_feat (c : Dev nD) : (W11 m c main_v14 : Cert.Spec.SH.Idx → EReal) = s7 m c := by
  refine (Function.update_self (Proc.devRef .tc main_v14 : DevRef τ sig) (o11 m c) (W10 m c)).trans ((val8 (rd (W10 m)) c).trans ?_)
  show Cert.Spec.diffuse (W10 m c main_v0) (W10 m c main_v13) = _
  rw [W10_adj, W10_feat]; rfl
theorem W12_feat (c : Dev nD) : (W12 m c main_v15 : Cert.Spec.SH.Idx → EReal) = s8 m c := by
  refine (Function.update_self (Proc.devRef .tc main_v15 : DevRef τ sig) (o12 m c) (W11 m c)).trans ((val9 (rd (W11 m)) c).trans ?_)
  show Cert.Spec.diffuse (W11 m c main_v0) (W11 m c main_v14) = _
  rw [W11_adj, W11_feat]; rfl
theorem W13_feat (c : Dev nD) : (W13 m c main_v16 : Cert.Spec.SH.Idx → EReal) = s9 m c := by
  refine (Function.update_self (Proc.devRef .tc main_v16 : DevRef τ sig) (o13 m c) (W12 m c)).trans ((val10 (rd (W12 m)) c).trans ?_)
  show Cert.Spec.diffuse (W12 m c main_v0) (W12 m c main_v15) = _
  rw [W12_adj, W12_feat]; rfl

/-- The result array after the last region is the network of the arguments. -/
theorem kernel_value (c : Dev nD) : Gen.V15 m (outs m) c main_v22 = netOf m c := by
  rw [V15_eq, netOf_eq]
  refine (Function.update_self (Proc.devRef .tc main_v22 : DevRef τ sig) (o15 m c) (W14 m c)).trans ((val11 (rd (W14 m)) c).trans ?_)
  show Cert.Spec.readRes (W14 m c main_v16) (W14 m c main_v18) (W14 m c main_v21) = _
  rw [W14_of m c main_v16 (by decide), W13_feat, ← V14_eq, host_W_1, host_b_1]

end Cert.KernelIdeal.Hand

end
-- ==== Proof.Ref.lean ====
import proofs.«137169_j48112223650339_1_alg».proof.Proof.Gen.ReferenceIdeal.Read
import proofs.«137169_j48112223650339_1_alg».proof.Proof.Spec

/-! The reference read at an index, one operation after the other: it computes the same stages, hence `Spec.net` of its arguments. -/

noncomputable section

namespace Cert.RefBridge

open Cert.ReferenceIdeal Cert.ReferenceIdeal.Gen Cert.ReferenceIdeal.Read Idealize.ShloMosaic Idealize.ShloMosaic.ValueIdx Cert.Spec

theorem diff_stage (A : (⟨S2x8192x8192, .f32⟩ : BufTy).Contents (Elt Ideal)) (D : (⟨S2x8192x64, .f32⟩ : BufTy).Contents (Elt Ideal)) :
    Host.dotGeneral (F := Ideal) (φ₁ := .f32) (φ₂ := .f32) dot_S2x8192x8192_S2x8192x64_S2x8192x64_2_1_1_2_0_0 none A D = diffuse A D := by
  funext i
  obtain ⟨b, n, h, rfl⟩ : ∃ (b : Fin 2) (n : Fin 8192) (h : Fin 64), i = ix3 b n h := ⟨i 0, i 1, i 2, eq_ix3 i⟩
  rw [diffuse, arr3_ix3, diffC]
  simp only [Host.dotGeneral]
  rw [Ideal.dotGeneral_apply, ← Equiv.sum_comp (contrEquiv1 dot_S2x8192x8192_S2x8192x64_S2x8192x64_2_1_1_2_0_0 8192 rfl rfl).symm]
  refine Finset.sum_congr rfl fun k _ => ?_
  have hk := contrEquiv1_symm_val dot_S2x8192x8192_S2x8192x64_S2x8192x64_2_1_1_2_0_0 8192 rfl rfl k
  have el : dot_S2x8192x8192_S2x8192x64_S2x8192x64_2_1_1_2_0_0.lhsIdx (ix3 b n h) ((contrEquiv1 dot_S2x8192x8192_S2x8192x64_S2x8192x64_2_1_1_2_0_0 8192 rfl rfl).symm k) = ix3 b n k := funext fun a => Fin.ext (by
    match a with
    | ⟨0, _⟩ => exact lhs_main_v4_0 _ _
    | ⟨1, _⟩ => exact lhs_main_v4_1 _ _
    | ⟨2, _⟩ => exact (lhs_main_v4_2 _ _).trans hk)
  have er : dot_S2x8192x8192_S2x8192x64_S2x8192x64_2_1_1_2_0_0.rhsIdx (ix3 b n h) ((contrEquiv1 dot_S2x8192x8192_S2x8192x64_S2x8192x64_2_1_1_2_0_0 8192 rfl rfl).symm k) = ix3 b k h := funext fun a => Fin.ext (by
    match a with
    | ⟨0, _⟩ => exact rhs_main_v4_0 _ _
    | ⟨1, _⟩ => exact (rhs_main_v4_1 _ _).trans hk
    | ⟨2, _⟩ => exact rhs_main_v4_2 _ _)
  rw [el, er]

theorem weight_stage (D : (⟨S2x8192x64, .f32⟩ : BufTy).Contents (Elt Ideal)) (W : (⟨S64x64, .f32⟩ : BufTy).Contents (Elt Ideal)) :
    Host.dotGeneral (F := Ideal) (φ₁ := .f32) (φ₂ := .f32) dot_S2x8192x64_S64x64_S2x8192x64_2_1_01_0_n_n none D W
      = arr3 fun b n h => ∑ κ : Fin 64, D (ix3 b n κ) * W (ix2 h κ) := by
  funext i
  obtain ⟨b, n, h, rfl⟩ : ∃ (b : Fin 2) (n : Fin 8192) (h : Fin 64), i = ix3 b n h := ⟨i 0, i 1, i 2, eq_ix3 i⟩
  rw [arr3_ix3]
  simp only [Host.dotGeneral]
  rw [Ideal.dotGeneral_apply, ← Equiv.sum_comp (contrEquiv1 dot_S2x8192x64_S64x64_S2x8192x64_2_1_01_0_n_n 64 rfl rfl).symm]
  refine Finset.sum_congr rfl fun k _ => ?_
  have hk := contrEquiv1_symm_val dot_S2x8192x64_S64x64_S2x8192x64_2_1_01_0_n_n 64 rfl rfl k
  have el : dot_S2x8192x64_S64x64_S2x8192x64_2_1_01_0_n_n.lhsIdx (ix3 b n h) ((contrEquiv1 dot_S2x8192x64_S64x64_S2x8192x64_2_1_01_0_n_n 64 rfl rfl).symm k) = ix3 b n k := funext fun a => Fin.ext (by
    match a with
    | ⟨0, _⟩ => exact lhs_main_v10_0 _ _
    | ⟨1, _⟩ => exact lhs_main_v10_1 _ _
    | ⟨2, _⟩ => exact (lhs_main_v10_2 _ _).trans hk)
  have er : dot_S2x8192x64_S64x64_S2x8192x64_2_1_01_0_n_n.rhsIdx (ix3 b n h) ((contrEquiv1 dot_S2x8192x64_S64x64_S2x8192x64_2_1_01_0_n_n 64 rfl rfl).symm k) = ix2 h k := funext fun a => Fin.ext (by
    match a with
    | ⟨0, _⟩ => exact rhs_main_v10_0 _ _
    | ⟨1, _⟩ => exact (rhs_main_v10_1 _ _).trans hk)
  rw [el, er]

theorem bias_first (x3 : (⟨S64, .f32⟩ : BufTy).Contents (Elt Ideal)) (b : Fin 2) (n : Fin 8192) (h : Fin 64) :
    val_main_v2 (F := Ideal) x3 (ix3 b n h) = rowOf x3 (ix2 (0 : Fin 1) h) := by
  rw [val_main_v2_apply, val_main_v1_apply]
  exact congrArg x3 (funext fun a => Fin.ext (by match a with | ⟨0, _⟩ => rfl))

theorem weight_zero (x4 : (⟨S2x64x64, .f32⟩ : BufTy).Contents (Elt Ideal)) :
    val_main_v9 (F := Ideal) x4 = layerW x4 0 := by
  funext j
  obtain ⟨p, q, rfl⟩ : ∃ (p : Fin 64) (q : Fin 64), j = ix2 p q := ⟨j 0, j 1, eq_ix2 j⟩
  rw [val_main_v9_apply, val_main_v8_apply]
  refine congrArg x4 (funext fun a => Fin.ext ?_)
  have hp := p.isLt
  have hq := q.isLt
  match a with
  | ⟨0, _⟩ => rfl
  | ⟨1, _⟩ => show (p.val * 64 + q.val) / 64 % 64 = p.val; omega
  | ⟨2, _⟩ => show (p.val * 64 + q.val) % 64 = q.val; omega

theorem weight_one (x4 : (⟨S2x64x64, .f32⟩ : BufTy).Contents (Elt Ideal)) :
    val_main_v22 (F := Ideal) x4 = layerW x4 1 := by
  funext j
  obtain ⟨p, q, rfl⟩ : ∃ (p : Fin 64) (q : Fin 64), j = ix2 p q := ⟨j 0, j 1, eq_ix2 j⟩
  rw [val_main_v22_apply, val_main_v21_apply]
  refine congrArg x4 (funext fun a => Fin.ext ?_)
  have hp := p.isLt
  have hq := q.isLt
  match a with
  | ⟨0, _⟩ => rfl
  | ⟨1, _⟩ => show (p.val * 64 + q.val) / 64 % 64 = p.val; omega
  | ⟨2, _⟩ => show (p.val * 64 + q.val) % 64 = q.val; omega

theorem bias_zero (x5 : (⟨S2x64, .f32⟩ : BufTy).Contents (Elt Ideal)) (b : Fin 2) (n : Fin 8192) (h : Fin 64) :
    val_main_v14 (F := Ideal) x5 (ix3 b n h) = layerB x5 0 (ix2 (0 : Fin 1) h) := by
  rw [val_main_v14_apply, val_main_v13_apply, val_main_v12_apply, val_main_v11_apply]
  refine congrArg x5 (funext fun a => Fin.ext ?_)
  have hh := h.isLt
  match a with
  | ⟨0, _⟩ => rfl
  | ⟨1, _⟩ => show h.val % 64 = h.val; omega

theorem bias_one (x5 : (⟨S2x64, .f32⟩ : BufTy).Contents (Elt Ideal)) (b : Fin 2) (n : Fin 8192) (h : Fin 64) :
    val_main_v27 (F := Ideal) x5 (ix3 b n h) = layerB x5 1 (ix2 (0 : Fin 1) h) := by
  rw [val_main_v27_apply, val_main_v26_apply, val_main_v25_apply, val_main_v24_apply]
  refine congrArg x5 (funext fun a => Fin.ext ?_)
  have hh := h.isLt
  match a with
  | ⟨0, _⟩ => rfl
  | ⟨1, _⟩ => show h.val % 64 = h.val; omega

theorem zero_const (i : S2x8192x64.Idx) : val_main_call0_v0 (F := Ideal) i = 0 := by
  rw [val_main_call0_v0_apply, val_main_call0_cst_apply]
  exact Ideal.ofBits_zero_f32

theorem lin_stage (x0 : (⟨S2x8192x128, .f32⟩ : BufTy).Contents (Elt Ideal)) (x2 : (⟨S64x128, .f32⟩ : BufTy).Contents (Elt Ideal))
    (x3 : (⟨S64, .f32⟩ : BufTy).Contents (Elt Ideal)) :
    val_main_v3 (F := Ideal) x0 x2 x3 = lin x0 x2 (rowOf x3) := by
  funext i
  obtain ⟨b, n, h, rfl⟩ : ∃ (b : Fin 2) (n : Fin 8192) (h : Fin 64), i = ix3 b n h := ⟨i 0, i 1, i 2, eq_ix3 i⟩
  rw [val_main_v3_apply, val_main_v0_apply, bias_first, lin, arr3_ix3, linC, Ideal.addf_def]
  refine congrArg (· + rowOf x3 (ix2 (0 : Fin 1) h)) (Finset.sum_congr rfl fun k _ => ?_)
  have el : lidx_main_v0 (ix3 b n h) k = ix3 b n k := funext fun a => Fin.ext (by
    match a with
    | ⟨0, _⟩ => rfl
    | ⟨1, _⟩ => rfl
    | ⟨2, _⟩ => rfl)
  have er : ridx_main_v0 (ix3 b n h) k = ix2 h k := funext fun a => Fin.ext (by
    match a with
    | ⟨0, _⟩ => rfl
    | ⟨1, _⟩ => rfl)
  rw [el, er]

theorem read_entry (D : (⟨S2x8192x64, .f32⟩ : BufTy).Contents (Elt Ideal)) (W : (⟨S64x64, .f32⟩ : BufTy).Contents (Elt Ideal))
    (bias : SRow.Idx → EReal) (b : Fin 2) (n : Fin 8192) (h : Fin 64) :
    Host.dotGeneral (F := Ideal) (φ₁ := .f32) (φ₂ := .f32) dot_S2x8192x64_S64x64_S2x8192x64_2_1_01_0_n_n none D W (ix3 b n h) + bias (ix2 (0 : Fin 1) h)
      = readC D W bias b n h := by
  rw [weight_stage, arr3_ix3, readC]

/-- The reference's result is the network of its arguments. -/
theorem ref_is_net
    (x0 : (⟨S2x8192x128, .f32⟩ : BufTy).Contents (Elt Ideal)) (x1 : (⟨S2x8192x8192, .f32⟩ : BufTy).Contents (Elt Ideal))
    (x2 : (⟨S64x128, .f32⟩ : BufTy).Contents (Elt Ideal)) (x3 : (⟨S64, .f32⟩ : BufTy).Contents (Elt Ideal))
    (x4 : (⟨S2x64x64, .f32⟩ : BufTy).Contents (Elt Ideal)) (x5 : (⟨S2x64, .f32⟩ : BufTy).Contents (Elt Ideal)) :
    val_main_v29 (F := Ideal) x0 x1 x2 x3 x4 x5 = net x0 x1 x2 x3 x4 x5 := by
  have e3 := lin_stage x0 x2 x3
  have e4 : val_main_v4 (F := Ideal) x0 x1 x2 x3 = diffuse x1 (lin x0 x2 (rowOf x3)) := by
    unfold val_main_v4; rw [e3]; exact diff_stage _ _
  have e5 : val_main_v5 (F := Ideal) x0 x1 x2 x3 = diffuse x1 (diffuse x1 (lin x0 x2 (rowOf x3))) := by
    unfold val_main_v5; rw [e4]; exact diff_stage _ _
  have e6 : val_main_v6 (F := Ideal) x0 x1 x2 x3 = diffuse x1 (diffuse x1 (diffuse x1 (lin x0 x2 (rowOf x3)))) := by
    unfold val_main_v6; rw [e5]; exact diff_stage _ _
  have e7 : val_main_v7 (F := Ideal) x0 x1 x2 x3 = diffuse4 x1 (lin x0 x2 (rowOf x3)) := by
    unfold val_main_v7; rw [e6]; exact diff_stage _ _
  have e16 : val_main_v16 (F := Ideal) x0 x1 x2 x3 x4 x5
      = readRelu (diffuse4 x1 (lin x0 x2 (rowOf x3))) (layerW x4 0) (layerB x5 0) := by
    funext i
    obtain ⟨b, n, h, rfl⟩ : ∃ (b : Fin 2) (n : Fin 8192) (h : Fin 64), i = ix3 b n h := ⟨i 0, i 1, i 2, eq_ix3 i⟩
    rw [val_main_v16_apply, val_main_v15_apply, zero_const, bias_zero, readRelu, arr3_ix3, Ideal.maximumf_def, Ideal.addf_def]
    unfold val_main_v10
    rw [e7, weight_zero, read_entry]
  have e17 : val_main_v17 (F := Ideal) x0 x1 x2 x3 x4 x5
      = diffuse x1 (readRelu (diffuse4 x1 (lin x0 x2 (rowOf x3))) (layerW x4 0) (layerB x5 0)) := by
    unfold val_main_v17; rw [e16]; exact diff_stage _ _
  have e18 : val_main_v18 (F := Ideal) x0 x1 x2 x3 x4 x5
      = diffuse x1 (diffuse x1 (readRelu (diffuse4 x1 (lin x0 x2 (rowOf x3))) (layerW x4 0) (layerB x5 0))) := by
    unfold val_main_v18; rw [e17]; exact diff_stage _ _
  have e19 : val_main_v19 (F := Ideal) x0 x1 x2 x3 x4 x5
      = diffuse x1 (diffuse x1 (diffuse x1 (readRelu (diffuse4 x1 (lin x0 x2 (rowOf x3))) (layerW x4 0) (layerB x5 0)))) := by
    unfold val_main_v19; rw [e18]; exact diff_stage _ _
  have e20 : val_main_v20 (F := Ideal) x0 x1 x2 x3 x4 x5
      = diffuse4 x1 (readRelu (diffuse4 x1 (lin x0 x2 (rowOf x3))) (layerW x4 0) (layerB x5 0)) := by
    unfold val_main_v20; rw [e19]; exact diff_stage _ _
  funext i
  obtain ⟨b, n, h, rfl⟩ : ∃ (b : Fin 2) (n : Fin 8192) (h : Fin 64), i = ix3 b n h := ⟨i 0, i 1, i 2, eq_ix3 i⟩
  rw [net, readRes, arr3_ix3, val_main_v29_apply, val_main_v28_apply, bias_one, Ideal.addf_def, Ideal.addf_def]
  unfold val_main_v23
  rw [e20, weight_one, read_entry]

end Cert.RefBridge

end
-- ==== Proof.lean ====
/-
  A two-layer graph network — a linear layer, four diffusion steps, a rectified readout, four more diffusion steps, a
  readout with a residual — as twelve kernel regions between short stretches of host reshapes and slices, against the
  same network written with whole-array matrix products.

  Both idealized programs compute, entry by entry over the extended reals, the one function `Cert.Spec.net` of the six
  argument arrays: the reference operation by operation (Proof/Ref.lean), the kernel region by region (Proof/KI/R*Val.lean,
  composed in Proof/KI/Value.lean). A diffusion step's 8192-term contraction is summed by the kernel in four runs of 2048
  onto an accumulator started at 0, which is the same sum because addition is commutative and associative with neutral
  element 0; no finiteness of the inputs is used. The kernel's run is proved once, for any float instance
  (Proof/KI/Chain.lean); the idealization rewrote no operation, so the word-level program is the same term as the
  idealized one and that run, read at the word-level instance, is its frame.
-/
import proofs.«137169_j48112223650339_1_alg».proof.Defs
import proofs.«137169_j48112223650339_1_alg».proof.Proof.Gen.Kernel
import proofs.«137169_j48112223650339_1_alg».proof.Proof.Gen.KernelIdeal
import proofs.«137169_j48112223650339_1_alg».proof.Proof.Gen.ReferenceIdeal
import proofs.«137169_j48112223650339_1_alg».proof.Proof.Gen.ReferenceIdeal.Run
import proofs.«137169_j48112223650339_1_alg».proof.Proof.Gen.ReferenceIdeal.Read
import proofs.«137169_j48112223650339_1_alg».proof.Proof.Gen.Pre_finite_inputs
import proofs.«137169_j48112223650339_1_alg».proof.Proof.KI.Chain
import proofs.«137169_j48112223650339_1_alg».proof.Proof.KI.Value
import proofs.«137169_j48112223650339_1_alg».proof.Proof.Ref
import Idealize.ShloMosaic.Adequacy
import Idealize.ShloMosaic.Init

noncomputable section

namespace Cert.Proof

open Idealize.ShloMosaic Idealize.ShloMosaic.TcCoe Idealize.SL.Sem
open Cert.KernelIdeal

section AnyFloats

variable {F : FTy → Type} [FloatOps F] (m : (ℓ : Loc nD τ sig) → Buf (Elt F) ℓ) (ρ : Dev nD → PrngReg)

theorem mem_uc (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-- The six argument arrays hold in `mem` what they hold in `m`. -/
abbrev ArgsKept (mem : (ℓ : Loc nD τ sig) → Buf (Elt F) ℓ) (c : Dev nD) : Prop :=
  mem ((c.tc : Thread nD τ).loc main_arg0) = m ((c.tc : Thread nD τ).loc main_arg0)
    ∧ mem ((c.tc : Thread nD τ).loc main_arg1) = m ((c.tc : Thread nD τ).loc main_arg1)
    ∧ mem ((c.tc : Thread nD τ).loc main_arg2) = m ((c.tc : Thread nD τ).loc main_arg2)
    ∧ mem ((c.tc : Thread nD τ).loc main_arg3) = m ((c.tc : Thread nD τ).loc main_arg3)
    ∧ mem ((c.tc : Thread nD τ).loc main_arg4) = m ((c.tc : Thread nD τ).loc main_arg4)
    ∧ mem ((c.tc : Thread nD τ).loc main_arg5) = m ((c.tc : Thread nD τ).loc main_arg5)

/-- No item of @main writes an argument array: the last valuation holds each as launched. -/
theorem kept (mem : (ℓ : Loc nD τ sig) → Buf (Elt F) ℓ)
    (h : ∀ c : Dev nD, ∀ b ∈ Pipeline.ucRefs τ sig, mem ((c : Thread nD τ).1, b) = Gen.V15 m (Hand.outs m) c b) (c : Dev nD) :
    ArgsKept m mem c :=
  ⟨(h c _ (mem_uc main_arg0 (by decide))).trans (Gen.V15_main_arg0 m _ c),
   (h c _ (mem_uc main_arg1 (by decide))).trans (Gen.V15_main_arg1 m _ c),
   (h c _ (mem_uc main_arg2 (by decide))).trans (Gen.V15_main_arg2 m _ c),
   (h c _ (mem_uc main_arg3 (by decide))).trans (Gen.V15_main_arg3 m _ c),
   (h c _ (mem_uc main_arg4 (by decide))).trans (Gen.V15_main_arg4 m _ c),
   (h c _ (mem_uc main_arg5 (by decide))).trans (Gen.V15_main_arg5 m _ c)⟩

theorem run_args : θ_run (defs (F := F)) (onTc (τ := τ) (main (F := F))) ⟨m, fun _ => 0, ρ⟩
    (fun r => ∀ c : Dev nD, ArgsKept m r.2.mem c) :=
  (θ_run (defs (F := F)) _ _).mono (fun r h => kept m r.2.mem h) (Hand.run_all m ρ)

end AnyFloats

-- The word-level program and the idealized one are the same term: the run above, at the word-level instance, is the former's.
set_option smartUnfolding false in
set_option maxHeartbeats 0 in
theorem frame_K : Cert.frame_Kernel := fun m ρ _ => run_args (F := Bits) m ρ

theorem frame_KI : Cert.frame_KernelIdeal := fun m ρ _ => run_args (F := Ideal) m ρ

theorem frame_RI : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The idealized kernel's run with the result array named: the network of the arguments. -/
theorem run_KI (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v22) = Hand.netOf m c ∧ ArgsKept m r.2.mem c) :=
  (θ_run (defs (F := Ideal)) _ _).mono (fun r h c =>
    ⟨(h c _ (mem_uc main_v22 (by decide))).trans (Hand.kernel_value m c), kept m r.2.mem h c⟩) (Hand.run_all m ρ)

/-- From memories that agree on the arguments both idealized programs end with the network of those arguments in
    their result arrays. -/
theorem algebraic : Cert.algebraic_KernelIdeal_ReferenceIdeal := by
  intro m ρ m' ρ' _ hagree
  refine ⟨fun c => Hand.netOf m c, run_KI m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, Cert.RefBridge.ref_is_net,
    (hagree c).1, (hagree c).2.1, (hagree c).2.2.1, (hagree c).2.2.2.1, (hagree c).2.2.2.2.1, (hagree c).2.2.2.2.2]
  rfl

theorem claim : Cert.Claim :=
  ⟨Cert.Kernel.Gen.facts, Cert.KernelIdeal.Gen.facts, Cert.ReferenceIdeal.Gen.facts, Cert.Pre_finite_inputs.Gen.facts,
    frame_K, frame_KI, frame_RI, preserves, algebraic⟩

end Cert.Proof

end
